-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S29040x128 : Shape := ⟨2, ![29040, 128]⟩
abbrev S29040x11 : Shape := ⟨2, ![29040, 11]⟩
abbrev S464640x1 : Shape := ⟨2, ![464640, 1]⟩
abbrev S290x128 : Shape := ⟨2, ![290, 128]⟩
abbrev S128 : Shape := ⟨1, ![128]⟩
abbrev S128x128 : Shape := ⟨2, ![128, 128]⟩
abbrev S384x128 : Shape := ⟨2, ![384, 128]⟩
abbrev S128x22 : Shape := ⟨2, ![128, 22]⟩
abbrev S2x464640 : Shape := ⟨2, ![2, 464640]⟩
abbrev S_ : Shape := ⟨0, ![]⟩

class Facts : Prop where
  bcast_S_S29040x128 : S_.BroadcastsInDim S29040x128 (![] : Fin 0 → Fin S29040x128.rank)
  reducesTo_S29040x128_S_d0_1 : S29040x128.ReducesTo [0, 1] S_
  h_S_ : 0 < S_.numel
  bcast_S_S29040x11 : S_.BroadcastsInDim S29040x11 (![] : Fin 0 → Fin S29040x11.rank)
  reducesTo_S29040x11_S_d0_1 : S29040x11.ReducesTo [0, 1] S_
  bcast_S_S464640x1 : S_.BroadcastsInDim S464640x1 (![] : Fin 0 → Fin S464640x1.rank)
  reducesTo_S464640x1_S_d0_1 : S464640x1.ReducesTo [0, 1] S_
  bcast_S_S290x128 : S_.BroadcastsInDim S290x128 (![] : Fin 0 → Fin S290x128.rank)
  reducesTo_S290x128_S_d0_1 : S290x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x22 : S_.BroadcastsInDim S128x22 (![] : Fin 0 → Fin S128x22.rank)
  reducesTo_S128x22_S_d0_1 : S128x22.ReducesTo [0, 1] S_
  bcast_S_S2x464640 : S_.BroadcastsInDim S2x464640 (![] : Fin 0 → Fin S2x464640.rank)
  reducesTo_S2x464640_S_d0_1 : S2x464640.ReducesTo [0, 1] S_

variable [Facts]

def fn_part4 {F : FTy → Type} [FloatOps F] (main_arg14 : FVec F S128x22 .f32) (main_arg15 : IVec S2x464640 32) (main_v63 : IVec S_ 1) (main_v67 : IVec S_ 1) : IVec S_ 1 :=
  let main_v68 : IVec S_ 1 := andi main_v63 main_v67
  let main_v69 : FVec F S128x22 .f32 := Host.absf main_arg14
  let main_cst_26 : FVec F S_ .f32 := constant S_ .f32 0x7F800000#32
  let main_v70 : FVec F S128x22 .f32 := broadcastInDim S128x22 ![] bcast_S_S128x22 main_cst_26
  let main_v71 : IVec S128x22 1 := cmpf .olt main_v69 main_v70
  let main_c_27 : IVec S_ 1 := constantI S_ 1 1#1
  let main_v72 : IVec S_ 1 := (fun x v => Host.reduce IntOp.andi x v reducesTo_S128x22_S_d0_1 h_S_) main_v71 main_c_27
  let main_v73 : IVec S_ 1 := andi main_v68 main_v72
  let main_c_28 : IVec S_ 32 := constantI S_ 32 0#32
  let main_v74 : IVec S2x464640 32 := broadcastInDim S2x464640 ![] bcast_S_S2x464640 main_c_28
  let main_v75 : IVec S2x464640 1 := cmpi .sge main_arg15 main_v74
  let main_c_29 : IVec S_ 32 := constantI S_ 32 29040#32
  let main_v76 : IVec S2x464640 32 := broadcastInDim S2x464640 ![] bcast_S_S2x464640 main_c_29
  let main_v77 : IVec S2x464640 1 := cmpi .slt main_arg15 main_v76
  let main_v78 : IVec S2x464640 1 := andi main_v75 main_v77
  let main_c_30 : IVec S_ 1 := constantI S_ 1 1#1
  let main_v79 : IVec S_ 1 := (fun x v => Host.reduce IntOp.andi x v reducesTo_S2x464640_S_d0_1 h_S_) main_v78 main_c_30
  let main_v80 : IVec S_ 1 := andi main_v73 main_v79
  main_v80

def fn_part3 {F : FTy → Type} [FloatOps F] (main_arg11 : FVec F S128 .f32) (main_arg12 : FVec F S128x128 .f32) (main_arg13 : FVec F S128 .f32) (main_arg14 : FVec F S128x22 .f32) (main_arg15 : IVec S2x464640 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S384x128 .f32) (main_arg9 : FVec F S128 .f32) (main_arg10 : FVec F S128x128 .f32) (main_arg11 : FVec F S128 .f32) (main_arg12 : FVec F S128x128 .f32) (main_arg13 : FVec F S128 .f32) (main_arg14 : FVec F S128x22 .f32) (main_arg15 : IVec S2x464640 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg8
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S290x128 .f32) (main_arg5 : FVec F S128 .f32) (main_arg6 : FVec F S128x128 .f32) (main_arg7 : FVec F S128 .f32) (main_arg8 : FVec F S384x128 .f32) (main_arg9 : FVec F S128 .f32) (main_arg10 : FVec F S128x128 .f32) (main_arg11 : FVec F S128 .f32) (main_arg12 : FVec F S128x128 .f32) (main_arg13 : FVec F S128 .f32) (main_arg14 : FVec F S128x22 .f32) (main_arg15 : IVec S2x464640 32) (main_v13 : IVec S_ 1) (main_v16 : IVec S464640x1 1) : IVec S_ 1 :=
  let main_c_5 : IVec S_ 1 := constantI S_ 1 1#1
  let main_v17 : IVec S_ 1 := (fun x v => Host.reduce IntOp.andi x v reducesTo_S464640x1_S_d0_1 h_S_) main_v16 main_c_5
  let main_v18 : IVec S_ 1 := andi main_v13 main_v17
  let main_v19 : FVec F S290x128 .f32 := Host.absf main_arg4
  let main_cst_6 : FVec F S_ .f32 := constant S_ .f32 0x7F800000#32
  let main_v20 : FVec F S290x128 .f32 := broadcastInDim S290x128 ![] bcast_S_S290x128 main_cst_6
  let main_v21 : IVec S290x128 1 := cmpf .olt main_v19 main_v20
  let main_c_7 : IVec S_ 1 := constantI S_ 1 1#1
  let main_v22 : IVec S_ 1 := (fun x v => Host.reduce IntOp.andi x v reducesTo_S290x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S29040x128 .f32) (main_arg1 : FVec F S29040x11 .f32) (main_arg2 : FVec F S29040x11 .f32) (main_arg3 : FVec F S464640x1 .f32) (main_arg4 : FVec F S290x128 .f32) (main_arg5 : FVec F S128 .f32) (main_arg6 : FVec F S128x128 .f32) (main_arg7 : FVec F S128 .f32) (main_arg8 : FVec F S384x128 .f32) (main_arg9 : FVec F S128 .f32) (main_arg10 : FVec F S128x128 .f32) (main_arg11 : FVec F S128 .f32) (main_arg12 : FVec F S128x128 .f32) (main_arg13 : FVec F S128 .f32) (main_arg14 : FVec F S128x22 .f32) (main_arg15 : IVec S2x464640 32) : IVec S_ 1 :=
  let main_v0 : FVec F S29040x128 .f32 := Host.absf main_arg0
  let main_cst : FVec F S_ .f32 := constant S_ .f32 0x7F800000#32
  let main_v1 : FVec F S29040x128 .f32 := broadcastInDim S29040x128 ![] bcast_S_S29040x128 main_cst
  let main_v2 : IVec S29040x128 1 := cmpf .olt main_v0 main_v1
  let main_c : IVec S_ 1 := constantI S_ 1 1#1
  let main_v3 : IVec S_ 1 := (fun x v => Host.reduce IntOp.andi x v reducesTo_S29040x128_S_d0_1 h_S_) main_v2 main_c
  let main_v4 : FVec F S29040x11 .f32 := Host.absf main_arg1
  let main_cst_0 : FVec F S_ .f32 := constant S_ .f32 0x7F800000#32
  let main_v5 : FVec F S29040x11 .f32 := broadcastInDim S29040x11 ![] bcast_S_S29040x11 main_cst_0
  let main_v6 : IVec S29040x11 1 := cmpf .olt main_v4 main_v5
  let main_c_1 : IVec S_ 1 := constantI S_ 1 1#1
  let main_v7 : IVec S_ 1 := (fun x v => Host.reduce IntOp.andi x v reducesTo_S29040x11_S_d0_1 h_S_) main_v6 main_c_1
  let main_v8 : IVec S_ 1 := andi main_v3 main_v7
  let main_v9 : FVec F S29040x11 .f32 := Host.absf main_arg2
  let main_cst_2 : FVec F S_ .f32 := constant S_ .f32 0x7F800000#32
  let main_v10 : FVec F S29040x11 .f32 := broadcastInDim S29040x11 ![] bcast_S_S29040x11 main_cst_2
  let main_v11 : IVec S29040x11 1 := cmpf .olt main_v9 main_v10
  let main_c_3 : IVec S_ 1 := constantI S_ 1 1#1
  let main_v12 : IVec S_ 1 := (fun x v => Host.reduce IntOp.andi x v reducesTo_S29040x11_S_d0_1 h_S_) main_v11 main_c_3
  let main_v13 : IVec S_ 1 := andi main_v8 main_v12
  let main_v14 : FVec F S464640x1 .f32 := Host.absf main_arg3
  let main_cst_4 : FVec F S_ .f32 := constant S_ .f32 0x7F800000#32
  let main_v15 : FVec F S464640x1 .f32 := broadcastInDim S464640x1 ![] bcast_S_S464640x1 main_cst_4
  let main_v16 : IVec S464640x1 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S29040x128 : Shape := ⟨2, ![29040, 128]⟩
abbrev S29040x11 : Shape := ⟨2, ![29040, 11]⟩
abbrev S464640x1 : Shape := ⟨2, ![464640, 1]⟩
abbrev S290x128 : Shape := ⟨2, ![290, 128]⟩
abbrev S128 : Shape := ⟨1, ![128]⟩
abbrev S128x128 : Shape := ⟨2, ![128, 128]⟩
abbrev S384x128 : Shape := ⟨2, ![384, 128]⟩
abbrev S128x22 : Shape := ⟨2, ![128, 22]⟩
abbrev S2x464640 : Shape := ⟨2, ![2, 464640]⟩
abbrev S1x464640 : Shape := ⟨2, ![1, 464640]⟩
abbrev S464640 : Shape := ⟨1, ![464640]⟩
abbrev S_ : Shape := ⟨0, ![]⟩
abbrev S1 : Shape := ⟨1, ![1]⟩
abbrev S1x1 : Shape := ⟨2, ![1, 1]⟩
abbrev S464640x128 : Shape := ⟨2, ![464640, 128]⟩
abbrev S464640x11 : Shape := ⟨2, ![464640, 11]⟩
abbrev S34x128 : Shape := ⟨2, ![34, 128]⟩
abbrev S1x128 : Shape := ⟨2, ![1, 128]⟩
abbrev S464640x22 : Shape := ⟨2, ![464640, 22]⟩
abbrev S2816x128 : Shape := ⟨2, ![2816, 128]⟩
abbrev S2816x11 : Shape := ⟨2, ![2816, 11]⟩
abbrev S2816x1 : Shape := ⟨2, ![2816, 1]⟩
abbrev S2816x22 : Shape := ⟨2, ![2816, 22]⟩
abbrev S2816x34 : Shape := ⟨2, ![2816, 34]⟩
abbrev S2816 : Shape := ⟨1, ![2816]⟩
abbrev S29040 : Shape := ⟨1, ![29040]⟩
abbrev S29040x1 : Shape := ⟨2, ![29040, 1]⟩
abbrev S29040x22 : Shape := ⟨2, ![29040, 22]⟩
abbrev S2640x128 : Shape := ⟨2, ![2640, 128]⟩
abbrev S11x240x128 : Shape := ⟨3, ![11, 240, 128]⟩
abbrev S11x128 : Shape := ⟨2, ![11, 128]⟩
abbrev S11x1x128 : Shape := ⟨3, ![11, 1, 128]⟩

abbrev nBuf : Space → Nat
  | .hbm => 212
  | .vmem => 39
  | .smem => 0
  | _ => 0

abbrev hbmTy0_0 (i : Nat) : BufTy := match i % 128 with
  | 0 => ⟨S29040x128, .f32⟩
  | 1 => ⟨S29040x11, .f32⟩
  | 2 => ⟨S29040x11, .f32⟩
  | 3 => ⟨S464640x1, .f32⟩
  | 4 => ⟨S290x128, .f32⟩
  | 5 => ⟨S128, .f32⟩
  | 6 => ⟨S128x128, .f32⟩
  | 7 => ⟨S128, .f32⟩
  | 8 => ⟨S384x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x22, .f32⟩
  | 15 => ⟨S2x464640, .i32⟩
  | 16 => ⟨S1x464640, .i32⟩
  | 17 => ⟨S464640, .i32⟩
  | 18 => ⟨S1x464640, .i32⟩
  | 19 => ⟨S464640, .i32⟩
  | 20 => ⟨S_, .i32⟩
  | 21 => ⟨S464640, .i32⟩
  | 22 => ⟨S464640, .i1⟩
  | 23 => ⟨S_, .i32⟩
  | 24 => ⟨S464640, .i32⟩
  | 25 => ⟨S464640, .i32⟩
  | 26 => ⟨S464640, .i32⟩
  | 27 => ⟨S464640x1, .i32⟩
  | 28 => ⟨S1, .i32⟩
  | 29 => ⟨S_, .i32⟩
  | 30 => ⟨S464640x1, .i32⟩
  | 31 => ⟨S464640x1, .i1⟩
  | 32 => ⟨S1x1, .i32⟩
  | 33 => ⟨S464640x1, .i32⟩
  | 34 => ⟨S464640x1, .i1⟩
  | 35 => ⟨S464640x1, .i1⟩
  | 36 => ⟨S_, .i1⟩
  | 37 => ⟨S464640, .i1⟩
  | 38 => ⟨S464640x128, .f32⟩
  | 39 => ⟨S464640x128, .i1⟩
  | 40 => ⟨S_, .f32⟩
  | 41 => ⟨S464640x128, .f32⟩
  | 42 => ⟨S464640x128, .f32⟩
  | 43 => ⟨S_, .i32⟩
  | 44 => ⟨S464640, .i32⟩
  | 45 => ⟨S464640, .i1⟩
  | 46 => ⟨S_, .i32⟩
  | 47 => ⟨S464640, .i32⟩
  | 48 => ⟨S464640, .i32⟩
  | 49 => ⟨S464640, .i32⟩
  | 50 => ⟨S464640x1, .i32⟩
  | 51 => ⟨S1, .i32⟩
  | 52 => ⟨S_, .i32⟩
  | 53 => ⟨S464640x1, .i32⟩
  | 54 => ⟨S464640x1, .i1⟩
  | 55 => ⟨S1x1, .i32⟩
  | 56 => ⟨S464640x1, .i32⟩
  | 57 => ⟨S464640x1, .i1⟩
  | 58 => ⟨S464640x1, .i1⟩
  | 59 => ⟨S_, .i1⟩
  | 60 => ⟨S464640, .i1⟩
  | 61 => ⟨S464640x128, .f32⟩
  | 62 => ⟨S464640x128, .i1⟩
  | 63 => ⟨S_, .f32⟩
  | 64 => ⟨S464640x128, .f32⟩
  | 65 => ⟨S464640x128, .f32⟩
  | 66 => ⟨S_, .i32⟩
  | 67 => ⟨S464640, .i32⟩
  | 68 => ⟨S464640, .i1⟩
  | 69 => ⟨S_, .i32⟩
  | 70 => ⟨S464640, .i32⟩
  | 71 => ⟨S464640, .i32⟩
  | 72 => ⟨S464640, .i32⟩
  | 73 => ⟨S464640x1, .i32⟩
  | 74 => ⟨S1, .i32⟩
  | 75 => ⟨S_, .i32⟩
  | 76 => ⟨S464640x1, .i32⟩
  | 77 => ⟨S464640x1, .i1⟩
  | 78 => ⟨S1x1, .i32⟩
  | 79 => ⟨S464640x1, .i32⟩
  | 80 => ⟨S464640x1, .i1⟩
  | 81 => ⟨S464640x1, .i1⟩
  | 82 => ⟨S_, .i1⟩
  | 83 => ⟨S464640, .i1⟩
  | 84 => ⟨S464640x11, .f32⟩
  | 85 => ⟨S464640x11, .i1⟩
  | 86 => ⟨S_, .f32⟩
  | 87 => ⟨S464640x11, .f32⟩
  | 88 => ⟨S464640x11, .f32⟩
  | 89 => ⟨S_, .i32⟩
  | 90 => ⟨S464640, .i32⟩
  | 91 => ⟨S464640, .i1⟩
  | 92 => ⟨S_, .i32⟩
  | 93 => ⟨S464640, .i32⟩
  | 94 => ⟨S464640, .i32⟩
  | 95 => ⟨S464640, .i32⟩
  | 96 => ⟨S464640x1, .i32⟩
  | 97 => ⟨S1, .i32⟩
  | 98 => ⟨S_, .i32⟩
  | 99 => ⟨S464640x1, .i32⟩
  | 100 => ⟨S464640x1, .i1⟩
  | 101 => ⟨S1x1, .i32⟩
  | 102 => ⟨S464640x1, .i32⟩
  | 103 => ⟨S464640x1, .i1⟩
  | 104 => ⟨S464640x1, .i1⟩
  | 105 => ⟨S_, .i1⟩
  | 106 => ⟨S464640, .i1⟩
  | 107 => ⟨S464640x11, .f32⟩
  | 108 => ⟨S464640x11, .i1⟩
  | 109 => ⟨S_, .f32⟩
  | 110 => ⟨S464640x11, .f32⟩
  | 111 => ⟨S464640x11, .f32⟩
  | 112 => ⟨S_, .i32⟩
  | 113 => ⟨S464640, .i32⟩
  | 114 => ⟨S464640, .i1⟩
  | 115 => ⟨S_, .i32⟩
  | 116 => ⟨S464640, .i32⟩
  | 117 => ⟨S464640, .i32⟩
  | 118 => ⟨S464640, .i32⟩
  | 119 => ⟨S464640x1, .i32⟩
  | 120 => ⟨S1, .i32⟩
  | 121 => ⟨S_, .i32⟩
  | 122 => ⟨S464640x1, .i32⟩
  | 123 => ⟨S464640x1, .i1⟩
  | 124 => ⟨S1x1, .i32⟩
  | 125 => ⟨S464640x1, .i32⟩
  | 126 => ⟨S464640x1, .i1⟩
  | 127 => ⟨S464640x1, .i1⟩
  | _ => ⟨S29040x128, .f32⟩

abbrev hbmTy0_1 (i : Nat) : BufTy := match i % 128 with
  | 0 => ⟨S_, .i1⟩
  | 1 => ⟨S464640, .i1⟩
  | 2 => ⟨S464640x11, .f32⟩
  | 3 => ⟨S464640x11, .i1⟩
  | 4 => ⟨S_, .f32⟩
  | 5 => ⟨S464640x11, .f32⟩
  | 6 => ⟨S464640x11, .f32⟩
  | 7 => ⟨S_, .i32⟩
  | 8 => ⟨S464640, .i32⟩
  | 9 => ⟨S464640, .i1⟩
  | 10 => ⟨S_, .i32⟩
  | 11 => ⟨S464640, .i32⟩
  | 12 => ⟨S464640, .i32⟩
  | 13 => ⟨S464640, .i32⟩
  | 14 => ⟨S464640x1, .i32⟩
  | 15 => ⟨S1, .i32⟩
  | 16 => ⟨S_, .i32⟩
  | 17 => ⟨S464640x1, .i32⟩
  | 18 => ⟨S464640x1, .i1⟩
  | 19 => ⟨S1x1, .i32⟩
  | 20 => ⟨S464640x1, .i32⟩
  | 21 => ⟨S464640x1, .i1⟩
  | 22 => ⟨S464640x1, .i1⟩
  | 23 => ⟨S_, .i1⟩
  | 24 => ⟨S464640, .i1⟩
  | 25 => ⟨S464640x11, .f32⟩
  | 26 => ⟨S464640x11, .i1⟩
  | 27 => ⟨S_, .f32⟩
  | 28 => ⟨S464640x11, .f32⟩
  | 29 => ⟨S464640x11, .f32⟩
  | 30 => ⟨S128x128, .f32⟩
  | 31 => ⟨S128x128, .f32⟩
  | 32 => ⟨S34x128, .f32⟩
  | 33 => ⟨S1x128, .f32⟩
  | 34 => ⟨S1x128, .f32⟩
  | 35 => ⟨S1x128, .f32⟩
  | 36 => ⟨S464640x128, .f32⟩
  | 37 => ⟨S464640x22, .f32⟩
  | 38 => ⟨S_, .f32⟩
  | 39 => ⟨S29040x128, .f32⟩
  | 40 => ⟨S464640x1, .i32⟩
  | 41 => ⟨S29040x128, .f32⟩
  | 42 => ⟨S_, .f32⟩
  | 43 => ⟨S464640, .f32⟩
  | 44 => ⟨S_, .f32⟩
  | 45 => ⟨S29040, .f32⟩
  | 46 => ⟨S464640x1, .i32⟩
  | 47 => ⟨S29040, .f32⟩
  | 48 => ⟨S_, .f32⟩
  | 49 => ⟨S29040, .f32⟩
  | 50 => ⟨S29040, .f32⟩
  | 51 => ⟨S29040x1, .f32⟩
  | 52 => ⟨S_, .f32⟩
  | 53 => ⟨S29040x22, .f32⟩
  | 54 => ⟨S464640x1, .i32⟩
  | 55 => ⟨S29040x22, .f32⟩
  | 56 => ⟨S29040x11, .f32⟩
  | 57 => ⟨S29040x11, .f32⟩
  | 58 => ⟨S29040x11, .f32⟩
  | 59 => ⟨S_, .f32⟩
  | 60 => ⟨S_, .f32⟩
  | 61 => ⟨S_, .f32⟩
  | 62 => ⟨S29040x11, .f32⟩
  | 63 => ⟨S29040x11, .f32⟩
  | 64 => ⟨S_, .f32⟩
  | 65 => ⟨S29040x11, .f32⟩
  | 66 => ⟨S29040x11, .f32⟩
  | 67 => ⟨S29040x11, .f32⟩
  | 68 => ⟨S29040x11, .f32⟩
  | 69 => ⟨S29040x11, .f32⟩
  | 70 => ⟨S_, .f32⟩
  | 71 => ⟨S_, .f32⟩
  | 72 => ⟨S_, .f32⟩
  | 73 => ⟨S29040x11, .f32⟩
  | 74 => ⟨S29040x11, .f32⟩
  | 75 => ⟨S_, .f32⟩
  | 76 => ⟨S29040x11, .f32⟩
  | 77 => ⟨S29040x11, .f32⟩
  | 78 => ⟨S128x128, .f32⟩
  | 79 => ⟨S128x128, .f32⟩
  | 80 => ⟨S128x128, .f32⟩
  | 81 => ⟨S1x128, .f32⟩
  | 82 => ⟨S1x128, .f32⟩
  | 83 => ⟨S29040x128, .f32⟩
  | _ => ⟨S29040x128, .f32⟩

abbrev hbmTy (i : Nat) : BufTy := match i / 128 with
  | 0 => hbmTy0_0 i
  | 1 => hbmTy0_1 i
  | _ => ⟨S29040x128, .f32⟩

abbrev bufTy : (tb : Table) → Fin (tcTables nBuf tb) → BufTy
  | .hbm, ⟨i, _⟩ => hbmTy i
  | .local _ .vmem, ⟨0, _⟩ => ⟨S2816x128, .f32⟩
  | .local _ .vmem, ⟨1, _⟩ => ⟨S2816x128, .f32⟩
  | .local _ .vmem, ⟨2, _⟩ => ⟨S2816x128, .f32⟩
  | .local _ .vmem, ⟨3, _⟩ => ⟨S2816x128, .f32⟩
  | .local _ .vmem, ⟨4, _⟩ => ⟨S2816x11, .f32⟩
  | .local _ .vmem, ⟨5, _⟩ => ⟨S2816x11, .f32⟩
  | .local _ .vmem, ⟨6, _⟩ => ⟨S2816x11, .f32⟩
  | .local _ .vmem, ⟨7, _⟩ => ⟨S2816x11, .f32⟩
  | .local _ .vmem, ⟨8, _⟩ => ⟨S2816x11, .f32⟩
  | .local _ .vmem, ⟨9, _⟩ => ⟨S2816x11, .f32⟩
  | .local _ .vmem, ⟨10, _⟩ => ⟨S2816x11, .f32⟩
  | .local _ .vmem, ⟨11, _⟩ => ⟨S2816x11, .f32⟩
  | .local _ .vmem, ⟨12, _⟩ => ⟨S2816x1, .f32⟩
  | .local _ .vmem, ⟨13, _⟩ => ⟨S2816x1, .f32⟩
  | .local _ .vmem, ⟨14, _⟩ => ⟨S128x128, .f32⟩
  | .local _ .vmem, ⟨15, _⟩ => ⟨S128x128, .f32⟩
  | .local _ .vmem, ⟨16, _⟩ => ⟨S34x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x22, .f32⟩
  | .local _ .vmem, ⟨23, _⟩ => ⟨S2816x128, .f32⟩
  | .local _ .vmem, ⟨24, _⟩ => ⟨S2816x128, .f32⟩
  | .local _ .vmem, ⟨25, _⟩ => ⟨S2816x22, .f32⟩
  | .local _ .vmem, ⟨26, _⟩ => ⟨S2816x22, .f32⟩
  | .local _ .vmem, ⟨27, _⟩ => ⟨S2640x128, .f32⟩
  | .local _ .vmem, ⟨28, _⟩ => ⟨S2640x128, .f32⟩
  | .local _ .vmem, ⟨29, _⟩ => ⟨S2640x128, .f32⟩
  | .local _ .vmem, ⟨30, _⟩ => ⟨S2640x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S2640x128, .f32⟩
  | .local _ .vmem, ⟨38, _⟩ => ⟨S2640x128, .f32⟩
  | _, _ => ⟨S29040x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v5 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v6 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v7 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_call4_cst : Ref sig .tc := ⟨.hbm, 132, rfl⟩
abbrev main_call4_v15 : Ref sig .tc := ⟨.hbm, 133, rfl⟩
abbrev main_v8 : Ref sig .tc := ⟨.hbm, 134, rfl⟩
abbrev main_call5_c : Ref sig .tc := ⟨.hbm, 135, rfl⟩
abbrev main_call5_v0 : Ref sig .tc := ⟨.hbm, 136, rfl⟩
abbrev main_call5_v1 : Ref sig .tc := ⟨.hbm, 137, rfl⟩
abbrev main_call5_c_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_c_1 : Ref sig .tc := ⟨.hbm, 143, rfl⟩
abbrev main_call5_c_2 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_c_3 : Ref sig .tc := ⟨.hbm, 151, rfl⟩
abbrev main_call5_v12 : Ref sig .tc := ⟨.hbm, 152, rfl⟩
abbrev main_call5_v13 : Ref sig .tc := ⟨.hbm, 153, rfl⟩
abbrev main_call5_v14 : Ref sig .tc := ⟨.hbm, 154, rfl⟩
abbrev main_call5_cst : Ref sig .tc := ⟨.hbm, 155, rfl⟩
abbrev main_call5_v15 : Ref sig .tc := ⟨.hbm, 156, rfl⟩
abbrev main_v9 : Ref sig .tc := ⟨.hbm, 157, rfl⟩
abbrev main_v10 : Ref sig .tc := ⟨.hbm, 158, rfl⟩
abbrev main_v11 : Ref sig .tc := ⟨.hbm, 159, rfl⟩
abbrev main_v12 : Ref sig .tc := ⟨.hbm, 160, rfl⟩
abbrev main_v13 : Ref sig .tc := ⟨.hbm, 161, rfl⟩
abbrev main_v14 : Ref sig .tc := ⟨.hbm, 162, rfl⟩
abbrev main_v15 : Ref sig .tc := ⟨.hbm, 163, rfl⟩
abbrev main_v16_0 : Ref sig .tc := ⟨.hbm, 164, rfl⟩
abbrev main_v16_1 : Ref sig .tc := ⟨.hbm, 165, rfl⟩
abbrev main_cst : Ref sig .tc := ⟨.hbm, 166, rfl⟩
abbrev main_v17 : Ref sig .tc := ⟨.hbm, 167, rfl⟩
abbrev main_v18 : Ref sig .tc := ⟨.hbm, 168, rfl⟩
abbrev main_v19 : Ref sig .tc := ⟨.hbm, 169, rfl⟩
abbrev main_cst_0 : Ref sig .tc := ⟨.hbm, 170, rfl⟩
abbrev main_v20 : Ref sig .tc := ⟨.hbm, 171, rfl⟩
abbrev main_cst_1 : Ref sig .tc := ⟨.hbm, 172, rfl⟩
abbrev main_v21 : Ref sig .tc := ⟨.hbm, 173, rfl⟩
abbrev main_v22 : Ref sig .tc := ⟨.hbm, 174, rfl⟩
abbrev main_v23 : Ref sig .tc := ⟨.hbm, 175, rfl⟩
abbrev main_cst_2 : Ref sig .tc := ⟨.hbm, 176, rfl⟩
abbrev main_v24 : Ref sig .tc := ⟨.hbm, 177, rfl⟩
abbrev main_v25 : Ref sig .tc := ⟨.hbm, 178, rfl⟩
abbrev main_v26 : Ref sig .tc := ⟨.hbm, 179, rfl⟩
abbrev main_cst_3 : Ref sig .tc := ⟨.hbm, 180, rfl⟩
abbrev main_v27 : Ref sig .tc := ⟨.hbm, 181, rfl⟩
abbrev main_v28 : Ref sig .tc := ⟨.hbm, 182, rfl⟩
abbrev main_v29 : Ref sig .tc := ⟨.hbm, 183, rfl⟩
abbrev main_v30 : Ref sig .tc := ⟨.hbm, 184, rfl⟩
abbrev main_v31 : Ref sig .tc := ⟨.hbm, 185, rfl⟩
abbrev main_v32 : Ref sig .tc := ⟨.hbm, 186, rfl⟩
abbrev main_cst_4 : Ref sig .tc := ⟨.hbm, 187, rfl⟩
abbrev main_cst_5 : Ref sig .tc := ⟨.hbm, 188, rfl⟩
abbrev main_call6_v0 : Ref sig .tc := ⟨.hbm, 189, rfl⟩
abbrev main_call6_v1 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_v33 : Ref sig .tc := ⟨.hbm, 194, rfl⟩
abbrev main_v34 : Ref sig .tc := ⟨.hbm, 195, rfl⟩
abbrev main_v35 : Ref sig .tc := ⟨.hbm, 196, rfl⟩
abbrev main_v36 : Ref sig .tc := ⟨.hbm, 197, rfl⟩
abbrev main_cst_6 : Ref sig .tc := ⟨.hbm, 198, rfl⟩
abbrev main_cst_7 : Ref sig .tc := ⟨.hbm, 199, rfl⟩
abbrev main_call7_v0 : Ref sig .tc := ⟨.hbm, 200, rfl⟩
abbrev main_call7_v1 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_v37 : Ref sig .tc := ⟨.hbm, 205, rfl⟩
abbrev main_v38 : Ref sig .tc := ⟨.hbm, 206, rfl⟩
abbrev main_v39 : Ref sig .tc := ⟨.hbm, 207, rfl⟩
abbrev main_v40 : Ref sig .tc := ⟨.hbm, 208, rfl⟩
abbrev main_v41 : Ref sig .tc := ⟨.hbm, 209, rfl⟩
abbrev main_v42 : Ref sig .tc := ⟨.hbm, 210, rfl⟩
abbrev main_v43 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg8_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem3_0 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem8_1 : DmaSem sig := 38

abbrev nD : Nat := 1
abbrev τ : Topo := Topo.v7x

variable {F : FTy → Type} [FloatOps F]

abbrev grid0 : Pipeline.Grid := ⟨1, ![165], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2816x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2816x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2816x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2816x11 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2816x11 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2816x11 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2816x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S34x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x22 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2816x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2816x22 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2640x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2640x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2640x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x464640_S1x464640_0_0 : S2x464640.Slices ![0, 0] S1x464640
  shapeCasts_S1x464640_S464640 : S1x464640.ShapeCasts S464640
  slices_S2x464640_S1x464640_1_0 : S2x464640.Slices ![1, 0] S1x464640
  bcast_S_S464640 : S_.BroadcastsInDim S464640 (![] : Fin 0 → Fin S464640.rank)
  bcast_S464640_S464640x1_0 : S464640.BroadcastsInDim S464640x1 (![0] : Fin 1 → Fin S464640x1.rank)
  bcast_S_S464640x1 : S_.BroadcastsInDim S464640x1 (![] : Fin 0 → Fin S464640x1.rank)
  bcast_S1_S1x1_1 : S1.BroadcastsInDim S1x1 (![1] : Fin 1 → Fin S1x1.rank)
  bcast_S1x1_S464640x1_0_1 : S1x1.BroadcastsInDim S464640x1 (![0, 1] : Fin 2 → Fin S464640x1.rank)
  reducesTo_S464640x1_S464640_d1 : S464640x1.ReducesTo [1] S464640
  h_S_ : 0 < S_.numel
  bcast_S464640_S464640x128_0 : S464640.BroadcastsInDim S464640x128 (![0] : Fin 1 → Fin S464640x128.rank)
  bcast_S_S464640x128 : S_.BroadcastsInDim S464640x128 (![] : Fin 0 → Fin S464640x128.rank)
  bcast_S464640_S464640x11_0 : S464640.BroadcastsInDim S464640x11 (![0] : Fin 1 → Fin S464640x11.rank)
  bcast_S_S464640x11 : S_.BroadcastsInDim S464640x11 (![] : Fin 0 → Fin S464640x11.rank)
  slices_S290x128_S128x128_0_0 : S290x128.Slices ![0, 0] S128x128
  slices_S290x128_S128x128_128_0 : S290x128.Slices ![128, 0] S128x128
  slices_S290x128_S34x128_256_0 : S290x128.Slices ![256, 0] S34x128
  shapeCasts_S128_S1x128 : S128.ShapeCasts S1x128
  inb_S2816x128_S2816x128_0_0 : ∀ a, (![0, 0] : Fin 2 → Nat) a + S2816x128.size a ≤ S2816x128.size a
  h_S2816x128 : 0 < S2816x128.numel
  shapeCasts_S2816x128_S2816x128 : S2816x128.ShapeCasts S2816x128
  inb_S2816x11_S2816x11_0_0 : ∀ a, (![0, 0] : Fin 2 → Nat) a + S2816x11.size a ≤ S2816x11.size a
  h_S2816x11 : 0 < S2816x11.numel
  shapeCasts_S2816x11_S2816x11 : S2816x11.ShapeCasts S2816x11
  inb_S2816x1_S2816x1_0_0 : ∀ a, (![0, 0] : Fin 2 → Nat) a + S2816x1.size a ≤ S2816x1.size a
  h_S2816x1 : 0 < S2816x1.numel
  concatenates_S2816x11_S2816x11_S2816x11_S2816x1_S2816x34_d1 : Shape.Concatenates [S2816x11, S2816x11, S2816x11, S2816x1] S2816x34 1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S34x128_S34x128_0_0 : ∀ a, (![0, 0] : Fin 2 → Nat) a + S34x128.size a ≤ S34x128.size a
  h_S34x128 : 0 < S34x128.numel
  shapeCasts_S34x128_S34x128 : S34x128.ShapeCasts S34x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2816x128 : S1x128.Broadcasts S2816x128
  inb_S128x22_S128x22_0_0 : ∀ a, (![0, 0] : Fin 2 → Nat) a + S128x22.size a ≤ S128x22.size a
  h_S128x22 : 0 < S128x22.numel
  reduces_S2816x11_S2816 : S2816x11.Reduces [1] S2816
  shapeCasts_S2816_S2816x1 : S2816.ShapeCasts S2816x1
  slices_S2816x22_o0_0_S2816x11 : S2816x22.Slices ![0, 0] S2816x11
  broadcasts_S2816x1_S2816x11 : S2816x1.Broadcasts S2816x11
  slices_S2816x22_o0_11_S2816x11 : S2816x22.Slices ![0, 11] S2816x11
  concatenates_S2816x11_S2816x11_S2816x22_d1 : Shape.Concatenates [S2816x11, S2816x11] S2816x22 1
  inb_S2816x22_S2816x22_0_0 : ∀ a, (![0, 0] : Fin 2 → Nat) a + S2816x22.size a ≤ S2816x22.size a
  h_S2816x22 : 0 < S2816x22.numel
  bcast_S_S29040x128 : S_.BroadcastsInDim S29040x128 (![] : Fin 0 → Fin S29040x128.rank)
  bcast_S_S29040 : S_.BroadcastsInDim S29040 (![] : Fin 0 → Fin S29040.rank)
  bcast_S29040_S29040x1_0 : S29040.BroadcastsInDim S29040x1 (![0] : Fin 1 → Fin S29040x1.rank)
  bcast_S_S29040x22 : S_.BroadcastsInDim S29040x22 (![] : Fin 0 → Fin S29040x22.rank)
  slices_S29040x22_S29040x11_0_0 : S29040x22.Slices ![0, 0] S29040x11
  bcast_S29040x1_S29040x11_0_1 : S29040x1.BroadcastsInDim S29040x11 (![0, 1] : Fin 2 → Fin S29040x11.rank)
  bcast_S_S29040x11 : S_.BroadcastsInDim S29040x11 (![] : Fin 0 → Fin S29040x11.rank)
  slices_S29040x22_S29040x11_0_11 : S29040x22.Slices ![0, 11] S29040x11
  slices_S384x128_S128x128_0_0 : S384x128.Slices ![0, 0] S128x128
  slices_S384x128_S128x128_128_0 : S384x128.Slices ![128, 0] S128x128
  slices_S384x128_S128x128_256_0 : S384x128.Slices ![256, 0] S128x128
  inb_S2640x128_S2640x128_0_0 : ∀ a, (![0, 0] : Fin 2 → Nat) a + S2640x128.size a ≤ S2640x128.size a
  h_S2640x128 : 0 < S2640x128.numel
  shapeCasts_S2640x128_S2640x128 : S2640x128.ShapeCasts S2640x128
  shapeCasts_S2640x128_S11x240x128 : S2640x128.ShapeCasts S11x240x128
  reduces_S11x240x128_S11x128 : S11x240x128.Reduces [1] S11x128
  shapeCasts_S11x128_S11x1x128 : S11x128.ShapeCasts S11x1x128
  shapeCasts_S11x1x128_S11x1x128 : S11x1x128.ShapeCasts S11x1x128
  broadcasts_S11x1x128_S11x240x128 : S11x1x128.Broadcasts S11x240x128
  shapeCasts_S11x240x128_S2640x128 : S11x240x128.ShapeCasts S2640x128
  broadcasts_S1x128_S2640x128 : S1x128.Broadcasts S2640x128
  gather_S29040x128_S464640x1_S464640x128_1_0_n_n_0_1_1128_wf : GatherDims.WF S29040x128 S464640x1 S464640x128 [1] [0] [] [0] [] 1 ![1, 128]
  gather_S29040x11_S464640x1_S464640x11_1_0_n_n_0_1_111_wf : GatherDims.WF S29040x11 S464640x1 S464640x11 [1] [0] [] [0] [] 1 ![1, 11]
  dot_S2816x128_S128x128_S2816x128_1_0_0_1_n_n_wf : DotDims.WF S2816x128 S128x128 S2816x128 [1] [0] [0] [1] [] []
  dot_S2816x34_S34x128_S2816x128_1_0_0_1_n_n_wf : DotDims.WF S2816x34 S34x128 S2816x128 [1] [0] [0] [1] [] []
  dot_S2816x128_S128x22_S2816x22_1_0_0_1_n_n_wf : DotDims.WF S2816x128 S128x22 S2816x22 [1] [0] [0] [1] [] []
  scatter_S29040x128_S464640x1_S464640x128_1_0_0_1_wf : ScatterDims.WF S29040x128 S464640x1 S464640x128 [1] [0] [0] 1
  scatter_S29040_S464640x1_S464640_n_0_0_1_wf : ScatterDims.WF S29040 S464640x1 S464640 [] [0] [0] 1
  scatter_S29040x22_S464640x1_S464640x22_1_0_0_1_wf : ScatterDims.WF S29040x22 S464640x1 S464640x22 [1] [0] [0] 1
  dot_S2640x128_S128x128_S2640x128_1_0_0_1_n_n_wf : DotDims.WF S2640x128 S128x128 S2640x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2816x128.size a ≤ S464640x128.size a
  hwx0_0 : ∀ i : grid0.Coords, EltTy.bits .f32 = 32 ∨ (Rect.block (s := S464640x128) S2816x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2816x128.size a ≤ S464640x128.size a
  hwx0_1 : ∀ i : grid0.Coords, EltTy.bits .f32 = 32 ∨ (Rect.block (s := S464640x128) S2816x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2816x11.size a ≤ S464640x11.size a
  hwx0_2 : ∀ i : grid0.Coords, EltTy.bits .f32 = 32 ∨ (Rect.block (s := S464640x11) S2816x11.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2816x11.size a ≤ S464640x11.size a
  hwx0_3 : ∀ i : grid0.Coords, EltTy.bits .f32 = 32 ∨ (Rect.block (s := S464640x11) S2816x11.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2816x11.size a ≤ S464640x11.size a
  hwx0_4 : ∀ i : grid0.Coords, EltTy.bits .f32 = 32 ∨ (Rect.block (s := S464640x11) S2816x11.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2816x11.size a ≤ S464640x11.size a
  hwx0_5 : ∀ i : grid0.Coords, EltTy.bits .f32 = 32 ∨ (Rect.block (s := S464640x11) S2816x11.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2816x1.size a ≤ S464640x1.size a
  hwx0_6 : ∀ i : grid0.Coords, EltTy.bits .f32 = 32 ∨ (Rect.block (s := S464640x1) S2816x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S34x128.size a ≤ S34x128.size a
  hwx0_9 : ∀ i : grid0.Coords, EltTy.bits .f32 = 32 ∨ (Rect.block (s := S34x128) S34x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x22.size a ≤ S128x22.size a
  hwx0_15 : ∀ i : grid0.Coords, EltTy.bits .f32 = 32 ∨ (Rect.block (s := S128x22) S128x22.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2816x128.size a ≤ S464640x128.size a
  hwx0_16 : ∀ i : grid0.Coords, EltTy.bits .f32 = 32 ∨ (Rect.block (s := S464640x128) S2816x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2816x22.size a ≤ S464640x22.size a
  hwx0_17 : ∀ i : grid0.Coords, EltTy.bits .f32 = 32 ∨ (Rect.block (s := S464640x22) S2816x22.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2640x128.size a ≤ S29040x128.size a
  hwx1_0 : ∀ i : grid1.Coords, EltTy.bits .f32 = 32 ∨ (Rect.block (s := S29040x128) S2640x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2640x128.size a ≤ S29040x128.size a
  hwx1_1 : ∀ i : grid1.Coords, EltTy.bits .f32 = 32 ∨ (Rect.block (s := S29040x128) S2640x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2640x128.size a ≤ S29040x128.size a
  hwx1_8 : ∀ i : grid1.Coords, EltTy.bits .f32 = 32 ∨ (Rect.block (s := S29040x128) S2640x128.size (cc1_transform_8 i) (hinb1_8 i)).WholeWords (EltTy.packing .f32)

variable [Facts₀]

def gather_S29040x128_S464640x1_S464640x128_1_0_n_n_0_1_1128 : GatherDims S29040x128 S464640x1 S464640x128 where
  offsetDims := [1]
  collapsedSliceDims := [0]
  operandBatchingDims := []
  startIndicesBatchingDims := []
  startIndexMap := [0]
  indexVectorDim := 1
  sliceSizes := ![1, 128]
  wf := gather_S29040x128_S464640x1_S464640x128_1_0_n_n_0_1_1128_wf
def gather_S29040x11_S464640x1_S464640x11_1_0_n_n_0_1_111 : GatherDims S29040x11 S464640x1 S464640x11 where
  offsetDims := [1]
  collapsedSliceDims := [0]
  operandBatchingDims := []
  startIndicesBatchingDims := []
  startIndexMap := [0]
  indexVectorDim := 1
  sliceSizes := ![1, 11]
  wf := gather_S29040x11_S464640x1_S464640x11_1_0_n_n_0_1_111_wf
def dot_S2816x128_S128x128_S2816x128_1_0_0_1_n_n : DotDims S2816x128 S128x128 S2816x128 where
  lhsContracting := [1]
  rhsContracting := [0]
  lhsNonContracting := [0]
  rhsNonContracting := [1]
  lhsBatch := []
  rhsBatch := []
  wf := dot_S2816x128_S128x128_S2816x128_1_0_0_1_n_n_wf
def dot_S2816x34_S34x128_S2816x128_1_0_0_1_n_n : DotDims S2816x34 S34x128 S2816x128 where
  lhsContracting := [1]
  rhsContracting := [0]
  lhsNonContracting := [0]
  rhsNonContracting := [1]
  lhsBatch := []
  rhsBatch := []
  wf := dot_S2816x34_S34x128_S2816x128_1_0_0_1_n_n_wf
def dot_S2816x128_S128x22_S2816x22_1_0_0_1_n_n : DotDims S2816x128 S128x22 S2816x22 where
  lhsContracting := [1]
  rhsContracting := [0]
  lhsNonContracting := [0]
  rhsNonContracting := [1]
  lhsBatch := []
  rhsBatch := []
  wf := dot_S2816x128_S128x22_S2816x22_1_0_0_1_n_n_wf
def scatter_S29040x128_S464640x1_S464640x128_1_0_0_1 : ScatterDims S29040x128 S464640x1 S464640x128 where
  updateWindowDims := [1]
  insertedWindowDims := [0]
  scatterDimsToOperandDims := [0]
  indexVectorDim := 1
  wf := scatter_S29040x128_S464640x1_S464640x128_1_0_0_1_wf
def scatter_S29040_S464640x1_S464640_n_0_0_1 : ScatterDims S29040 S464640x1 S464640 where
  updateWindowDims := []
  insertedWindowDims := [0]
  scatterDimsToOperandDims := [0]
  indexVectorDim := 1
  wf := scatter_S29040_S464640x1_S464640_n_0_0_1_wf
def scatter_S29040x22_S464640x1_S464640x22_1_0_0_1 : ScatterDims S29040x22 S464640x1 S464640x22 where
  updateWindowDims := [1]
  insertedWindowDims := [0]
  scatterDimsToOperandDims := [0]
  indexVectorDim := 1
  wf := scatter_S29040x22_S464640x1_S464640x22_1_0_0_1_wf
def dot_S2640x128_S128x128_S2640x128_1_0_0_1_n_n : DotDims S2640x128 S128x128 S2640x128 where
  lhsContracting := [1]
  rhsContracting := [0]
  lhsNonContracting := [0]
  rhsNonContracting := [1]
  lhsBatch := []
  rhsBatch := []
  wf := dot_S2640x128_S128x128_S2640x128_1_0_0_1_n_n_wf

abbrev win0_0 : Pipeline.Window sig grid0 :=
  Pipeline.Window.ofSpec (Memref.whole main_v4) S2816x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2816x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2816x11.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2816x11.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2816x11.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2816x11.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S2816x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S34x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S128x22.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16_0) S2816x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v16_1) S2816x22.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_arg0) S2640x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2640x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S2640x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S29040x128 : Shape := ⟨2, ![29040, 128]⟩
abbrev S29040x11 : Shape := ⟨2, ![29040, 11]⟩
abbrev S464640x1 : Shape := ⟨2, ![464640, 1]⟩
abbrev S290x128 : Shape := ⟨2, ![290, 128]⟩
abbrev S128 : Shape := ⟨1, ![128]⟩
abbrev S128x128 : Shape := ⟨2, ![128, 128]⟩
abbrev S384x128 : Shape := ⟨2, ![384, 128]⟩
abbrev S128x22 : Shape := ⟨2, ![128, 22]⟩
abbrev S2x464640 : Shape := ⟨2, ![2, 464640]⟩
abbrev S1x464640 : Shape := ⟨2, ![1, 464640]⟩
abbrev S464640 : Shape := ⟨1, ![464640]⟩
abbrev S_ : Shape := ⟨0, ![]⟩
abbrev S464640x11 : Shape := ⟨2, ![464640, 11]⟩
abbrev S464640x33 : Shape := ⟨2, ![464640, 33]⟩
abbrev S464640x128 : Shape := ⟨2, ![464640, 128]⟩
abbrev S464640x290 : Shape := ⟨2, ![464640, 290]⟩
abbrev S1x128 : Shape := ⟨2, ![1, 128]⟩
abbrev S121x240x128 : Shape := ⟨3, ![121, 240, 128]⟩
abbrev S121x128 : Shape := ⟨2, ![121, 128]⟩
abbrev S121x1x128 : Shape := ⟨3, ![121, 1, 128]⟩
abbrev S29040x384 : Shape := ⟨2, ![29040, 384]⟩
abbrev S464640x22 : Shape := ⟨2, ![464640, 22]⟩
abbrev S464640x2x11 : Shape := ⟨3, ![464640, 2, 11]⟩
abbrev S464640x1x11 : Shape := ⟨3, ![464640, 1, 11]⟩
abbrev S464640x2 : Shape := ⟨2, ![464640, 2]⟩
abbrev S464640x2x1 : Shape := ⟨3, ![464640, 2, 1]⟩
abbrev S29040 : Shape := ⟨1, ![29040]⟩
abbrev S29040x1 : Shape := ⟨2, ![29040, 1]⟩

abbrev nBuf : Space → Nat
  | .hbm => 190
  | .vmem => 0
  | .smem => 0
  | _ => 0

abbrev hbmTy0_0 (i : Nat) : BufTy := match i % 128 with
  | 0 => ⟨S29040x128, .f32⟩
  | 1 => ⟨S29040x11, .f32⟩
  | 2 => ⟨S29040x11, .f32⟩
  | 3 => ⟨S464640x1, .f32⟩
  | 4 => ⟨S290x128, .f32⟩
  | 5 => ⟨S128, .f32⟩
  | 6 => ⟨S128x128, .f32⟩
  | 7 => ⟨S128, .f32⟩
  | 8 => ⟨S384x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x22, .f32⟩
  | 15 => ⟨S2x464640, .i32⟩
  | 16 => ⟨S1x464640, .i32⟩
  | 17 => ⟨S464640, .i32⟩
  | 18 => ⟨S1x464640, .i32⟩
  | 19 => ⟨S464640, .i32⟩
  | 20 => ⟨S_, .i32⟩
  | 21 => ⟨S464640, .i32⟩
  | 22 => ⟨S464640, .i1⟩
  | 23 => ⟨S_, .i32⟩
  | 24 => ⟨S464640, .i32⟩
  | 25 => ⟨S464640, .i32⟩
  | 26 => ⟨S464640, .i32⟩
  | 27 => ⟨S464640x1, .i32⟩
  | 28 => ⟨S464640x11, .f32⟩
  | 29 => ⟨S_, .i32⟩
  | 30 => ⟨S464640, .i32⟩
  | 31 => ⟨S464640, .i1⟩
  | 32 => ⟨S_, .i32⟩
  | 33 => ⟨S464640, .i32⟩
  | 34 => ⟨S464640, .i32⟩
  | 35 => ⟨S464640, .i32⟩
  | 36 => ⟨S464640x1, .i32⟩
  | 37 => ⟨S464640x11, .f32⟩
  | 38 => ⟨S_, .i32⟩
  | 39 => ⟨S464640, .i32⟩
  | 40 => ⟨S464640, .i1⟩
  | 41 => ⟨S_, .i32⟩
  | 42 => ⟨S464640, .i32⟩
  | 43 => ⟨S464640, .i32⟩
  | 44 => ⟨S464640, .i32⟩
  | 45 => ⟨S464640x1, .i32⟩
  | 46 => ⟨S464640x11, .f32⟩
  | 47 => ⟨S_, .i32⟩
  | 48 => ⟨S464640, .i32⟩
  | 49 => ⟨S464640, .i1⟩
  | 50 => ⟨S_, .i32⟩
  | 51 => ⟨S464640, .i32⟩
  | 52 => ⟨S464640, .i32⟩
  | 53 => ⟨S464640, .i32⟩
  | 54 => ⟨S464640x1, .i32⟩
  | 55 => ⟨S464640x11, .f32⟩
  | 56 => ⟨S464640x11, .f32⟩
  | 57 => ⟨S464640x11, .f32⟩
  | 58 => ⟨S464640x11, .f32⟩
  | 59 => ⟨S464640x11, .f32⟩
  | 60 => ⟨S464640x11, .f32⟩
  | 61 => ⟨S464640x11, .f32⟩
  | 62 => ⟨S464640x11, .f32⟩
  | 63 => ⟨S464640x11, .f32⟩
  | 64 => ⟨S464640x11, .f32⟩
  | 65 => ⟨S464640x11, .f32⟩
  | 66 => ⟨S464640x11, .f32⟩
  | 67 => ⟨S464640x11, .f32⟩
  | 68 => ⟨S464640x11, .f32⟩
  | 69 => ⟨S464640x33, .f32⟩
  | 70 => ⟨S_, .i32⟩
  | 71 => ⟨S464640, .i32⟩
  | 72 => ⟨S464640, .i1⟩
  | 73 => ⟨S_, .i32⟩
  | 74 => ⟨S464640, .i32⟩
  | 75 => ⟨S464640, .i32⟩
  | 76 => ⟨S464640, .i32⟩
  | 77 => ⟨S464640x1, .i32⟩
  | 78 => ⟨S464640x128, .f32⟩
  | 79 => ⟨S_, .i32⟩
  | 80 => ⟨S464640, .i32⟩
  | 81 => ⟨S464640, .i1⟩
  | 82 => ⟨S_, .i32⟩
  | 83 => ⟨S464640, .i32⟩
  | 84 => ⟨S464640, .i32⟩
  | 85 => ⟨S464640, .i32⟩
  | 86 => ⟨S464640x1, .i32⟩
  | 87 => ⟨S464640x128, .f32⟩
  | 88 => ⟨S464640x290, .f32⟩
  | 89 => ⟨S464640x128, .f32⟩
  | 90 => ⟨S1x128, .f32⟩
  | 91 => ⟨S464640x128, .f32⟩
  | 92 => ⟨S464640x128, .f32⟩
  | 93 => ⟨S_, .f32⟩
  | 94 => ⟨S464640x128, .f32⟩
  | 95 => ⟨S464640x128, .f32⟩
  | 96 => ⟨S464640x128, .f32⟩
  | 97 => ⟨S1x128, .f32⟩
  | 98 => ⟨S464640x128, .f32⟩
  | 99 => ⟨S464640x128, .f32⟩
  | 100 => ⟨S_, .f32⟩
  | 101 => ⟨S464640x128, .f32⟩
  | 102 => ⟨S464640x128, .f32⟩
  | 103 => ⟨S_, .f32⟩
  | 104 => ⟨S29040x128, .f32⟩
  | 105 => ⟨S464640x1, .i32⟩
  | 106 => ⟨S29040x128, .f32⟩
  | 107 => ⟨S121x240x128, .f32⟩
  | 108 => ⟨S_, .f32⟩
  | 109 => ⟨S121x128, .f32⟩
  | 110 => ⟨S121x1x128, .f32⟩
  | 111 => ⟨S_, .f32⟩
  | 112 => ⟨S121x1x128, .f32⟩
  | 113 => ⟨S121x1x128, .f32⟩
  | 114 => ⟨S121x240x128, .f32⟩
  | 115 => ⟨S29040x128, .f32⟩
  | 116 => ⟨S29040x384, .f32⟩
  | 117 => ⟨S29040x128, .f32⟩
  | 118 => ⟨S1x128, .f32⟩
  | 119 => ⟨S29040x128, .f32⟩
  | 120 => ⟨S29040x128, .f32⟩
  | 121 => ⟨S_, .f32⟩
  | 122 => ⟨S29040x128, .f32⟩
  | 123 => ⟨S29040x128, .f32⟩
  | 124 => ⟨S29040x128, .f32⟩
  | 125 => ⟨S1x128, .f32⟩
  | 126 => ⟨S29040x128, .f32⟩
  | 127 => ⟨S29040x128, .f32⟩
  | _ => ⟨S29040x128, .f32⟩

abbrev hbmTy0_1 (i : Nat) : BufTy := match i % 128 with
  | 0 => ⟨S29040x128, .f32⟩
  | 1 => ⟨S464640x128, .f32⟩
  | 2 => ⟨S1x128, .f32⟩
  | 3 => ⟨S464640x128, .f32⟩
  | 4 => ⟨S464640x128, .f32⟩
  | 5 => ⟨S_, .f32⟩
  | 6 => ⟨S464640x128, .f32⟩
  | 7 => ⟨S464640x128, .f32⟩
  | 8 => ⟨S464640x22, .f32⟩
  | 9 => ⟨S464640x2x11, .f32⟩
  | 10 => ⟨S464640x1x11, .f32⟩
  | 11 => ⟨S464640x1x11, .f32⟩
  | 12 => ⟨S464640x2x11, .f32⟩
  | 13 => ⟨S464640x2x11, .f32⟩
  | 14 => ⟨S_, .f32⟩
  | 15 => ⟨S464640x2, .f32⟩
  | 16 => ⟨S464640x2, .f32⟩
  | 17 => ⟨S464640x2x1, .f32⟩
  | 18 => ⟨S464640x2x11, .f32⟩
  | 19 => ⟨S464640x2x11, .f32⟩
  | 20 => ⟨S_, .f32⟩
  | 21 => ⟨S464640, .f32⟩
  | 22 => ⟨S_, .f32⟩
  | 23 => ⟨S29040, .f32⟩
  | 24 => ⟨S464640x1, .i32⟩
  | 25 => ⟨S29040, .f32⟩
  | 26 => ⟨S_, .f32⟩
  | 27 => ⟨S29040, .f32⟩
  | 28 => ⟨S29040, .f32⟩
  | 29 => ⟨S29040x1, .f32⟩
  | 30 => ⟨S464640x1x11, .f32⟩
  | 31 => ⟨S464640x11, .f32⟩
  | 32 => ⟨S_, .f32⟩
  | 33 => ⟨S29040x11, .f32⟩
  | 34 => ⟨S464640x1, .i32⟩
  | 35 => ⟨S29040x11, .f32⟩
  | 36 => ⟨S29040x11, .f32⟩
  | 37 => ⟨S29040x11, .f32⟩
  | 38 => ⟨S_, .f32⟩
  | 39 => ⟨S_, .f32⟩
  | 40 => ⟨S_, .f32⟩
  | 41 => ⟨S29040x11, .f32⟩
  | 42 => ⟨S29040x11, .f32⟩
  | 43 => ⟨S_, .f32⟩
  | 44 => ⟨S29040x11, .f32⟩
  | 45 => ⟨S29040x11, .f32⟩
  | 46 => ⟨S464640x1x11, .f32⟩
  | 47 => ⟨S464640x11, .f32⟩
  | 48 => ⟨S_, .f32⟩
  | 49 => ⟨S29040x11, .f32⟩
  | 50 => ⟨S464640x1, .i32⟩
  | 51 => ⟨S29040x11, .f32⟩
  | 52 => ⟨S29040x11, .f32⟩
  | 53 => ⟨S29040x11, .f32⟩
  | 54 => ⟨S_, .f32⟩
  | 55 => ⟨S_, .f32⟩
  | 56 => ⟨S_, .f32⟩
  | 57 => ⟨S29040x11, .f32⟩
  | 58 => ⟨S29040x11, .f32⟩
  | 59 => ⟨S_, .f32⟩
  | 60 => ⟨S29040x11, .f32⟩
  | 61 => ⟨S29040x11, .f32⟩
  | _ => ⟨S29040x128, .f32⟩

abbrev hbmTy (i : Nat) : BufTy := match i / 128 with
  | 0 => hbmTy0_0 i
  | 1 => hbmTy0_1 i
  | _ => ⟨S29040x128, .f32⟩

abbrev bufTy : (tb : Table) → Fin (tcTables nBuf tb) → BufTy
  | .hbm, ⟨i, _⟩ => hbmTy i
  | _, _ => ⟨S29040x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call0_cst : Ref sig .tc := ⟨.hbm, 93, rfl⟩
abbrev main_call0_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call1_cst : Ref sig .tc := ⟨.hbm, 100, rfl⟩
abbrev main_call1_v0 : Ref sig .tc := ⟨.hbm, 101, rfl⟩
abbrev main_v70 : Ref sig .tc := ⟨.hbm, 102, rfl⟩
abbrev main_cst : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_cst_12 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call2_cst : Ref sig .tc := ⟨.hbm, 121, rfl⟩
abbrev main_call2_v0 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_call3_cst : Ref sig .tc := ⟨.hbm, 133, rfl⟩
abbrev main_call3_v0 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_13 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_14 : Ref sig .tc := ⟨.hbm, 148, rfl⟩
abbrev main_v108 : Ref sig .tc := ⟨.hbm, 149, rfl⟩
abbrev main_cst_15 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_16 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_17 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_18 : Ref sig .tc := ⟨.hbm, 166, rfl⟩
abbrev main_cst_19 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_20 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_21 : Ref sig .tc := ⟨.hbm, 182, rfl⟩
abbrev main_cst_22 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_v130 : Ref sig .tc := ⟨.hbm, 189, rfl⟩

abbrev nD : Nat := 1
abbrev τ : Topo := Topo.v7x

variable {F : FTy → Type} [FloatOps F]

class Facts₀ : Prop where
  slices_S2x464640_S1x464640_0_0 : S2x464640.Slices ![0, 0] S1x464640
  shapeCasts_S1x464640_S464640 : S1x464640.ShapeCasts S464640
  slices_S2x464640_S1x464640_1_0 : S2x464640.Slices ![1, 0] S1x464640
  bcast_S_S464640 : S_.BroadcastsInDim S464640 (![] : Fin 0 → Fin S464640.rank)
  bcast_S464640_S464640x1_0 : S464640.BroadcastsInDim S464640x1 (![0] : Fin 1 → Fin S464640x1.rank)
  concatenates_S464640x11_S464640x11_S464640x11_S464640x33_d1 : Shape.Concatenates [S464640x11, S464640x11, S464640x11] S464640x33 1
  concatenates_S464640x128_S464640x128_S464640x33_S464640x1_S464640x290_d1 : Shape.Concatenates [S464640x128, S464640x128, S464640x33, S464640x1] S464640x290 1
  bcast_S128_S1x128_1 : S128.BroadcastsInDim S1x128 (![1] : Fin 1 → Fin S1x128.rank)
  bcast_S1x128_S464640x128_0_1 : S1x128.BroadcastsInDim S464640x128 (![0, 1] : Fin 2 → Fin S464640x128.rank)
  bcast_S_S464640x128 : S_.BroadcastsInDim S464640x128 (![] : Fin 0 → Fin S464640x128.rank)
  bcast_S_S29040x128 : S_.BroadcastsInDim S29040x128 (![] : Fin 0 → Fin S29040x128.rank)
  shapeCasts_S29040x128_S121x240x128 : S29040x128.ShapeCasts S121x240x128
  reducesTo_S121x240x128_S121x128_d1 : S121x240x128.ReducesTo [1] S121x128
  h_S_ : 0 < S_.numel
  bcast_S121x128_S121x1x128_0_2 : S121x128.BroadcastsInDim S121x1x128 (![0, 2] : Fin 2 → Fin S121x1x128.rank)
  bcast_S_S121x1x128 : S_.BroadcastsInDim S121x1x128 (![] : Fin 0 → Fin S121x1x128.rank)
  bcast_S121x1x128_S121x240x128_0_1_2 : S121x1x128.BroadcastsInDim S121x240x128 (![0, 1, 2] : Fin 3 → Fin S121x240x128.rank)
  shapeCasts_S121x240x128_S29040x128 : S121x240x128.ShapeCasts S29040x128
  concatenates_S29040x128_S29040x128_S29040x128_S29040x384_d1 : Shape.Concatenates [S29040x128, S29040x128, S29040x128] S29040x384 1
  bcast_S1x128_S29040x128_0_1 : S1x128.BroadcastsInDim S29040x128 (![0, 1] : Fin 2 → Fin S29040x128.rank)
  shapeCasts_S464640x22_S464640x2x11 : S464640x22.ShapeCasts S464640x2x11
  bcast_S464640x11_S464640x1x11_0_2 : S464640x11.BroadcastsInDim S464640x1x11 (![0, 2] : Fin 2 → Fin S464640x1x11.rank)
  concatenates_S464640x1x11_S464640x1x11_S464640x2x11_d1 : Shape.Concatenates [S464640x1x11, S464640x1x11] S464640x2x11 1
  reducesTo_S464640x2x11_S464640x2_d2 : S464640x2x11.ReducesTo [2] S464640x2
  bcast_S464640x2_S464640x2x1_0_1 : S464640x2.BroadcastsInDim S464640x2x1 (![0, 1] : Fin 2 → Fin S464640x2x1.rank)
  bcast_S464640x2x1_S464640x2x11_0_1_2 : S464640x2x1.BroadcastsInDim S464640x2x11 (![0, 1, 2] : Fin 3 → Fin S464640x2x11.rank)
  bcast_S_S29040 : S_.BroadcastsInDim S29040 (![] : Fin 0 → Fin S29040.rank)
  bcast_S29040_S29040x1_0 : S29040.BroadcastsInDim S29040x1 (![0] : Fin 1 → Fin S29040x1.rank)
  slices_S464640x2x11_S464640x1x11_0_0_0 : S464640x2x11.Slices ![0, 0, 0] S464640x1x11
  shapeCasts_S464640x1x11_S464640x11 : S464640x1x11.ShapeCasts S464640x11
  bcast_S_S29040x11 : S_.BroadcastsInDim S29040x11 (![] : Fin 0 → Fin S29040x11.rank)
  bcast_S29040x1_S29040x11_0_1 : S29040x1.BroadcastsInDim S29040x11 (![0, 1] : Fin 2 → Fin S29040x11.rank)
  slices_S464640x2x11_S464640x1x11_0_1_0 : S464640x2x11.Slices ![0, 1, 0] S464640x1x11
  gather_S29040x11_S464640x1_S464640x11_1_0_n_n_0_1_111_wf : GatherDims.WF S29040x11 S464640x1 S464640x11 [1] [0] [] [0] [] 1 ![1, 11]
  gather_S29040x128_S464640x1_S464640x128_1_0_n_n_0_1_1128_wf : GatherDims.WF S29040x128 S464640x1 S464640x128 [1] [0] [] [0] [] 1 ![1, 128]
  dot_S464640x290_S290x128_S464640x128_1_0_0_1_n_n_wf : DotDims.WF S464640x290 S290x128 S464640x128 [1] [0] [0] [1] [] []
  dot_S464640x128_S128x128_S464640x128_1_0_0_1_n_n_wf : DotDims.WF S464640x128 S128x128 S464640x128 [1] [0] [0] [1] [] []
  scatter_S29040x128_S464640x1_S464640x128_1_0_0_1_wf : ScatterDims.WF S29040x128 S464640x1 S464640x128 [1] [0] [0] 1
  dot_S29040x384_S384x128_S29040x128_1_0_0_1_n_n_wf : DotDims.WF S29040x384 S384x128 S29040x128 [1] [0] [0] [1] [] []
  dot_S29040x128_S128x128_S29040x128_1_0_0_1_n_n_wf : DotDims.WF S29040x128 S128x128 S29040x128 [1] [0] [0] [1] [] []
  dot_S464640x128_S128x22_S464640x22_1_0_0_1_n_n_wf : DotDims.WF S464640x128 S128x22 S464640x22 [1] [0] [0] [1] [] []
  scatter_S29040_S464640x1_S464640_n_0_0_1_wf : ScatterDims.WF S29040 S464640x1 S464640 [] [0] [0] 1
  scatter_S29040x11_S464640x1_S464640x11_1_0_0_1_wf : ScatterDims.WF S29040x11 S464640x1 S464640x11 [1] [0] [0] 1

variable [Facts₀]

def gather_S29040x11_S464640x1_S464640x11_1_0_n_n_0_1_111 : GatherDims S29040x11 S464640x1 S464640x11 where
  offsetDims := [1]
  collapsedSliceDims := [0]
  operandBatchingDims := []
  startIndicesBatchingDims := []
  startIndexMap := [0]
  indexVectorDim := 1
  sliceSizes := ![1, 11]
  wf := gather_S29040x11_S464640x1_S464640x11_1_0_n_n_0_1_111_wf
def gather_S29040x128_S464640x1_S464640x128_1_0_n_n_0_1_1128 : GatherDims S29040x128 S464640x1 S464640x128 where
  offsetDims := [1]
  collapsedSliceDims := [0]
  operandBatchingDims := []
  startIndicesBatchingDims := []
  startIndexMap := [0]
  indexVectorDim := 1
  sliceSizes := ![1, 128]
  wf := gather_S29040x128_S464640x1_S464640x128_1_0_n_n_0_1_1128_wf
def dot_S464640x290_S290x128_S464640x128_1_0_0_1_n_n : DotDims S464640x290 S290x128 S464640x128 where
  lhsContracting := [1]
  rhsContracting := [0]
  lhsNonContracting := [0]
  rhsNonContracting := [1]
  lhsBatch := []
  rhsBatch := []
  wf := dot_S464640x290_S290x128_S464640x128_1_0_0_1_n_n_wf
def dot_S464640x128_S128x128_S464640x128_1_0_0_1_n_n : DotDims S464640x128 S128x128 S464640x128 where
  lhsContracting := [1]
  rhsContracting := [0]
  lhsNonContracting := [0]
  rhsNonContracting := [1]
  lhsBatch := []
  rhsBatch := []
  wf := dot_S464640x128_S128x128_S464640x128_1_0_0_1_n_n_wf
def scatter_S29040x128_S464640x1_S464640x128_1_0_0_1 : ScatterDims S29040x128 S464640x1 S464640x128 where
  updateWindowDims := [1]
  insertedWindowDims := [0]
  scatterDimsToOperandDims := [0]
  indexVectorDim := 1
  wf := scatter_S29040x128_S464640x1_S464640x128_1_0_0_1_wf
def dot_S29040x384_S384x128_S29040x128_1_0_0_1_n_n : DotDims S29040x384 S384x128 S29040x128 where
  lhsContracting := [1]
  rhsContracting := [0]
  lhsNonContracting := [0]
  rhsNonContracting := [1]
  lhsBatch := []
  rhsBatch := []
  wf := dot_S29040x384_S384x128_S29040x128_1_0_0_1_n_n_wf
def dot_S29040x128_S128x128_S29040x128_1_0_0_1_n_n : DotDims S29040x128 S128x128 S29040x128 where
  lhsContracting := [1]
  rhsContracting := [0]
  lhsNonContracting := [0]
  rhsNonContracting := [1]
  lhsBatch := []
  rhsBatch := []
  wf := dot_S29040x128_S128x128_S29040x128_1_0_0_1_n_n_wf
def dot_S464640x128_S128x22_S464640x22_1_0_0_1_n_n : DotDims S464640x128 S128x22 S464640x22 where
  lhsContracting := [1]
  rhsContracting := [0]
  lhsNonContracting := [0]
  rhsNonContracting := [1]
  lhsBatch := []
  rhsBatch := []
  wf := dot_S464640x128_S128x22_S464640x22_1_0_0_1_n_n_wf
def scatter_S29040_S464640x1_S464640_n_0_0_1 : ScatterDims S29040 S464640x1 S464640 where
  updateWindowDims := []
  insertedWindowDims := [0]
  scatterDimsToOperandDims := [0]
  indexVectorDim := 1
  wf := scatter_S29040_S464640x1_S464640_n_0_0_1_wf
def scatter_S29040x11_S464640x1_S464640x11_1_0_0_1 : ScatterDims S29040x11 S464640x1 S464640x11 where
  updateWindowDims := [1]
  insertedWindowDims := [0]
  scatterDimsToOperandDims := [0]
  indexVectorDim := 1
  wf := scatter_S29040x11_S464640x1_S464640x11_1_0_0_1_wf

class Facts : Prop extends Facts₀ where

variable [Facts]
-- ==== Proof.Kept.lean ====
import Idealize.ShloMosaic.Lib.StableHlo.Run

namespace Cert.Kept

open Idealize.ShloMosaic Idealize.ShloMosaic.StableHlo

/-- Carries a buffer's contents back across every stretch of operations that does not write it. -/
macro "kept" : tactic => `(tactic|
  (repeat (refine (after_of_forall_not_mem _ _ (List.forall_iff_forall_mem.mp (by
    first
    | (simp only [List.Forall, nullary_writes, unary_writes, binary_writes,
        ternary_writes, quaternary_writes, reshape_writes,
        binaryIndexed_writes, unaryIndexed_writes, nary_writes, Finset.mem_singleton]
       (repeat' apply And.intro) <;> exact devRef_ne_of_ne (by decide))
    | fail))).trans ?_)
   try with_reducible rfl))

end Cert.Kept
-- ==== Proof.TakeTerm.lean ====
import proofs.«418158_j78065325572140_2_alg».proof.Proof.Gen.KernelIdeal.Launch
import Idealize.ShloMosaic.Lib.StableHlo.Run

noncomputable section

namespace Cert.KernelIdeal.TakeTerm

open Cert.KernelIdeal Cert.KernelIdeal.Gen Idealize.ShloMosaic Idealize.ShloMosaic.TcCoe Idealize.SL.Sem Idealize.ShloMosaic.StableHlo
open Cert.KernelIdeal.Facts

variable {F : FTy → Type} [FloatOps F]

def wrapped (idx : IVec S464640 32) : IVec S464640x1 32 :=
  broadcastInDim S464640x1 ![0] bcast_S464640_S464640x1_0
    (select (cmpi .slt idx (broadcastInDim S464640 ![] bcast_S_S464640 (constantI S_ 32 0#32)))
      (addi idx (broadcastInDim S464640 ![] bcast_S_S464640 (constantI S_ 32 29040#32))) idx)

def inBounds (r : IVec S464640x1 32) : IVec S464640 1 :=
  Host.reduce IntOp.andi
    (andi (cmpi .sge r (broadcastInDim S464640x1 ![] bcast_S_S464640x1 (constantI S_ 32 0#32)))
      (cmpi .sle r (broadcastInDim S464640x1 ![0, 1] bcast_S1x1_S464640x1_0_1
        (broadcastInDim S1x1 ![1] bcast_S1_S1x1_1 (constantI S1 32 29039#32)))))
    (constantI S_ 1 1#1) reducesTo_S464640x1_S464640_d1 h_S_

def take128 (x : FVec F S29040x128 .f32) (idx : IVec S464640 32) : FVec F S464640x128 .f32 :=
  select (broadcastInDim S464640x128 ![0] bcast_S464640_S464640x128_0 (inBounds (wrapped idx)))
    (Host.gather gather_S29040x128_S464640x1_S464640x128_1_0_n_n_0_1_1128 x (wrapped idx))
    (broadcastInDim S464640x128 ![] bcast_S_S464640x128 (constant S_ .f32 0x7FC00000#32))

def take11 (x : FVec F S29040x11 .f32) (idx : IVec S464640 32) : FVec F S464640x11 .f32 :=
  select (broadcastInDim S464640x11 ![0] bcast_S464640_S464640x11_0 (inBounds (wrapped idx)))
    (Host.gather gather_S29040x11_S464640x1_S464640x11_1_0_n_n_0_1_111 x (wrapped idx))
    (broadcastInDim S464640x11 ![] bcast_S_S464640x11 (constant S_ .f32 0x7FC00000#32))

variable (W : Valuation τ sig (Elt F))

set_option maxHeartbeats 1000000 in
set_option maxRecDepth 65536 in
theorem after_take_hr :
    StableHlo.after hostOps0_1 W (Proc.devRef .tc main_v4)
      = take128 (F := F) (W (Proc.devRef .tc main_arg0)) (W (Proc.devRef .tc main_v1)) := by
  unfold take128 inBounds wrapped
  after_results_simp <;> (try simp only [TRef.ofBuf, TRef.toBuf, cast_eq]) <;> rfl

set_option maxHeartbeats 1000000 in
set_option maxRecDepth 65536 in
theorem after_take_hc :
    StableHlo.after hostOps0_2 W (Proc.devRef .tc main_v5)
      = take128 (F := F) (W (Proc.devRef .tc main_arg0)) (W (Proc.devRef .tc main_v3)) := by
  unfold take128 inBounds wrapped
  after_results_simp <;> (try simp only [TRef.ofBuf, TRef.toBuf, cast_eq]) <;> rfl

set_option maxHeartbeats 1000000 in
set_option maxRecDepth 65536 in
theorem after_take_ur :
    StableHlo.after hostOps0_3 W (Proc.devRef .tc main_v6)
      = take11 (F := F) (W (Proc.devRef .tc main_arg1)) (W (Proc.devRef .tc main_v1)) := by
  unfold take11 inBounds wrapped
  after_results_simp <;> (try simp only [TRef.ofBuf, TRef.toBuf, cast_eq]) <;> rfl

set_option maxHeartbeats 1000000 in
set_option maxRecDepth 65536 in
theorem after_take_vr :
    StableHlo.after hostOps0_4 W (Proc.devRef .tc main_v7)
      = take11 (F := F) (W (Proc.devRef .tc main_arg2)) (W (Proc.devRef .tc main_v1)) := by
  unfold take11 inBounds wrapped
  after_results_simp <;> (try simp only [TRef.ofBuf, TRef.toBuf, cast_eq]) <;> rfl

set_option maxHeartbeats 1000000 in
set_option maxRecDepth 65536 in
theorem after_take_uc :
    StableHlo.after hostOps0_5 W (Proc.devRef .tc main_v8)
      = take11 (F := F) (W (Proc.devRef .tc main_arg1)) (W (Proc.devRef .tc main_v3)) := by
  unfold take11 inBounds wrapped
  after_results_simp <;> (try simp only [TRef.ofBuf, TRef.toBuf, cast_eq]) <;> rfl

set_option maxHeartbeats 1000000 in
set_option maxRecDepth 65536 in
theorem after_take_vc :
    StableHlo.after hostOps0_6 W (Proc.devRef .tc main_v9)
      = take11 (F := F) (W (Proc.devRef .tc main_arg2)) (W (Proc.devRef .tc main_v3)) := by
  unfold take11 inBounds wrapped
  after_results_simp <;> (try simp only [TRef.ofBuf, TRef.toBuf, cast_eq]) <;> rfl

end Cert.KernelIdeal.TakeTerm

end
-- ==== Proof.HostPre.lean ====
import proofs.«418158_j78065325572140_2_alg».proof.Proof.Gen.KernelIdeal.Launch
import Idealize.ShloMosaic.Lib.StableHlo.Run

noncomputable section

namespace Cert.KernelIdeal.HostPre

open Cert.KernelIdeal Cert.KernelIdeal.Gen Idealize.ShloMosaic Idealize.ShloMosaic.TcCoe Idealize.SL.Sem Idealize.ShloMosaic.StableHlo
open Cert.KernelIdeal.Facts

variable {F : FTy → Type} [FloatOps F]

def rowVec (ei : IVec S2x464640 32) : IVec S464640 32 :=
  shapeCast S464640 (extractStridedSlice S1x464640 ![0, 0] ei slices_S2x464640_S1x464640_0_0) shapeCasts_S1x464640_S464640

def colVec (ei : IVec S2x464640 32) : IVec S464640 32 :=
  shapeCast S464640 (extractStridedSlice S1x464640 ![1, 0] ei slices_S2x464640_S1x464640_1_0) shapeCasts_S1x464640_S464640

def eBlock0 (w : FVec F S290x128 .f32) : FVec F S128x128 .f32 := extractStridedSlice S128x128 ![0, 0] w slices_S290x128_S128x128_0_0

def eBlock1 (w : FVec F S290x128 .f32) : FVec F S128x128 .f32 := extractStridedSlice S128x128 ![128, 0] w slices_S290x128_S128x128_128_0

def eBlock2 (w : FVec F S290x128 .f32) : FVec F S34x128 .f32 := extractStridedSlice S34x128 ![256, 0] w slices_S290x128_S34x128_256_0

def biasRow (b : FVec F S128 .f32) : FVec F S1x128 .f32 := shapeCast S1x128 b shapeCasts_S128_S1x128

variable (W : Valuation τ sig (Elt F))

theorem after_row : StableHlo.after hostOps0 W (Proc.devRef .tc main_v1) = rowVec (W (Proc.devRef .tc main_arg15)) := by
  unfold rowVec
  after_results_simp <;> (try simp only [TRef.ofBuf, TRef.toBuf, cast_eq]) <;> rfl
theorem after_col : StableHlo.after hostOps0 W (Proc.devRef .tc main_v3) = colVec (W (Proc.devRef .tc main_arg15)) := by
  unfold colVec
  after_results_simp <;> (try simp only [TRef.ofBuf, TRef.toBuf, cast_eq]) <;> rfl

theorem after_v10 : StableHlo.after hostOps0_7 W (Proc.devRef .tc main_v10) = eBlock0 (F := F) (W (Proc.devRef .tc main_arg4)) := by
  unfold eBlock0
  after_results_simp <;> (try simp only [TRef.ofBuf, TRef.toBuf, cast_eq]) <;> rfl
theorem after_v11 : StableHlo.after hostOps0_7 W (Proc.devRef .tc main_v11) = eBlock1 (F := F) (W (Proc.devRef .tc main_arg4)) := by
  unfold eBlock1
  after_results_simp <;> (try simp only [TRef.ofBuf, TRef.toBuf, cast_eq]) <;> rfl
theorem after_v12 : StableHlo.after hostOps0_7 W (Proc.devRef .tc main_v12) = eBlock2 (F := F) (W (Proc.devRef .tc main_arg4)) := by
  unfold eBlock2
  after_results_simp <;> (try simp only [TRef.ofBuf, TRef.toBuf, cast_eq]) <;> rfl
theorem after_v13 : StableHlo.after hostOps0_7 W (Proc.devRef .tc main_v13) = biasRow (F := F) (W (Proc.devRef .tc main_arg5)) := by
  unfold biasRow
  after_results_simp <;> (try simp only [TRef.ofBuf, TRef.toBuf, cast_eq]) <;> rfl
theorem after_v14 : StableHlo.after hostOps0_7 W (Proc.devRef .tc main_v14) = biasRow (F := F) (W (Proc.devRef .tc main_arg7)) := by
  unfold biasRow
  after_results_simp <;> (try simp only [TRef.ofBuf, TRef.toBuf, cast_eq]) <;> rfl
theorem after_v15 : StableHlo.after hostOps0_7 W (Proc.devRef .tc main_v15) = biasRow (F := F) (W (Proc.devRef .tc main_arg13)) := by
  unfold biasRow
  after_results_simp <;> (try simp only [TRef.ofBuf, TRef.toBuf, cast_eq]) <;> rfl

end Cert.KernelIdeal.HostPre

end
-- ==== Proof.KChainPre.lean ====
import proofs.«418158_j78065325572140_2_alg».proof.Proof.Kept
import proofs.«418158_j78065325572140_2_alg».proof.Proof.Gen.KernelIdeal.Frame
import proofs.«418158_j78065325572140_2_alg».proof.Proof.TakeTerm
import proofs.«418158_j78065325572140_2_alg».proof.Proof.HostPre

set_option maxRecDepth 16384

noncomputable section

namespace Cert.KernelIdeal.KChainPre

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem arg0_at1 (c : Dev nD) : W1 m ρ c (Proc.devRef .tc main_arg0) = m ((c : Thread nD τ).loc main_arg0) := by kept
theorem arg0_at2 (c : Dev nD) : W2 m ρ c (Proc.devRef .tc main_arg0) = m ((c : Thread nD τ).loc main_arg0) := by kept
theorem arg1_at3 (c : Dev nD) : W3 m ρ c (Proc.devRef .tc main_arg1) = m ((c : Thread nD τ).loc main_arg1) := by kept
theorem arg1_at5 (c : Dev nD) : W5 m ρ c (Proc.devRef .tc main_arg1) = m ((c : Thread nD τ).loc main_arg1) := by kept
theorem arg2_at4 (c : Dev nD) : W4 m ρ c (Proc.devRef .tc main_arg2) = m ((c : Thread nD τ).loc main_arg2) := by kept
theorem arg2_at6 (c : Dev nD) : W6 m ρ c (Proc.devRef .tc main_arg2) = m ((c : Thread nD τ).loc main_arg2) := by kept
theorem arg4_at7 (c : Dev nD) : W7 m ρ c (Proc.devRef .tc main_arg4) = m ((c : Thread nD τ).loc main_arg4) := by kept
theorem arg5_at7 (c : Dev nD) : W7 m ρ c (Proc.devRef .tc main_arg5) = m ((c : Thread nD τ).loc main_arg5) := by kept
theorem arg7_at7 (c : Dev nD) : W7 m ρ c (Proc.devRef .tc main_arg7) = m ((c : Thread nD τ).loc main_arg7) := by kept
theorem arg13_at7 (c : Dev nD) : W7 m ρ c (Proc.devRef .tc main_arg13) = m ((c : Thread nD τ).loc main_arg13) := by kept
theorem arg3_at8 (c : Dev nD) : W8 m ρ c (Proc.devRef .tc main_arg3) = m ((c : Thread nD τ).loc main_arg3) := by kept
theorem arg6_at8 (c : Dev nD) : W8 m ρ c (Proc.devRef .tc main_arg6) = m ((c : Thread nD τ).loc main_arg6) := by kept
theorem arg12_at8 (c : Dev nD) : W8 m ρ c (Proc.devRef .tc main_arg12) = m ((c : Thread nD τ).loc main_arg12) := by kept
theorem arg14_at8 (c : Dev nD) : W8 m ρ c (Proc.devRef .tc main_arg14) = m ((c : Thread nD τ).loc main_arg14) := by kept

abbrev row (c : Dev nD) : IVec S464640 32 := HostPre.rowVec (m ((c : Thread nD τ).loc main_arg15))
abbrev col (c : Dev nD) : IVec S464640 32 := HostPre.colVec (m ((c : Thread nD τ).loc main_arg15))

theorem row_at1 (c : Dev nD) : W1 m ρ c (Proc.devRef .tc main_v1) = row m c := HostPre.after_row (W0 m ρ c)
theorem col_at1 (c : Dev nD) : W1 m ρ c (Proc.devRef .tc main_v3) = col m c := HostPre.after_col (W0 m ρ c)
theorem row_at3 (c : Dev nD) : W3 m ρ c (Proc.devRef .tc main_v1) = row m c := by kept; exact row_at1 m ρ c
theorem row_at4 (c : Dev nD) : W4 m ρ c (Proc.devRef .tc main_v1) = row m c := by kept; exact row_at1 m ρ c
theorem row_at8 (c : Dev nD) : W8 m ρ c (Proc.devRef .tc main_v1) = row m c := by kept; exact row_at1 m ρ c
theorem col_at2 (c : Dev nD) : W2 m ρ c (Proc.devRef .tc main_v3) = col m c := by kept; exact col_at1 m ρ c
theorem col_at5 (c : Dev nD) : W5 m ρ c (Proc.devRef .tc main_v3) = col m c := by kept; exact col_at1 m ρ c
theorem col_at6 (c : Dev nD) : W6 m ρ c (Proc.devRef .tc main_v3) = col m c := by kept; exact col_at1 m ρ c

theorem hr_entry (c : Dev nD) : W8 m ρ c (Proc.devRef .tc main_v4)
    = TakeTerm.take128 (m ((c : Thread nD τ).loc main_arg0)) (row m c) := by
  kept
  refine (TakeTerm.after_take_hr (W1 m ρ c)).trans ?_
  rw [arg0_at1 m ρ c, row_at1 m ρ c]
theorem hc_entry (c : Dev nD) : W8 m ρ c (Proc.devRef .tc main_v5)
    = TakeTerm.take128 (m ((c : Thread nD τ).loc main_arg0)) (col m c) := by
  kept
  refine (TakeTerm.after_take_hc (W2 m ρ c)).trans ?_
  rw [arg0_at2 m ρ c, col_at2 m ρ c]
theorem ur_entry (c : Dev nD) : W8 m ρ c (Proc.devRef .tc main_v6)
    = TakeTerm.take11 (m ((c : Thread nD τ).loc main_arg1)) (row m c) := by
  kept
  refine (TakeTerm.after_take_ur (W3 m ρ c)).trans ?_
  rw [arg1_at3 m ρ c, row_at3 m ρ c]
theorem vr_entry (c : Dev nD) : W8 m ρ c (Proc.devRef .tc main_v7)
    = TakeTerm.take11 (m ((c : Thread nD τ).loc main_arg2)) (row m c) := by
  kept
  refine (TakeTerm.after_take_vr (W4 m ρ c)).trans ?_
  rw [arg2_at4 m ρ c, row_at4 m ρ c]
theorem uc_entry (c : Dev nD) : W8 m ρ c (Proc.devRef .tc main_v8)
    = TakeTerm.take11 (m ((c : Thread nD τ).loc main_arg1)) (col m c) := by
  kept
  refine (TakeTerm.after_take_uc (W5 m ρ c)).trans ?_
  rw [arg1_at5 m ρ c, col_at5 m ρ c]
theorem vc_entry (c : Dev nD) : W8 m ρ c (Proc.devRef .tc main_v9)
    = TakeTerm.take11 (m ((c : Thread nD τ).loc main_arg2)) (col m c) := by
  kept
  refine (TakeTerm.after_take_vc (W6 m ρ c)).trans ?_
  rw [arg2_at6 m ρ c, col_at6 m ρ c]

theorem wa_entry (c : Dev nD) : W8 m ρ c (Proc.devRef .tc main_v10) = HostPre.eBlock0 (m ((c : Thread nD τ).loc main_arg4)) := by
  refine (HostPre.after_v10 (W7 m ρ c)).trans ?_; rw [arg4_at7 m ρ c]
theorem wb_entry (c : Dev nD) : W8 m ρ c (Proc.devRef .tc main_v11) = HostPre.eBlock1 (m ((c : Thread nD τ).loc main_arg4)) := by
  refine (HostPre.after_v11 (W7 m ρ c)).trans ?_; rw [arg4_at7 m ρ c]
theorem wc_entry (c : Dev nD) : W8 m ρ c (Proc.devRef .tc main_v12) = HostPre.eBlock2 (m ((c : Thread nD τ).loc main_arg4)) := by
  refine (HostPre.after_v12 (W7 m ρ c)).trans ?_; rw [arg4_at7 m ρ c]
theorem b1_entry (c : Dev nD) : W8 m ρ c (Proc.devRef .tc main_v13) = HostPre.biasRow (m ((c : Thread nD τ).loc main_arg5)) := by
  refine (HostPre.after_v13 (W7 m ρ c)).trans ?_; rw [arg5_at7 m ρ c]
theorem b2_entry (c : Dev nD) : W8 m ρ c (Proc.devRef .tc main_v14) = HostPre.biasRow (m ((c : Thread nD τ).loc main_arg7)) := by
  refine (HostPre.after_v14 (W7 m ρ c)).trans ?_; rw [arg7_at7 m ρ c]
theorem bc1_entry (c : Dev nD) : W8 m ρ c (Proc.devRef .tc main_v15) = HostPre.biasRow (m ((c : Thread nD τ).loc main_arg13)) := by
  refine (HostPre.after_v15 (W7 m ρ c)).trans ?_; rw [arg13_at7 m ρ c]

end Cert.KernelIdeal.KChainPre

end
-- ==== Proof.HostMid.lean ====
import proofs.«418158_j78065325572140_2_alg».proof.Proof.Gen.KernelIdeal.Launch
import Idealize.ShloMosaic.Lib.StableHlo.Run

noncomputable section

namespace Cert.KernelIdeal.HostMid

open Cert.KernelIdeal Cert.KernelIdeal.Gen Idealize.ShloMosaic Idealize.ShloMosaic.TcCoe Idealize.SL.Sem Idealize.ShloMosaic.StableHlo
open Cert.KernelIdeal.Facts

variable {F : FTy → Type} [FloatOps F]

set_option maxHeartbeats 1000000 in
set_option maxRecDepth 65536 in

def rowCol (idx : IVec S464640 32) : IVec S464640x1 32 :=
  broadcastInDim S464640x1 ![0] bcast_S464640_S464640x1_0 idx

def aggOf (idx : IVec S464640 32) (feat : FVec F S464640x128 .f32) : FVec F S29040x128 .f32 :=
  Host.scatterAdd scatter_S29040x128_S464640x1_S464640x128_1_0_0_1
    (broadcastInDim S29040x128 ![] bcast_S_S29040x128 (constant S_ .f32 0x00000000#32)) (rowCol idx) feat

def cntOf (idx : IVec S464640 32) : FVec F S29040 .f32 :=
  Host.scatterAdd scatter_S29040_S464640x1_S464640_n_0_0_1
    (broadcastInDim S29040 ![] bcast_S_S29040 (constant S_ .f32 0x00000000#32)) (rowCol idx)
    (broadcastInDim S464640 ![] bcast_S_S464640 (constant S_ .f32 0x3F800000#32))

def cntCol (idx : IVec S464640 32) : FVec F S29040x1 .f32 :=
  broadcastInDim S29040x1 ![0] bcast_S29040_S29040x1_0
    (maximumf (cntOf (F := F) idx) (broadcastInDim S29040 ![] bcast_S_S29040 (constant S_ .f32 0x3F800000#32)))

def windSum (idx : IVec S464640 32) (wind : FVec F S464640x22 .f32) : FVec F S29040x22 .f32 :=
  Host.scatterAdd scatter_S29040x22_S464640x1_S464640x22_1_0_0_1
    (broadcastInDim S29040x22 ![] bcast_S_S29040x22 (constant S_ .f32 0x00000000#32)) (rowCol idx) wind

def meanLoOf (ws : FVec F S29040x22 .f32) (cnt : FVec F S29040x1 .f32) : FVec F S29040x11 .f32 :=
  Host.divf (extractStridedSlice S29040x11 ![0, 0] ws slices_S29040x22_S29040x11_0_0)
    (broadcastInDim S29040x11 ![0, 1] bcast_S29040x1_S29040x11_0_1 cnt)

def meanHiOf (ws : FVec F S29040x22 .f32) (cnt : FVec F S29040x1 .f32) : FVec F S29040x11 .f32 :=
  Host.divf (extractStridedSlice S29040x11 ![0, 11] ws slices_S29040x22_S29040x11_0_11)
    (broadcastInDim S29040x11 ![0, 1] bcast_S29040x1_S29040x11_0_1 cnt)

def meanWindLo (idx : IVec S464640 32) (wind : FVec F S464640x22 .f32) : FVec F S29040x11 .f32 :=
  meanLoOf (windSum idx wind) (cntCol idx)

def meanWindHi (idx : IVec S464640 32) (wind : FVec F S464640x22 .f32) : FVec F S29040x11 .f32 :=
  meanHiOf (windSum idx wind) (cntCol idx)

def clipOf (lo hi : FVec F S_ .f32) (x : FVec F S29040x11 .f32) : FVec F S29040x11 .f32 :=
  minimumf (broadcastInDim S29040x11 ![] bcast_S_S29040x11 hi)
    (maximumf (broadcastInDim S29040x11 ![] bcast_S_S29040x11 lo) x)

def clip11 (x : FVec F S29040x11 .f32) : FVec F S29040x11 .f32 :=
  clipOf (constant S_ .f32 0xC2C80000#32) (constant S_ .f32 0x42C80000#32) x

def wBlock0 (w : FVec F S384x128 .f32) : FVec F S128x128 .f32 :=
  extractStridedSlice S128x128 ![0, 0] w slices_S384x128_S128x128_0_0
def wBlock1 (w : FVec F S384x128 .f32) : FVec F S128x128 .f32 :=
  extractStridedSlice S128x128 ![128, 0] w slices_S384x128_S128x128_128_0
def wBlock2 (w : FVec F S384x128 .f32) : FVec F S128x128 .f32 :=
  extractStridedSlice S128x128 ![256, 0] w slices_S384x128_S128x128_256_0

def biasRow (b : FVec F S128 .f32) : FVec F S1x128 .f32 :=
  shapeCast S1x128 b shapeCasts_S128_S1x128

variable (W : Valuation τ sig (Elt F))

set_option maxHeartbeats 1000000 in
set_option maxRecDepth 65536 in

theorem after_v19 :
    StableHlo.after hostOps1 W (Proc.devRef .tc main_v19)
      = aggOf (F := F) (W (Proc.devRef .tc main_v1)) (W (Proc.devRef .tc main_v16_0)) := by
  unfold aggOf rowCol
  after_results_simp <;> (try simp only [TRef.ofBuf, TRef.toBuf, cast_eq]) <;> rfl

set_option maxHeartbeats 1000000 in
set_option maxRecDepth 65536 in

theorem after_v26 :
    StableHlo.after hostOps1 W (Proc.devRef .tc main_v26)
      = cntCol (F := F) (W (Proc.devRef .tc main_v1)) := by
  unfold cntCol cntOf rowCol
  after_results_simp <;> (try simp only [TRef.ofBuf, TRef.toBuf, cast_eq]) <;> rfl

set_option maxHeartbeats 1000000 in
set_option maxRecDepth 65536 in

theorem after_v29 :
    StableHlo.after hostOps1 W (Proc.devRef .tc main_v29)
      = windSum (F := F) (W (Proc.devRef .tc main_v1)) (W (Proc.devRef .tc main_v16_1)) := by
  unfold windSum rowCol
  after_results_simp <;> (try simp only [TRef.ofBuf, TRef.toBuf, cast_eq]) <;> rfl

set_option maxHeartbeats 1000000 in
set_option maxRecDepth 65536 in

theorem after_v32 :
    StableHlo.after hostOps1 W (Proc.devRef .tc main_v32)
      = meanWindLo (F := F) (W (Proc.devRef .tc main_v1)) (W (Proc.devRef .tc main_v16_1)) := by
  unfold meanWindLo meanLoOf windSum cntCol cntOf rowCol
  after_results_simp <;> (try simp only [TRef.ofBuf, TRef.toBuf, cast_eq]) <;> rfl

set_option maxHeartbeats 1000000 in
set_option maxRecDepth 65536 in

theorem after_cst_4 :
    StableHlo.after hostOps1 W (Proc.devRef .tc main_cst_4)
      = constant (F := F) S_ .f32 0xC2C80000#32 := by
  after_results_simp <;> (try simp only [TRef.ofBuf, TRef.toBuf, cast_eq]) <;> rfl

set_option maxHeartbeats 1000000 in
set_option maxRecDepth 65536 in
theorem after_cst_5 :
    StableHlo.after hostOps1 W (Proc.devRef .tc main_cst_5)
      = constant (F := F) S_ .f32 0x42C80000#32 := by
  after_results_simp <;> (try simp only [TRef.ofBuf, TRef.toBuf, cast_eq]) <;> rfl

set_option maxHeartbeats 1000000 in
set_option maxRecDepth 65536 in

theorem after_v33 :
    StableHlo.after hostOps1_1 W (Proc.devRef .tc main_v33)
      = clipOf (F := F) (W (Proc.devRef .tc main_cst_4)) (W (Proc.devRef .tc main_cst_5)) (W (Proc.devRef .tc main_v32)) := by
  unfold clipOf
  after_results_simp <;> (try simp only [TRef.ofBuf, TRef.toBuf, cast_eq]) <;> rfl

theorem after_v33_of :
    StableHlo.after hostOps1_1 (StableHlo.after hostOps1 W) (Proc.devRef .tc main_v33)
      = clip11 (F := F) (meanWindLo (W (Proc.devRef .tc main_v1)) (W (Proc.devRef .tc main_v16_1))) := by
  rw [after_v33, after_cst_4, after_cst_5, after_v32]
  rfl

set_option maxHeartbeats 1000000 in
set_option maxRecDepth 65536 in

theorem after_v36 :
    StableHlo.after hostOps1_2 W (Proc.devRef .tc main_v36)
      = meanHiOf (F := F) (W (Proc.devRef .tc main_v29)) (W (Proc.devRef .tc main_v26)) := by
  unfold meanHiOf
  after_results_simp <;> (try simp only [TRef.ofBuf, TRef.toBuf, cast_eq]) <;> rfl

set_option maxHeartbeats 1000000 in
set_option maxRecDepth 65536 in

theorem after_cst_6 :
    StableHlo.after hostOps1_2 W (Proc.devRef .tc main_cst_6)
      = constant (F := F) S_ .f32 0xC2C80000#32 := by
  after_results_simp <;> (try simp only [TRef.ofBuf, TRef.toBuf, cast_eq]) <;> rfl

set_option maxHeartbeats 1000000 in
set_option maxRecDepth 65536 in
theorem after_cst_7 :
    StableHlo.after hostOps1_2 W (Proc.devRef .tc main_cst_7)
      = constant (F := F) S_ .f32 0x42C80000#32 := by
  after_results_simp <;> (try simp only [TRef.ofBuf, TRef.toBuf, cast_eq]) <;> rfl

theorem after_v37 :
    StableHlo.after hostOps1_3 W (Proc.devRef .tc main_v37)
      = clipOf (F := F) (W (Proc.devRef .tc main_cst_6)) (W (Proc.devRef .tc main_cst_7)) (W (Proc.devRef .tc main_v36)) := by
  unfold clipOf
  after_results_simp <;> (try simp only [TRef.ofBuf, TRef.toBuf, cast_eq]) <;> rfl

theorem after_v37_of :
    StableHlo.after hostOps1_3 (StableHlo.after hostOps1_2 W) (Proc.devRef .tc main_v37)
      = clip11 (F := F) (meanHiOf (W (Proc.devRef .tc main_v29)) (W (Proc.devRef .tc main_v26))) := by
  rw [after_v37, after_cst_6, after_cst_7, after_v36]
  rfl

theorem meanHiOf_sums (idx : IVec S464640 32) (wind : FVec F S464640x22 .f32) :
    meanHiOf (windSum idx wind) (cntCol idx) = meanWindHi idx wind := rfl

set_option maxHeartbeats 1000000 in
set_option maxRecDepth 65536 in
theorem after_v38 :
    StableHlo.after hostOps1_4 W (Proc.devRef .tc main_v38)
      = wBlock0 (F := F) (W (Proc.devRef .tc main_arg8)) := by
  unfold wBlock0
  after_results_simp <;> (try simp only [TRef.ofBuf, TRef.toBuf, cast_eq]) <;> rfl

set_option maxHeartbeats 1000000 in
set_option maxRecDepth 65536 in
theorem after_v39 :
    StableHlo.after hostOps1_4 W (Proc.devRef .tc main_v39)
      = wBlock1 (F := F) (W (Proc.devRef .tc main_arg8)) := by
  unfold wBlock1
  after_results_simp <;> (try simp only [TRef.ofBuf, TRef.toBuf, cast_eq]) <;> rfl

set_option maxHeartbeats 1000000 in
set_option maxRecDepth 65536 in
theorem after_v40 :
    StableHlo.after hostOps1_4 W (Proc.devRef .tc main_v40)
      = wBlock2 (F := F) (W (Proc.devRef .tc main_arg8)) := by
  unfold wBlock2
  after_results_simp <;> (try simp only [TRef.ofBuf, TRef.toBuf, cast_eq]) <;> rfl

set_option maxHeartbeats 1000000 in
set_option maxRecDepth 65536 in
theorem after_v41 :
    StableHlo.after hostOps1_4 W (Proc.devRef .tc main_v41)
      = biasRow (F := F) (W (Proc.devRef .tc main_arg9)) := by
  unfold biasRow
  after_results_simp <;> (try simp only [TRef.ofBuf, TRef.toBuf, cast_eq]) <;> rfl

set_option maxHeartbeats 1000000 in
set_option maxRecDepth 65536 in
theorem after_v42 :
    StableHlo.after hostOps1_4 W (Proc.devRef .tc main_v42)
      = biasRow (F := F) (W (Proc.devRef .tc main_arg11)) := by
  unfold biasRow
  after_results_simp <;> (try simp only [TRef.ofBuf, TRef.toBuf, cast_eq]) <;> rfl

end Cert.KernelIdeal.HostMid

end
-- ==== Proof.LibPlainDot.lean ====
import Idealize.ShloMosaic.Lib.ValueIdx
import Idealize.ShloMosaic.PureOps.Ideal.Laws

namespace Cert.LibPlainDot

open Idealize.ShloMosaic Idealize.ShloMosaic.ValueIdx

variable {M K N : Nat} (D : DotDims ⟨2, ![M, K]⟩ ⟨2, ![K, N]⟩ ⟨2, ![M, N]⟩)

/-- A plain product: no batch axis, the left operand's second axis contracted with the right operand's first. -/
structure Plain : Prop where
  lc : D.lhsContracting = [1]
  rc : D.rhsContracting = [0]
  lb : D.lhsBatch = []
  ln : D.lhsNonContracting = [0]
  rb : D.rhsBatch = []
  rn : D.rhsNonContracting = [1]
  cr : D.contr.rank = 1
  cs : D.contr.size ⟨0, by omega⟩ = K

variable {D} (h : Plain D)
include h

theorem lhs_row (i : (⟨2, ![M, N]⟩ : Shape).Idx) (q : D.contr.Idx) : (D.lhsIdx i q 0).val = (i 0).val := by
  unfold DotDims.lhsIdx
  rw [dif_neg (by rw [h.lb]; exact List.not_mem_nil), dif_pos (by rw [h.ln]; exact List.mem_singleton.mpr rfl)]
  exact congrArg (fun p => (i p).val) (Fin.ext (by simp [h.lb, h.ln]))

theorem rhs_col (i : (⟨2, ![M, N]⟩ : Shape).Idx) (q : D.contr.Idx) : (D.rhsIdx i q 1).val = (i 1).val := by
  unfold DotDims.rhsIdx
  rw [dif_neg (by rw [h.rb]; exact List.not_mem_nil), dif_pos (by rw [h.rn]; exact List.mem_singleton.mpr rfl)]
  exact congrArg (fun p => (i p).val) (Fin.ext (by simp [h.lb, h.ln, h.rn]))

/-- The contraction's sum is the sum over the shared coordinate. -/
theorem sum_eq {α : Type*} [AddCommMonoid α] (f : (⟨2, ![M, K]⟩ : Shape).Idx → (⟨2, ![K, N]⟩ : Shape).Idx → α)
    (e : Fin M) (j : Fin N) :
    ∑ q : D.contr.Idx, f (D.lhsIdx (ix2 e j) q) (D.rhsIdx (ix2 e j) q) = ∑ k : Fin K, f (ix2 e k) (ix2 k j) := by
  rw [← Equiv.sum_comp (contrEquiv1 D K h.cr h.cs).symm]
  refine Finset.sum_congr rfl fun k _ => ?_
  have hk := contrEquiv1_symm_val D K h.cr h.cs k
  have el : D.lhsIdx (ix2 e j) ((contrEquiv1 D K h.cr h.cs).symm k) = ix2 e k := funext fun a => Fin.ext (by
    match a with
    | ⟨0, _⟩ => exact lhs_row h _ _
    | ⟨1, _⟩ => exact (D.lhsIdx_val_of_single h.lc _ _).trans hk)
  have er : D.rhsIdx (ix2 e j) ((contrEquiv1 D K h.cr h.cs).symm k) = ix2 k j := funext fun a => Fin.ext (by
    match a with
    | ⟨0, _⟩ => exact (D.rhsIdx_val_of_single h.rc _ _).trans hk
    | ⟨1, _⟩ => exact rhs_col h _ _)
  rw [el, er]

/-- A block product into a zero accumulator, at an entry: the row of the left block against the column of the right. -/
theorem matmul_apply {φ₁ φ₂ : FTy} (A : FVec Ideal ⟨2, ![M, K]⟩ φ₁) (B : FVec Ideal ⟨2, ![K, N]⟩ φ₂) (e : Fin M) (j : Fin N) :
    matmul D none A B (constant (F := Ideal) ⟨2, ![M, N]⟩ .f32 0x00000000#32) (ix2 e j) = ∑ k : Fin K, A (ix2 e k) * B (ix2 k j) := by
  simp only [matmul]
  rw [Ideal.matmul_constant_zero_apply]
  exact sum_eq h (fun x y => A x * B y) e j

/-- A host product at an entry: the same sum. -/
theorem dotGeneral_apply {φ₁ φ₂ : FTy} (A : FVec Ideal ⟨2, ![M, K]⟩ φ₁) (B : FVec Ideal ⟨2, ![K, N]⟩ φ₂) (e : Fin M) (j : Fin N) :
    Host.dotGeneral D none A B (ix2 e j) = ∑ k : Fin K, A (ix2 e k) * B (ix2 k j) := by
  simp only [Host.dotGeneral]
  rw [Ideal.dotGeneral_apply]
  exact sum_eq h (fun x y => A x * B y) e j

end Cert.LibPlainDot
-- ==== Proof.SpecEdge.lean ====
import Idealize.ShloMosaic.PureOps.Ideal
import Idealize.ShloMosaic.Lib.ValueIdx

noncomputable section

namespace Cert.Spec.Edge

open Idealize.ShloMosaic Idealize.ShloMosaic.ValueIdx

abbrev SE128 (n : Nat) : Shape := ⟨2, ![n, 128]⟩
abbrev SE11 (n : Nat) : Shape := ⟨2, ![n, 11]⟩
abbrev SE1 (n : Nat) : Shape := ⟨2, ![n, 1]⟩
abbrev SE22 (n : Nat) : Shape := ⟨2, ![n, 22]⟩
abbrev SW : Shape := ⟨2, ![128, 128]⟩
abbrev SW34 : Shape := ⟨2, ![34, 128]⟩
abbrev SW22 : Shape := ⟨2, ![128, 22]⟩
abbrev SB : Shape := ⟨2, ![1, 128]⟩

abbrev c0 : Elt Ideal .f32 := FloatOps.ofBits (F := Ideal) .f32 0x00000000#32

section
variable {n : Nat}
variable (HR HC : FVec Ideal (SE128 n) .f32) (UR VR UC VC : FVec Ideal (SE11 n) .f32) (EA : FVec Ideal (SE1 n) .f32)
variable (Wa Wb : FVec Ideal SW .f32) (Wc : FVec Ideal SW34 .f32) (b1 : FVec Ideal SB .f32)
variable (W2 : FVec Ideal SW .f32) (b2 : FVec Ideal SB .f32)
variable (Wc1 : FVec Ideal SW .f32) (bc1 : FVec Ideal SB .f32) (Wcl : FVec Ideal SW22 .f32)

def colSpeed (e : Fin n) (l : Fin 11) : Elt Ideal .f32 :=
  FloatOps.sqrt (F := Ideal) (UC (ix2 e l) * UC (ix2 e l) + VC (ix2 e l) * VC (ix2 e l))
def rowSpeed (e : Fin n) (l : Fin 11) : Elt Ideal .f32 :=
  FloatOps.sqrt (F := Ideal) (UR (ix2 e l) * UR (ix2 e l) + VR (ix2 e l) * VR (ix2 e l))
def relDirt (e : Fin n) (l : Fin 11) : Elt Ideal .f32 :=
  FloatOps.divf (F := Ideal) (UC (ix2 e l) * UR (ix2 e l) + VC (ix2 e l) * VR (ix2 e l))
    (colSpeed UC VC e l * rowSpeed UR VR e l)

def small (e : Fin n) (k : Fin 34) : Elt Ideal .f32 :=
  if h0 : k.val < 11 then relDirt UR VR UC VC e ⟨k.val, h0⟩
  else if h1 : k.val < 22 then colSpeed UC VC e ⟨k.val - 11, by omega⟩
  else if h2 : k.val < 33 then rowSpeed UR VR e ⟨k.val - 22, by omega⟩
  else EA (ix2 e 0)

def h1 (e : Fin n) (j : Fin 128) : Elt Ideal .f32 :=
  FloatOps.maximumf (F := Ideal)
    ((((∑ k : Fin 128, HR (ix2 e k) * Wa (ix2 k j)) + (∑ k : Fin 128, HC (ix2 e k) * Wb (ix2 k j)))
        + (∑ k : Fin 34, small UR VR UC VC EA e k * Wc (ix2 k j))) + b1 (ix2 0 j))
    c0

def feat : FVec Ideal (SE128 n) .f32 := fun i =>
  FloatOps.maximumf (F := Ideal)
    ((∑ k : Fin 128, h1 HR HC UR VR UC VC EA Wa Wb Wc b1 (i 0) k * W2 (ix2 k (i 1))) + b2 (ix2 0 (i 1))) c0

def c1 (e : Fin n) (j : Fin 128) : Elt Ideal .f32 :=
  FloatOps.maximumf (F := Ideal)
    ((∑ k : Fin 128, feat HR HC UR VR UC VC EA Wa Wb Wc b1 W2 b2 (ix2 e k) * Wc1 (ix2 k j)) + bc1 (ix2 0 j)) c0

def ef2 (e : Fin n) (q : Fin 22) : Elt Ideal .f32 :=
  ∑ k : Fin 128, c1 HR HC UR VR UC VC EA Wa Wb Wc b1 W2 b2 Wc1 bc1 e k * Wcl (ix2 k q)

def mag (X : FVec Ideal (SE11 n) .f32) (e : Fin n) : Elt Ideal .f32 :=
  FloatOps.sqrt (F := Ideal) (∑ l : Fin 11, X (ix2 e l) * X (ix2 e l))

def wind : FVec Ideal (SE22 n) .f32 := fun i =>
  ef2 HR HC UR VR UC VC EA Wa Wb Wc b1 W2 b2 Wc1 bc1 Wcl (i 0) (i 1)
    * (if (i 1).val < 11 then mag UC (i 0) else mag VC (i 0))
end

end Cert.Spec.Edge

end
-- ==== Proof.Blocks.lean ====
import proofs.«418158_j78065325572140_2_alg».proof.Proof.Gen.KernelIdeal.Frame
import proofs.«418158_j78065325572140_2_alg».proof.Proof.LibPlainDot
import proofs.«418158_j78065325572140_2_alg».proof.Proof.SpecEdge
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Blocks

open Cert.KernelIdeal Cert.KernelIdeal.Gen
open Idealize.ShloMosaic Idealize.ShloMosaic.ValueIdx Idealize.ShloMosaic.TcCoe Idealize.SL.Sem
open Idealize.ShloMosaic.Pipeline (Dat)

theorem matmul128_apply (A : FVec Ideal S2816x128 .bf16) (B : FVec Ideal S128x128 .bf16) (e : Fin 2816) (j : Fin 128) :
    matmul dot_S2816x128_S128x128_S2816x128_1_0_0_1_n_n none A B (constant (F := Ideal) S2816x128 .f32 0x00000000#32) (ix2 e j)
      = ∑ k : Fin 128, A (ix2 e k) * B (ix2 k j) :=
  Cert.LibPlainDot.matmul_apply ⟨rfl, rfl, rfl, rfl, rfl, rfl, rfl, rfl⟩ _ _ _ _

theorem hz : (![0, 0] : Fin 2 → Nat) = fun _ => 0 := funext fun a => by fin_cases a <;> rfl

def rowOf (t : Fin cfg0.N) (e : Fin 2816) : Fin 464640 :=
  ⟨2816 * t.val + e.val, by have h : t.val < 165 := lt_of_lt_of_eq t.isLt N_0; have := e.isLt; omega⟩

theorem edge_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_17.index t (0 : Fin 2) = t.val ∧ win0_17.index t (1 : Fin 2) = 0 :=
  (by decide +kernel : ∀ t : Fin grid0.N, _)

theorem weight_idx : ∀ t : Fin cfg0.N,
    win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

variable (V : (c : Dev nD) → (b : Ref sig .tc) → Buf (Elt Ideal) ((c : Thread nD τ).loc b))

theorem iblk_hr (c : Dev nD) (t : Fin cfg0.N) :
    iblk0 V c 0 t = fun i : S2816x128.Idx => (V c main_v4 : S464640x128.Idx → Elt Ideal .f32) (ix2 (rowOf t (i 0)) (i 1)) := by
  unfold iblk0
  funext y
  show V c main_v4 (((cfg0.win 0).blk t).view.emb y) = _
  congr 1
  funext a
  apply Fin.ext
  obtain ⟨a0, a1, b0, b1, c0, c1, d0, d1, e0, e1, f0, f1, g0, g1, o0, o1⟩ := edge_idx t
  match a with
  | ⟨0, _⟩ => show win0_0.index t (0 : Fin 2) * 2816 + 1 * (y 0).val = 2816 * t.val + (y 0).val; rw [a0]; omega
  | ⟨1, _⟩ => show win0_0.index t (1 : Fin 2) * 128 + 1 * (y 1).val = (y 1).val; rw [a1]; omega

theorem iblk_hc (c : Dev nD) (t : Fin cfg0.N) :
    iblk0 V c 1 t = fun i : S2816x128.Idx => (V c main_v5 : S464640x128.Idx → Elt Ideal .f32) (ix2 (rowOf t (i 0)) (i 1)) := by
  unfold iblk0
  funext y
  show V c main_v5 (((cfg0.win 1).blk t).view.emb y) = _
  congr 1
  funext a
  apply Fin.ext
  obtain ⟨a0, a1, b0, b1, c0, c1, d0, d1, e0, e1, f0, f1, g0, g1, o0, o1⟩ := edge_idx t
  match a with
  | ⟨0, _⟩ => show win0_1.index t (0 : Fin 2) * 2816 + 1 * (y 0).val = 2816 * t.val + (y 0).val; rw [b0]; omega
  | ⟨1, _⟩ => show win0_1.index t (1 : Fin 2) * 128 + 1 * (y 1).val = (y 1).val; rw [b1]; omega

theorem iblk_ur (c : Dev nD) (t : Fin cfg0.N) :
    iblk0 V c 2 t = fun i : S2816x11.Idx => (V c main_v6 : S464640x11.Idx → Elt Ideal .f32) (ix2 (rowOf t (i 0)) (i 1)) := by
  unfold iblk0
  funext y
  show V c main_v6 (((cfg0.win 2).blk t).view.emb y) = _
  congr 1
  funext a
  apply Fin.ext
  obtain ⟨a0, a1, b0, b1, c0, c1, d0, d1, e0, e1, f0, f1, g0, g1, o0, o1⟩ := edge_idx t
  match a with
  | ⟨0, _⟩ => show win0_2.index t (0 : Fin 2) * 2816 + 1 * (y 0).val = 2816 * t.val + (y 0).val; rw [c0]; omega
  | ⟨1, _⟩ => show win0_2.index t (1 : Fin 2) * 11 + 1 * (y 1).val = (y 1).val; rw [c1]; omega

theorem iblk_vr (c : Dev nD) (t : Fin cfg0.N) :
    iblk0 V c 3 t = fun i : S2816x11.Idx => (V c main_v7 : S464640x11.Idx → Elt Ideal .f32) (ix2 (rowOf t (i 0)) (i 1)) := by
  unfold iblk0
  funext y
  show V c main_v7 (((cfg0.win 3).blk t).view.emb y) = _
  congr 1
  funext a
  apply Fin.ext
  obtain ⟨a0, a1, b0, b1, c0, c1, d0, d1, e0, e1, f0, f1, g0, g1, o0, o1⟩ := edge_idx t
  match a with
  | ⟨0, _⟩ => show win0_3.index t (0 : Fin 2) * 2816 + 1 * (y 0).val = 2816 * t.val + (y 0).val; rw [d0]; omega
  | ⟨1, _⟩ => show win0_3.index t (1 : Fin 2) * 11 + 1 * (y 1).val = (y 1).val; rw [d1]; omega

theorem iblk_uc (c : Dev nD) (t : Fin cfg0.N) :
    iblk0 V c 4 t = fun i : S2816x11.Idx => (V c main_v8 : S464640x11.Idx → Elt Ideal .f32) (ix2 (rowOf t (i 0)) (i 1)) := by
  unfold iblk0
  funext y
  show V c main_v8 (((cfg0.win 4).blk t).view.emb y) = _
  congr 1
  funext a
  apply Fin.ext
  obtain ⟨a0, a1, b0, b1, c0, c1, d0, d1, e0, e1, f0, f1, g0, g1, o0, o1⟩ := edge_idx t
  match a with
  | ⟨0, _⟩ => show win0_4.index t (0 : Fin 2) * 2816 + 1 * (y 0).val = 2816 * t.val + (y 0).val; rw [e0]; omega
  | ⟨1, _⟩ => show win0_4.index t (1 : Fin 2) * 11 + 1 * (y 1).val = (y 1).val; rw [e1]; omega

theorem iblk_vc (c : Dev nD) (t : Fin cfg0.N) :
    iblk0 V c 5 t = fun i : S2816x11.Idx => (V c main_v9 : S464640x11.Idx → Elt Ideal .f32) (ix2 (rowOf t (i 0)) (i 1)) := by
  unfold iblk0
  funext y
  show V c main_v9 (((cfg0.win 5).blk t).view.emb y) = _
  congr 1
  funext a
  apply Fin.ext
  obtain ⟨a0, a1, b0, b1, c0, c1, d0, d1, e0, e1, f0, f1, g0, g1, o0, o1⟩ := edge_idx t
  match a with
  | ⟨0, _⟩ => show win0_5.index t (0 : Fin 2) * 2816 + 1 * (y 0).val = 2816 * t.val + (y 0).val; rw [f0]; omega
  | ⟨1, _⟩ => show win0_5.index t (1 : Fin 2) * 11 + 1 * (y 1).val = (y 1).val; rw [f1]; omega

theorem iblk_ea (c : Dev nD) (t : Fin cfg0.N) :
    iblk0 V c 6 t = fun i : S2816x1.Idx => (V c main_arg3 : S464640x1.Idx → Elt Ideal .f32) (ix2 (rowOf t (i 0)) (i 1)) := by
  unfold iblk0
  funext y
  show V c main_arg3 (((cfg0.win 6).blk t).view.emb y) = _
  congr 1
  funext a
  apply Fin.ext
  obtain ⟨a0, a1, b0, b1, c0, c1, d0, d1, e0, e1, f0, f1, g0, g1, o0, o1⟩ := edge_idx t
  match a with
  | ⟨0, _⟩ => show win0_6.index t (0 : Fin 2) * 2816 + 1 * (y 0).val = 2816 * t.val + (y 0).val; rw [g0]; omega
  | ⟨1, _⟩ => show win0_6.index t (1 : Fin 2) * 1 + 1 * (y 1).val = (y 1).val; rw [g1]; omega

theorem iblk_wa (c : Dev nD) (t : Fin cfg0.N) :
    iblk0 V c 7 t = (V c main_v10 : S128x128.Idx → Elt Ideal .f32) := by
  unfold iblk0
  funext y
  show V c main_v10 (((cfg0.win 7).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_7.index t (0 : Fin 2) * 128 + 1 * (y 0).val = (y 0).val; rw [p0]; omega
  | ⟨1, _⟩ => show win0_7.index t (1 : Fin 2) * 128 + 1 * (y 1).val = (y 1).val; rw [p1]; omega

theorem iblk_wb (c : Dev nD) (t : Fin cfg0.N) :
    iblk0 V c 8 t = (V c main_v11 : S128x128.Idx → Elt Ideal .f32) := by
  unfold iblk0
  funext y
  show V c main_v11 (((cfg0.win 8).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_8.index t (0 : Fin 2) * 128 + 1 * (y 0).val = (y 0).val; rw [q0]; omega
  | ⟨1, _⟩ => show win0_8.index t (1 : Fin 2) * 128 + 1 * (y 1).val = (y 1).val; rw [q1]; omega

theorem iblk_wc (c : Dev nD) (t : Fin cfg0.N) :
    iblk0 V c 9 t = (V c main_v12 : S34x128.Idx → Elt Ideal .f32) := by
  unfold iblk0
  funext y
  show V c main_v12 (((cfg0.win 9).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_9.index t (0 : Fin 2) * 34 + 1 * (y 0).val = (y 0).val; rw [r0]; omega
  | ⟨1, _⟩ => show win0_9.index t (1 : Fin 2) * 128 + 1 * (y 1).val = (y 1).val; rw [r1]; omega

theorem iblk_b1 (c : Dev nD) (t : Fin cfg0.N) :
    iblk0 V c 10 t = (V c main_v13 : S1x128.Idx → Elt Ideal .f32) := by
  unfold iblk0
  funext y
  show V c main_v13 (((cfg0.win 10).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_10.index t (0 : Fin 2) * 1 + 1 * (y 0).val = (y 0).val; rw [s0]; omega
  | ⟨1, _⟩ => show win0_10.index t (1 : Fin 2) * 128 + 1 * (y 1).val = (y 1).val; rw [s1]; omega

theorem iblk_w2 (c : Dev nD) (t : Fin cfg0.N) :
    iblk0 V c 11 t = (V c main_arg6 : S128x128.Idx → Elt Ideal .f32) := by
  unfold iblk0
  funext y
  show V c main_arg6 (((cfg0.win 11).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_11.index t (0 : Fin 2) * 128 + 1 * (y 0).val = (y 0).val; rw [u0]; omega
  | ⟨1, _⟩ => show win0_11.index t (1 : Fin 2) * 128 + 1 * (y 1).val = (y 1).val; rw [u1]; omega

theorem iblk_b2 (c : Dev nD) (t : Fin cfg0.N) :
    iblk0 V c 12 t = (V c main_v14 : S1x128.Idx → Elt Ideal .f32) := by
  unfold iblk0
  funext y
  show V c main_v14 (((cfg0.win 12).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_12.index t (0 : Fin 2) * 1 + 1 * (y 0).val = (y 0).val; rw [v0]; omega
  | ⟨1, _⟩ => show win0_12.index t (1 : Fin 2) * 128 + 1 * (y 1).val = (y 1).val; rw [v1]; omega

theorem iblk_wc1 (c : Dev nD) (t : Fin cfg0.N) :
    iblk0 V c 13 t = (V c main_arg12 : S128x128.Idx → Elt Ideal .f32) := by
  unfold iblk0
  funext y
  show V c main_arg12 (((cfg0.win 13).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_13.index t (0 : Fin 2) * 128 + 1 * (y 0).val = (y 0).val; rw [w0]; omega
  | ⟨1, _⟩ => show win0_13.index t (1 : Fin 2) * 128 + 1 * (y 1).val = (y 1).val; rw [w1]; omega

theorem iblk_bc1 (c : Dev nD) (t : Fin cfg0.N) :
    iblk0 V c 14 t = (V c main_v15 : S1x128.Idx → Elt Ideal .f32) := by
  unfold iblk0
  funext y
  show V c main_v15 (((cfg0.win 14).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_14.index t (0 : Fin 2) * 1 + 1 * (y 0).val = (y 0).val; rw [x0]; omega
  | ⟨1, _⟩ => show win0_14.index t (1 : Fin 2) * 128 + 1 * (y 1).val = (y 1).val; rw [x1]; omega

theorem iblk_wcl (c : Dev nD) (t : Fin cfg0.N) :
    iblk0 V c 15 t = (V c main_arg14 : S128x22.Idx → Elt Ideal .f32) := by
  unfold iblk0
  funext y
  show V c main_arg14 (((cfg0.win 15).blk t).view.emb y) = _
  congr 1
  funext a
  apply Fin.ext
  obtain ⟨p0, p1, q0, q1, r0, r1, s0, s1, u0, u1, v0, v1, w0, w1, x0, x1, y0, y1⟩ := weight_idx t
  match a with
  | ⟨0, _⟩ => show win0_15.index t (0 : Fin 2) * 128 + 1 * (y 0).val = (y 0).val; rw [y0]; omega
  | ⟨1, _⟩ => show win0_15.index t (1 : Fin 2) * 22 + 1 * (y 1).val = (y 1).val; rw [y1]; omega

end Cert.KernelIdeal.Blocks

end
-- ==== Proof.EdgeFeatValue.lean ====
import proofs.«418158_j78065325572140_2_alg».proof.Proof.Gen.KernelIdeal.Frame
import proofs.«418158_j78065325572140_2_alg».proof.Proof.LibPlainDot
import proofs.«418158_j78065325572140_2_alg».proof.Proof.SpecEdge
import proofs.«418158_j78065325572140_2_alg».proof.Proof.Blocks
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.EdgeFeatValue

open Cert.KernelIdeal Cert.KernelIdeal.Gen Cert.KernelIdeal.Blocks
open Idealize.ShloMosaic Idealize.ShloMosaic.ValueIdx Idealize.ShloMosaic.TcCoe Idealize.SL.Sem
open Idealize.ShloMosaic.Pipeline (Dat)

theorem matmul34_apply (A : FVec Ideal S2816x34 .bf16) (B : FVec Ideal S34x128 .bf16) (e : Fin 2816) (j : Fin 128) :
    matmul dot_S2816x34_S34x128_S2816x128_1_0_0_1_n_n none A B (constant (F := Ideal) S2816x128 .f32 0x00000000#32) (ix2 e j)
      = ∑ k : Fin 34, A (ix2 e k) * B (ix2 k j) :=
  Cert.LibPlainDot.matmul_apply ⟨rfl, rfl, rfl, rfl, rfl, rfl, rfl, rfl⟩ _ _ _ _

theorem concat34_apply {α : Type} (a b c : S2816x11.Idx → α) (d : S2816x1.Idx → α)
    (h : Shape.Concatenates [S2816x11, S2816x11, S2816x11, S2816x1] S2816x34 1) (e : Fin 2816) (k : Fin 34) :
    concatenate S2816x34 1 [⟨S2816x11, a⟩, ⟨S2816x11, b⟩, ⟨S2816x11, c⟩, ⟨S2816x1, d⟩] h (ix2 e k)
      = if h0 : k.val < 11 then a (ix2 e ⟨k.val, h0⟩)
        else if h1 : k.val < 22 then b (ix2 e ⟨k.val - 11, by omega⟩)
        else if h2 : k.val < 33 then c (ix2 e ⟨k.val - 22, by omega⟩)
        else d (ix2 e 0) := by
  have hk34 : k.val < 34 := k.isLt
  split
  · next h0 =>
    refine concatenate_apply_piece (t := S2816x34) 1 [⟨S2816x11, a⟩, ⟨S2816x11, b⟩, ⟨S2816x11, c⟩, ⟨S2816x1, d⟩] h (ix2 e k) 0 (by show 0 < 4; omega) S2816x11 a rfl rfl 0 rfl (ix2 e ⟨k.val, h0⟩) ?_ ?_
    · intro bx hb
      match bx with
      | ⟨0, _⟩ => rfl
      | ⟨1, _⟩ => exact absurd rfl hb
    · show 0 + k.val = k.val
      omega
  · next h0 =>
    split
    · next h1 =>
      refine concatenate_apply_piece (t := S2816x34) 1 [⟨S2816x11, a⟩, ⟨S2816x11, b⟩, ⟨S2816x11, c⟩, ⟨S2816x1, d⟩] h (ix2 e k) 1 (by show 1 < 4; omega) S2816x11 b rfl rfl 11 rfl (ix2 e ⟨k.val - 11, by omega⟩) ?_ ?_
      · intro bx hb
        match bx with
        | ⟨0, _⟩ => rfl
        | ⟨1, _⟩ => exact absurd rfl hb
      · show 11 + (k.val - 11) = k.val
        omega
    · next h1 =>
      split
      · next h2 =>
        refine concatenate_apply_piece (t := S2816x34) 1 [⟨S2816x11, a⟩, ⟨S2816x11, b⟩, ⟨S2816x11, c⟩, ⟨S2816x1, d⟩] h (ix2 e k) 2 (by show 2 < 4; omega) S2816x11 c rfl rfl 22 rfl (ix2 e ⟨k.val - 22, by omega⟩) ?_ ?_
        · intro bx hb
          match bx with
          | ⟨0, _⟩ => rfl
          | ⟨1, _⟩ => exact absurd rfl hb
        · show 22 + (k.val - 22) = k.val
          omega
      · next h2 =>
        refine concatenate_apply_piece (t := S2816x34) 1 [⟨S2816x11, a⟩, ⟨S2816x11, b⟩, ⟨S2816x11, c⟩, ⟨S2816x1, d⟩] h (ix2 e k) 3 (by show 3 < 4; omega) S2816x1 d rfl rfl 33 rfl (ix2 e (0 : Fin 1)) ?_ ?_
        · intro bx hb
          match bx with
          | ⟨0, _⟩ => rfl
          | ⟨1, _⟩ => exact absurd rfl hb
        · show 33 + 0 = k.val
          omega

theorem pay6_apply (x2 x3 x4 x5 : Vec Ideal S2816x11 .f32) (x6 : Vec Ideal S2816x1 .f32) (e : Fin 2816) (k : Fin 34) :
    k0_pay6 x2 x3 x4 x5 x6 (ix2 e k) = Cert.Spec.Edge.small (n := 2816) x2 x3 x4 x5 x6 e k := by
  unfold k0_pay6 k0_pay2 k0_pay3
  rw [truncf_apply, concat34_apply]
  simp only [shapeCast_self]
  rfl

theorem pay10_apply (x0 x1 : Vec Ideal S2816x128 .f32) (x2 x3 x4 x5 : Vec Ideal S2816x11 .f32) (x6 : Vec Ideal S2816x1 .f32)
    (x7 x8 : Vec Ideal S128x128 .f32) (x9 : Vec Ideal S34x128 .f32) (x10 : Vec Ideal S1x128 .f32)
    (x11 : Vec Ideal S128x128 .f32) (x12 : Vec Ideal S1x128 .f32) (e : Fin 2816) (j : Fin 128) :
    k0_pay10 (k0_pay4 x0) (k0_pay5 x1) (k0_pay6 x2 x3 x4 x5 x6) (k0_pay7 x7) (k0_pay8 x8) (k0_pay9 x9) x10 x11 x12 (ix2 e j)
      = Cert.Spec.Edge.feat (n := 2816) x0 x1 x2 x3 x4 x5 x6 x7 x8 x9 x10 x11 x12 (ix2 e j) := by
  unfold k0_pay10
  simp only [maximumf_apply, addf_apply, broadcast_apply, truncf_apply, matmul128_apply, matmul34_apply,
    broadcastTo_1b_ab_apply, shapeCast_self, pay6_apply]
  unfold k0_pay4 k0_pay5 k0_pay7 k0_pay8 k0_pay9
  simp only [truncf_apply, shapeCast_self]
  rfl

theorem pay10_eq (x0 x1 : Vec Ideal S2816x128 .f32) (x2 x3 x4 x5 : Vec Ideal S2816x11 .f32) (x6 : Vec Ideal S2816x1 .f32)
    (x7 x8 : Vec Ideal S128x128 .f32) (x9 : Vec Ideal S34x128 .f32) (x10 : Vec Ideal S1x128 .f32)
    (x11 : Vec Ideal S128x128 .f32) (x12 : Vec Ideal S1x128 .f32) :
    k0_pay10 (k0_pay4 x0) (k0_pay5 x1) (k0_pay6 x2 x3 x4 x5 x6) (k0_pay7 x7) (k0_pay8 x8) (k0_pay9 x9) x10 x11 x12
      = Cert.Spec.Edge.feat (n := 2816) x0 x1 x2 x3 x4 x5 x6 x7 x8 x9 x10 x11 x12 := by
  funext i
  obtain ⟨e, j, rfl⟩ : ∃ (e : Fin 2816) (j : Fin 128), i = ix2 e j := ⟨i 0, i 1, eq_ix2 i⟩
  exact pay10_apply x0 x1 x2 x3 x4 x5 x6 x7 x8 x9 x10 x11 x12 e j

/-- The edge feature of row `e` reads row `e` of each per-edge array and nothing else. -/
theorem feat_rows {n N : Nat} (ρ : Fin n → Fin N)
    (HR HC : FVec Ideal (Cert.Spec.Edge.SE128 N) .f32) (UR VR UC VC : FVec Ideal (Cert.Spec.Edge.SE11 N) .f32)
    (EA : FVec Ideal (Cert.Spec.Edge.SE1 N) .f32)
    (Wa Wb : FVec Ideal Cert.Spec.Edge.SW .f32) (Wc : FVec Ideal Cert.Spec.Edge.SW34 .f32) (b1 : FVec Ideal Cert.Spec.Edge.SB .f32)
    (W2 : FVec Ideal Cert.Spec.Edge.SW .f32) (b2 : FVec Ideal Cert.Spec.Edge.SB .f32) (e : Fin n) (j : Fin 128) :
    Cert.Spec.Edge.feat (n := n) (fun i => HR (ix2 (ρ (i 0)) (i 1))) (fun i => HC (ix2 (ρ (i 0)) (i 1)))
        (fun i => UR (ix2 (ρ (i 0)) (i 1))) (fun i => VR (ix2 (ρ (i 0)) (i 1))) (fun i => UC (ix2 (ρ (i 0)) (i 1)))
        (fun i => VC (ix2 (ρ (i 0)) (i 1))) (fun i => EA (ix2 (ρ (i 0)) (i 1))) Wa Wb Wc b1 W2 b2 (ix2 e j)
      = Cert.Spec.Edge.feat (n := N) HR HC UR VR UC VC EA Wa Wb Wc b1 W2 b2 (ix2 (ρ e) j) := rfl

theorem idx0_16 : ∀ t : Fin cfg0.N, win0_16.index t (0 : Fin 2) = t.val ∧ win0_16.index t (1 : Fin 2) = 0 :=
  (by decide +kernel : ∀ t : Fin grid0.N, _)

variable (V : (c : Dev nD) → (b : Ref sig .tc) → Buf (Elt Ideal) ((c : Thread nD τ).loc b))

theorem flushed16_eq (c : Dev nD) (t : Fin cfg0.N) :
    (dat0 (F := Ideal) V c).flushed 16 t = ((cfg0.win 16).blk t).view.read (Elt Ideal)
      (Cert.Spec.Edge.feat (n := 464640) (V c main_v4) (V c main_v5) (V c main_v6) (V c main_v7) (V c main_v8) (V c main_v9)
        (V c main_arg3) (V c main_v10) (V c main_v11) (V c main_v12) (V c main_v13) (V c main_arg6) (V c main_v14)) := by
  show (cfg0.win 16).cut (grid0.coords t) ((dat0 V c).after 16 t) = _
  rw [after0_16]
  unfold out0_16
  rw [View.canon_unit_zero hz]
  simp only [View.ld_unit_zero (S := S2816x128) hz, View.ld_unit_zero (S := S2816x11) hz, View.ld_unit_zero (S := S2816x1) hz,
    View.ld_unit_zero (S := S128x128) hz, View.ld_unit_zero (S := S34x128) hz, View.ld_unit_zero (S := S1x128) hz]
  rw [pay10_eq, iblk_hr V c t, iblk_hc V c t, iblk_ur V c t, iblk_vr V c t, iblk_uc V c t, iblk_vc V c t, iblk_ea V c t,
    iblk_wa V c t, iblk_wb V c t, iblk_wc V c t, iblk_b1 V c t, iblk_w2 V c t, iblk_b2 V c t]
  refine funext fun (y : S2816x128.Idx) => ?_
  obtain ⟨e, j, rfl⟩ : ∃ (e : Fin 2816) (j : Fin 128), y = ix2 e j := ⟨y 0, y 1, eq_ix2 y⟩
  refine (feat_rows (rowOf t) (V c main_v4) (V c main_v5) (V c main_v6) (V c main_v7) (V c main_v8) (V c main_v9)
        (V c main_arg3) (V c main_v10) (V c main_v11) (V c main_v12) (V c main_v13) (V c main_arg6) (V c main_v14) e j).trans ?_
  rw [View.read_apply]
  refine congrArg (Cert.Spec.Edge.feat (n := 464640) (V c main_v4) (V c main_v5) (V c main_v6) (V c main_v7) (V c main_v8) (V c main_v9)
        (V c main_arg3) (V c main_v10) (V c main_v11) (V c main_v12) (V c main_v13) (V c main_arg6) (V c main_v14)) ?_
  obtain ⟨h0, h1⟩ := idx0_16 t
  funext a
  apply Fin.ext
  match a with
  | ⟨0, _⟩ => show 2816 * t.val + e.val = win0_16.index t (0 : Fin 2) * 2816 + 1 * e.val; rw [h0]; omega
  | ⟨1, _⟩ => show j.val = win0_16.index t (1 : Fin 2) * 128 + 1 * j.val; rw [h1]; omega

theorem mem_blk16 (t : Fin cfg0.N) (i : S464640x128.Idx) :
    i ∈ ((cfg0.win 16).blk t).view.set ↔ ∀ a : Fin 2, win0_16.index t a * S2816x128.size a ≤ (i a).val
      ∧ (i a).val < win0_16.index t a * S2816x128.size a + S2816x128.size a := by
  show i ∈ ((View.whole main_v16_0).slice (win0_16.rect t)).set ↔ _
  rw [View.set_slice_whole, Rect.mem_set_unit]
  exact Iff.rfl

theorem cover16 (i : S464640x128.Idx) :
    ∃ t : Fin cfg0.N, (cfg0.win 16).flush t = true ∧ i ∈ ((cfg0.win 16).blk t).view.set := by
  have hi0 : (i 0).val < 464640 := (i 0).isLt
  have hi1 : (i 1).val < 128 := (i 1).isLt
  have hq : (i 0).val / 2816 < cfg0.N := by rw [show cfg0.N = 165 from N_0]; omega
  obtain ⟨h0, h1⟩ := idx0_16 ⟨(i 0).val / 2816, hq⟩
  refine ⟨⟨(i 0).val / 2816, hq⟩, flush0_16 _, ?_⟩
  rw [mem_blk16]
  intro a
  match a with
  | ⟨0, _⟩ =>
    show win0_16.index ⟨(i 0).val / 2816, hq⟩ (0 : Fin 2) * 2816 ≤ (i 0).val
      ∧ (i 0).val < win0_16.index ⟨(i 0).val / 2816, hq⟩ (0 : Fin 2) * 2816 + 2816
    rw [h0]
    show (i 0).val / 2816 * 2816 ≤ (i 0).val ∧ (i 0).val < (i 0).val / 2816 * 2816 + 2816
    omega
  | ⟨1, _⟩ =>
    show win0_16.index ⟨(i 0).val / 2816, hq⟩ (1 : Fin 2) * 128 ≤ (i 1).val
      ∧ (i 1).val < win0_16.index ⟨(i 0).val / 2816, hq⟩ (1 : Fin 2) * 128 + 128
    rw [h1]
    omega

/-- The first call leaves, in its first output, the edge feature of its input arrays. -/
theorem final16 (c : Dev nD) :
    (dat0 (F := Ideal) V c).arrAt 16 cfg0.N
      = Cert.Spec.Edge.feat (n := 464640) (V c main_v4) (V c main_v5) (V c main_v6) (V c main_v7) (V c main_v8) (V c main_v9)
        (V c main_arg3) (V c main_v10) (V c main_v11) (V c main_v12) (V c main_v13) (V c main_arg6) (V c main_v14) :=
  (dat0 (F := Ideal) V c).arrAt_eq_of_cover 16 _ (fun t _ => flushed16_eq V c t) cover16

end Cert.KernelIdeal.EdgeFeatValue

end
-- ==== Proof.WindValue.lean ====
import proofs.«418158_j78065325572140_2_alg».proof.Proof.Gen.KernelIdeal.Frame
import proofs.«418158_j78065325572140_2_alg».proof.Proof.LibPlainDot
import proofs.«418158_j78065325572140_2_alg».proof.Proof.SpecEdge
import proofs.«418158_j78065325572140_2_alg».proof.Proof.Blocks
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.WindValue

open Cert.KernelIdeal Cert.KernelIdeal.Gen Cert.KernelIdeal.Blocks
open Idealize.ShloMosaic Idealize.ShloMosaic.ValueIdx Idealize.ShloMosaic.TcCoe Idealize.SL.Sem
open Idealize.ShloMosaic.Pipeline (Dat)

theorem matmul_w22_apply (A : FVec Ideal S2816x128 .bf16) (B : FVec Ideal S128x22 .bf16) (e : Fin 2816) (q : Fin 22) :
    matmul dot_S2816x128_S128x22_S2816x22_1_0_0_1_n_n none A B (constant (F := Ideal) S2816x22 .f32 0x00000000#32) (ix2 e q)
      = ∑ k : Fin 128, A (ix2 e k) * B (ix2 k q) :=
  Cert.LibPlainDot.matmul_apply ⟨rfl, rfl, rfl, rfl, rfl, rfl, rfl, rfl⟩ _ _ _ _

theorem bias_apply (b : Vec Ideal S1x128 .f32) (e : Fin 2816) (j : Fin 128) :
    broadcastTo S2816x128 (shapeCast S1x128 b shapeCasts_S1x128_S1x128) broadcasts_S1x128_S2816x128 (ix2 e j)
      = b (ix2 (0 : Fin 1) j) := by
  rw [shapeCast_self]
  exact broadcastTo_1b_ab_apply b _ e j

theorem sumsq_apply (v : FVec Ideal S2816x11 .f32) (e : Fin 2816) :
    multiReduction (F := Ideal) .add [1] S2816 (mulf v v) 0x00000000#32 reduces_S2816x11_S2816 (.inl rfl) rfl (ix1 e)
      = ∑ l : Fin 11, v (ix2 e l) * v (ix2 e l) := by
  refine (Ideal.multiReduction_add_single (mulf v v) 0x00000000#32 reduces_S2816x11_S2816 (.inl rfl) rfl (ix1 e)).trans ?_
  show ∑ l : Fin 11, mulf v v (reduces_S2816x11_S2816.lift (ix1 e) l) = _
  refine Finset.sum_congr rfl fun l _ => ?_
  have hl : reduces_S2816x11_S2816.lift (ix1 e) l = ix2 e l := funext fun a => Fin.ext (by
    match a with
    | ⟨0, _⟩ => rfl
    | ⟨1, _⟩ => rfl)
  rw [hl]
  rfl

theorem mag_col_apply (v : FVec Ideal S2816x11 .f32) (e : Fin 2816) (l : Fin 11) :
    broadcastTo S2816x11 (sqrt (shapeCast S2816x1
        (multiReduction (F := Ideal) .add [1] S2816 (mulf v v) 0x00000000#32 reduces_S2816x11_S2816 (.inl rfl) rfl)
        shapeCasts_S2816_S2816x1)) broadcasts_S2816x1_S2816x11 (ix2 e l)
      = FloatOps.sqrt (F := Ideal) (∑ l' : Fin 11, v (ix2 e l') * v (ix2 e l')) := by
  refine (broadcastTo_apply _ broadcasts_S2816x1_S2816x11 (ix2 e l) (ix2 e (0 : Fin 1)) fun a => ?_).trans ?_
  · match a with
    | ⟨0, _⟩ => rfl
    | ⟨1, _⟩ => rfl
  · show FloatOps.sqrt (F := Ideal) (shapeCast S2816x1 _ shapeCasts_S2816_S2816x1 (ix2 e (0 : Fin 1))) = _
    refine congrArg (FloatOps.sqrt (F := Ideal)) ?_
    refine (shapeCast_apply _ shapeCasts_S2816_S2816x1 (ix2 e (0 : Fin 1)) (ix1 e) ?_).trans (sumsq_apply v e)
    rw [Shape.rowMajor_val_one, Shape.rowMajor_val_two]
    show e.val = e.val * 1 + 0
    omega

theorem slice_lo_apply (X : FVec Ideal S2816x22 .f32) (e : Fin 2816) (l : Fin 11) (q : Fin 22) (hq : q.val = l.val) :
    extractStridedSlice S2816x11 ![0, 0] X slices_S2816x22_o0_0_S2816x11 (ix2 e l) = X (ix2 e q) :=
  slice2_axis1_apply 0 X slices_S2816x22_o0_0_S2816x11 e l q (by omega)

theorem slice_hi_apply (X : FVec Ideal S2816x22 .f32) (e : Fin 2816) (l : Fin 11) (q : Fin 22) (hq : q.val = 11 + l.val) :
    extractStridedSlice S2816x11 ![0, 11] X slices_S2816x22_o0_11_S2816x11 (ix2 e l) = X (ix2 e q) :=
  slice2_axis1_apply 11 X slices_S2816x22_o0_11_S2816x11 e l q hq

theorem concat_lo_apply (x₁ x₂ : FVec Ideal S2816x11 .f32) (e : Fin 2816) (q : Fin 22) (hq : q.val < 11) :
    concatenate S2816x22 1 [⟨S2816x11, x₁⟩, ⟨S2816x11, x₂⟩] concatenates_S2816x11_S2816x11_S2816x22_d1 (ix2 e q)
      = x₁ (ix2 e ⟨q.val, hq⟩) :=
  concatenate_pair_apply_left 1 x₁ x₂ concatenates_S2816x11_S2816x11_S2816x22_d1 (ix2 e q) rfl (ix2 e ⟨q.val, hq⟩) fun b => by
    match b with
    | ⟨0, _⟩ => rfl
    | ⟨1, _⟩ => rfl

theorem concat_hi_apply (x₁ x₂ : FVec Ideal S2816x11 .f32) (e : Fin 2816) (q : Fin 22) (hq : ¬ q.val < 11) :
    concatenate S2816x22 1 [⟨S2816x11, x₁⟩, ⟨S2816x11, x₂⟩] concatenates_S2816x11_S2816x11_S2816x22_d1 (ix2 e q)
      = x₂ (ix2 e ⟨q.val - 11, by have := q.isLt; omega⟩) :=
  concatenate_pair_apply_right 1 x₁ x₂ concatenates_S2816x11_S2816x11_S2816x22_d1 (ix2 e q) rfl rfl
    (ix2 e ⟨q.val - 11, by have := q.isLt; omega⟩)
    (fun b => by
      match b with
      | ⟨0, _⟩ => exact fun _ => rfl
      | ⟨1, _⟩ => exact fun h => absurd rfl h)
    (by show q.val - 11 + 11 = q.val; omega)

def coordTail (ft : FVec Ideal S2816x128 .f32) (x13 : Vec Ideal S128x128 .f32) (x14 : Vec Ideal S1x128 .f32)
    (x15 : Vec Ideal S128x22 .f32) : FVec Ideal S2816x22 .f32 :=
  matmul dot_S2816x128_S128x22_S2816x22_1_0_0_1_n_n none
    (truncf .bf16 (maximumf
        (addf (matmul dot_S2816x128_S128x128_S2816x128_1_0_0_1_n_n none (truncf .bf16 ft bitsLt_bf16_f32)
            (truncf .bf16 x13 bitsLt_bf16_f32) (constant S2816x128 .f32 0x00000000#32))
          (broadcastTo S2816x128 (shapeCast S1x128 x14 shapeCasts_S1x128_S1x128) broadcasts_S1x128_S2816x128))
        (broadcast S2816x128 (Scalar.ofBits .f32 0x00000000#32))) bitsLt_bf16_f32)
    (truncf .bf16 x15 bitsLt_bf16_f32) (constant S2816x22 .f32 0x00000000#32)

theorem pay11_eq_coordTail (v27 v28 : FVec Ideal S2816x128 .bf16) (v29 : FVec Ideal S2816x34 .bf16)
    (v32 v35 : FVec Ideal S128x128 .bf16) (v38 : FVec Ideal S34x128 .bf16) (v44 : Vec Ideal S1x128 .f32)
    (v51 : Vec Ideal S128x128 .f32) (v54 : Vec Ideal S1x128 .f32) (v62 : Vec Ideal S128x128 .f32)
    (v65 : Vec Ideal S1x128 .f32) (v72 : Vec Ideal S128x22 .f32) :
    k0_pay11 v27 v28 v29 v32 v35 v38 v44 v51 v54 v62 v65 v72
      = coordTail (k0_pay10 v27 v28 v29 v32 v35 v38 v44 v51 v54) v62 v65 v72 := rfl

theorem coordTail_apply (ft : FVec Ideal S2816x128 .f32) (x13 : Vec Ideal S128x128 .f32) (x14 : Vec Ideal S1x128 .f32)
    (x15 : Vec Ideal S128x22 .f32) (e : Fin 2816) (q : Fin 22) :
    coordTail ft x13 x14 x15 (ix2 e q)
      = ∑ k : Fin 128, FloatOps.maximumf (F := Ideal)
          ((∑ k' : Fin 128, ft (ix2 e k') * x13 (ix2 k' k)) + x14 (ix2 (0 : Fin 1) k))
          (FloatOps.ofBits (F := Ideal) .f32 0x00000000#32) * x15 (ix2 k q) := by
  unfold coordTail
  rw [matmul_w22_apply]
  refine Finset.sum_congr rfl fun k _ => ?_
  rw [truncf_apply, truncf_apply, maximumf_apply, addf_apply, matmul128_apply, bias_apply]
  rfl

theorem pay1_apply (v9 v11 : FVec Ideal S2816x11 .f32) (v74 : FVec Ideal S2816x22 .f32) (e : Fin 2816) (q : Fin 22) :
    k0_pay1 v9 v11 v74 (ix2 e q)
      = v74 (ix2 e q) * (if q.val < 11 then FloatOps.sqrt (F := Ideal) (∑ l : Fin 11, v9 (ix2 e l) * v9 (ix2 e l))
          else FloatOps.sqrt (F := Ideal) (∑ l : Fin 11, v11 (ix2 e l) * v11 (ix2 e l))) := by
  unfold k0_pay1
  by_cases hq : q.val < 11
  · refine (concat_lo_apply _ _ e q hq).trans ?_
    rw [if_pos hq, mulf_apply, mag_col_apply, slice_lo_apply _ e ⟨q.val, hq⟩ q rfl]
  · refine (concat_hi_apply _ _ e q hq).trans ?_
    rw [if_neg hq, mulf_apply, mag_col_apply,
      slice_hi_apply _ e ⟨q.val - 11, by have := q.isLt; omega⟩ q (by show q.val = 11 + (q.val - 11); omega)]

theorem pay1_eq (hfeat : ∀ (x0 x1 : Vec Ideal S2816x128 .f32) (x2 x3 x4 x5 : Vec Ideal S2816x11 .f32) (x6 : Vec Ideal S2816x1 .f32)
      (x7 x8 : Vec Ideal S128x128 .f32) (x9 : Vec Ideal S34x128 .f32) (x10 : Vec Ideal S1x128 .f32)
      (x11 : Vec Ideal S128x128 .f32) (x12 : Vec Ideal S1x128 .f32),
      k0_pay10 (k0_pay4 x0) (k0_pay5 x1) (k0_pay6 x2 x3 x4 x5 x6) (k0_pay7 x7) (k0_pay8 x8) (k0_pay9 x9) x10 x11 x12
        = Cert.Spec.Edge.feat (n := 2816) x0 x1 x2 x3 x4 x5 x6 x7 x8 x9 x10 x11 x12)
    (x0 x1 : Vec Ideal S2816x128 .f32) (x2 x3 x4 x5 : Vec Ideal S2816x11 .f32) (x6 : Vec Ideal S2816x1 .f32)
    (x7 x8 : Vec Ideal S128x128 .f32) (x9 : Vec Ideal S34x128 .f32) (x10 : Vec Ideal S1x128 .f32)
    (x11 : Vec Ideal S128x128 .f32) (x12 : Vec Ideal S1x128 .f32) (x13 : Vec Ideal S128x128 .f32)
    (x14 : Vec Ideal S1x128 .f32) (x15 : Vec Ideal S128x22 .f32) :
    k0_pay1 (k0_pay2 x4) (k0_pay3 x5)
        (k0_pay11 (k0_pay4 x0) (k0_pay5 x1) (k0_pay6 x2 x3 x4 x5 x6) (k0_pay7 x7) (k0_pay8 x8) (k0_pay9 x9)
          x10 x11 x12 x13 x14 x15)
      = Cert.Spec.Edge.wind (n := 2816) x0 x1 x2 x3 x4 x5 x6 x7 x8 x9 x10 x11 x12 x13 x14 x15 := by
  funext i
  obtain ⟨e, q, rfl⟩ : ∃ (e : Fin 2816) (q : Fin 22), i = ix2 e q := ⟨i 0, i 1, eq_ix2 i⟩
  have h2 : k0_pay2 x4 = x4 := shapeCast_self _ _
  have h3 : k0_pay3 x5 = x5 := shapeCast_self _ _
  rw [pay1_apply, pay11_eq_coordTail, hfeat, coordTail_apply, h2, h3]
  rfl

/-- The wind update of row `e` reads row `e` of each per-edge array and nothing else. -/
theorem wind_rows {n N : Nat} (ρ : Fin n → Fin N)
    (HR HC : FVec Ideal (Cert.Spec.Edge.SE128 N) .f32) (UR VR UC VC : FVec Ideal (Cert.Spec.Edge.SE11 N) .f32)
    (EA : FVec Ideal (Cert.Spec.Edge.SE1 N) .f32)
    (Wa Wb : FVec Ideal Cert.Spec.Edge.SW .f32) (Wc : FVec Ideal Cert.Spec.Edge.SW34 .f32) (b1 : FVec Ideal Cert.Spec.Edge.SB .f32)
    (W2 : FVec Ideal Cert.Spec.Edge.SW .f32) (b2 : FVec Ideal Cert.Spec.Edge.SB .f32)
    (Wc1 : FVec Ideal Cert.Spec.Edge.SW .f32) (bc1 : FVec Ideal Cert.Spec.Edge.SB .f32) (Wcl : FVec Ideal Cert.Spec.Edge.SW22 .f32)
    (e : Fin n) (q : Fin 22) :
    Cert.Spec.Edge.wind (n := n) (fun i => HR (ix2 (ρ (i 0)) (i 1))) (fun i => HC (ix2 (ρ (i 0)) (i 1)))
        (fun i => UR (ix2 (ρ (i 0)) (i 1))) (fun i => VR (ix2 (ρ (i 0)) (i 1))) (fun i => UC (ix2 (ρ (i 0)) (i 1)))
        (fun i => VC (ix2 (ρ (i 0)) (i 1))) (fun i => EA (ix2 (ρ (i 0)) (i 1))) Wa Wb Wc b1 W2 b2 Wc1 bc1 Wcl (ix2 e q)
      = Cert.Spec.Edge.wind (n := N) HR HC UR VR UC VC EA Wa Wb Wc b1 W2 b2 Wc1 bc1 Wcl (ix2 (ρ e) q) := rfl

variable (V : (c : Dev nD) → (b : Ref sig .tc) → Buf (Elt Ideal) ((c : Thread nD τ).loc b))

theorem flushed17_eq (hfeat : ∀ (x0 x1 : Vec Ideal S2816x128 .f32) (x2 x3 x4 x5 : Vec Ideal S2816x11 .f32) (x6 : Vec Ideal S2816x1 .f32)
      (x7 x8 : Vec Ideal S128x128 .f32) (x9 : Vec Ideal S34x128 .f32) (x10 : Vec Ideal S1x128 .f32)
      (x11 : Vec Ideal S128x128 .f32) (x12 : Vec Ideal S1x128 .f32),
      k0_pay10 (k0_pay4 x0) (k0_pay5 x1) (k0_pay6 x2 x3 x4 x5 x6) (k0_pay7 x7) (k0_pay8 x8) (k0_pay9 x9) x10 x11 x12
        = Cert.Spec.Edge.feat (n := 2816) x0 x1 x2 x3 x4 x5 x6 x7 x8 x9 x10 x11 x12) (c : Dev nD) (t : Fin cfg0.N) :
    (dat0 (F := Ideal) V c).flushed 17 t
      = ((cfg0.win 17).blk t).view.read (Elt Ideal) (Cert.Spec.Edge.wind (n := 464640) (V c main_v4) (V c main_v5) (V c main_v6) (V c main_v7) (V c main_v8) (V c main_v9) (V c main_arg3) (V c main_v10) (V c main_v11) (V c main_v12) (V c main_v13) (V c main_arg6) (V c main_v14) (V c main_arg12) (V c main_v15) (V c main_arg14)) := by
  show (cfg0.win 17).cut (grid0.coords t) ((dat0 V c).after 17 t) = _
  rw [after0_17]
  unfold out0_17
  rw [View.canon_unit_zero hz]
  simp only [View.ld_unit_zero (S := S2816x128) hz, View.ld_unit_zero (S := S2816x11) hz, View.ld_unit_zero (S := S2816x1) hz,
    View.ld_unit_zero (S := S128x128) hz, View.ld_unit_zero (S := S34x128) hz, View.ld_unit_zero (S := S1x128) hz,
    View.ld_unit_zero (S := S128x22) hz]
  rw [pay1_eq hfeat]
  rw [iblk_hr V c t, iblk_hc V c t, iblk_ur V c t, iblk_vr V c t, iblk_uc V c t, iblk_vc V c t, iblk_ea V c t,
    iblk_wa V c t, iblk_wb V c t, iblk_wc V c t, iblk_b1 V c t, iblk_w2 V c t, iblk_b2 V c t, iblk_wc1 V c t,
    iblk_bc1 V c t, iblk_wcl V c t]
  refine funext fun (j : S2816x22.Idx) => ?_
  obtain ⟨e, q, rfl⟩ : ∃ (e : Fin 2816) (q : Fin 22), j = ix2 e q := ⟨j 0, j 1, eq_ix2 j⟩
  refine (wind_rows (rowOf t) (V c main_v4) (V c main_v5) (V c main_v6) (V c main_v7) (V c main_v8) (V c main_v9) (V c main_arg3) (V c main_v10) (V c main_v11) (V c main_v12) (V c main_v13) (V c main_arg6) (V c main_v14) (V c main_arg12) (V c main_v15) (V c main_arg14) e q).trans ?_
  rw [View.read_apply]
  refine congrArg (Cert.Spec.Edge.wind (n := 464640) (V c main_v4) (V c main_v5) (V c main_v6) (V c main_v7) (V c main_v8) (V c main_v9) (V c main_arg3) (V c main_v10) (V c main_v11) (V c main_v12) (V c main_v13) (V c main_arg6) (V c main_v14) (V c main_arg12) (V c main_v15) (V c main_arg14)) ?_
  obtain ⟨a0, a1, b0, b1, c0, c1, d0, d1, e0, e1, f0, f1, g0, g1, o0, o1⟩ := edge_idx t
  funext a
  apply Fin.ext
  match a with
  | ⟨0, _⟩ => show 2816 * t.val + e.val = win0_17.index t (0 : Fin 2) * 2816 + 1 * e.val; rw [o0]; omega
  | ⟨1, _⟩ => show q.val = win0_17.index t (1 : Fin 2) * 22 + 1 * q.val; rw [o1]; omega

theorem mem_blk17 (t : Fin cfg0.N) (i : S464640x22.Idx) :
    i ∈ ((cfg0.win 17).blk t).view.set ↔ ∀ a : Fin 2, win0_17.index t a * S2816x22.size a ≤ (i a).val
      ∧ (i a).val < win0_17.index t a * S2816x22.size a + S2816x22.size a := by
  show i ∈ ((View.whole main_v16_1).slice (win0_17.rect t)).set ↔ _
  rw [View.set_slice_whole, Rect.mem_set_unit]
  exact Iff.rfl

/-- The first call leaves, in its second output, the wind update of its input arrays. -/
theorem final17 (hfeat : ∀ (x0 x1 : Vec Ideal S2816x128 .f32) (x2 x3 x4 x5 : Vec Ideal S2816x11 .f32) (x6 : Vec Ideal S2816x1 .f32)
      (x7 x8 : Vec Ideal S128x128 .f32) (x9 : Vec Ideal S34x128 .f32) (x10 : Vec Ideal S1x128 .f32)
      (x11 : Vec Ideal S128x128 .f32) (x12 : Vec Ideal S1x128 .f32),
      k0_pay10 (k0_pay4 x0) (k0_pay5 x1) (k0_pay6 x2 x3 x4 x5 x6) (k0_pay7 x7) (k0_pay8 x8) (k0_pay9 x9) x10 x11 x12
        = Cert.Spec.Edge.feat (n := 2816) x0 x1 x2 x3 x4 x5 x6 x7 x8 x9 x10 x11 x12) (c : Dev nD) :
    (dat0 (F := Ideal) V c).arrAt 17 cfg0.N = Cert.Spec.Edge.wind (n := 464640) (V c main_v4) (V c main_v5) (V c main_v6) (V c main_v7) (V c main_v8) (V c main_v9) (V c main_arg3) (V c main_v10) (V c main_v11) (V c main_v12) (V c main_v13) (V c main_arg6) (V c main_v14) (V c main_arg12) (V c main_v15) (V c main_arg14) :=
  (dat0 (F := Ideal) V c).arrAt_eq_of_cover 17 _ (fun t _ => flushed17_eq V hfeat c t) fun i => by
    have hi0 : (i 0).val < 464640 := (i 0).isLt
    have hi1 : (i 1).val < 22 := (i 1).isLt
    have hN : cfg0.N = 165 := N_0
    obtain ⟨t, ht⟩ : ∃ t : Fin cfg0.N, t.val = (i 0).val / 2816 := ⟨⟨(i 0).val / 2816, by rw [hN]; omega⟩, rfl⟩
    refine ⟨t, flush0_17 t, ?_⟩
    rw [mem_blk17]
    obtain ⟨a0, a1, b0, b1, c0, c1, d0, d1, e0, e1, f0, f1, g0, g1, o0, o1⟩ := edge_idx t
    intro a
    match a with
    | ⟨0, _⟩ => show win0_17.index t (0 : Fin 2) * 2816 ≤ (i 0).val ∧ (i 0).val < win0_17.index t (0 : Fin 2) * 2816 + 2816; rw [o0]; omega
    | ⟨1, _⟩ => show win0_17.index t (1 : Fin 2) * 22 ≤ (i 1).val ∧ (i 1).val < win0_17.index t (1 : Fin 2) * 22 + 22; rw [o1]; omega

end Cert.KernelIdeal.WindValue

end
-- ==== Proof.SpecNode.lean ====
import Idealize.ShloMosaic.PureOps.Ideal
import Idealize.ShloMosaic.Lib.ValueIdx

noncomputable section

namespace Cert.Spec.Node

open Idealize.ShloMosaic Idealize.ShloMosaic.ValueIdx

abbrev SN : Shape := ⟨2, ![29040, 128]⟩
abbrev SW : Shape := ⟨2, ![128, 128]⟩
abbrev SB : Shape := ⟨2, ![1, 128]⟩

abbrev c240 : Elt Ideal .f32 := FloatOps.ofBits (F := Ideal) .f32 0x43700000#32

abbrev c0 : Elt Ideal .f32 := FloatOps.ofBits (F := Ideal) .f32 0x00000000#32

def bandRow (i : Fin 29040) (q : Fin 240) : Fin 29040 :=
  ⟨240 * (i.val / 240) + q.val, by have := i.isLt; have := q.isLt; omega⟩

def lat (agg : FVec Ideal SN .f32) (i : Fin 29040) (k : Fin 128) : Elt Ideal .f32 :=
  FloatOps.divf (F := Ideal) (∑ q : Fin 240, agg (ix2 (bandRow i q) k)) c240

def hid (h agg : FVec Ideal SN .f32) (Wa Wb Wc : FVec Ideal SW .f32) (b1 : FVec Ideal SB .f32)
    (i : Fin 29040) (j : Fin 128) : Elt Ideal .f32 :=
  FloatOps.maximumf (F := Ideal)
    ((((∑ k : Fin 128, h (ix2 i k) * Wa (ix2 k j)) + (∑ k : Fin 128, agg (ix2 i k) * Wb (ix2 k j)))
        + (∑ k : Fin 128, lat agg i k * Wc (ix2 k j))) + b1 (ix2 0 j))
    c0

def out (h agg : FVec Ideal SN .f32) (Wa Wb Wc : FVec Ideal SW .f32) (b1 : FVec Ideal SB .f32)
    (W2 : FVec Ideal SW .f32) (b2 : FVec Ideal SB .f32) : FVec Ideal SN .f32 :=
  fun i => ((∑ k : Fin 128, hid h agg Wa Wb Wc b1 (i 0) k * W2 (ix2 k (i 1))) + b2 (ix2 0 (i 1))) + h i

end Cert.Spec.Node

end
-- ==== Proof.NodeValue.lean ====
import proofs.«418158_j78065325572140_2_alg».proof.Proof.Gen.KernelIdeal.Frame
import proofs.«418158_j78065325572140_2_alg».proof.Proof.LibPlainDot
import proofs.«418158_j78065325572140_2_alg».proof.Proof.SpecNode
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.NodeValue

open Cert.KernelIdeal Cert.KernelIdeal.Gen
open Idealize.ShloMosaic Idealize.ShloMosaic.ValueIdx

def bandOf (r : Fin 2640) : Fin 11 := ⟨r.val / 240, by have := r.isLt; omega⟩

def posOf (r : Fin 2640) : Fin 240 := ⟨r.val % 240, Nat.mod_lt _ (by decide)⟩

def rowOf (b : Fin 11) (p : Fin 240) : Fin 2640 := ⟨240 * b.val + p.val, by have := b.isLt; have := p.isLt; omega⟩

theorem toBands_apply {α : Type} (v : S2640x128.Idx → α) (h : S2640x128.ShapeCasts S11x240x128)
    (b : Fin 11) (p : Fin 240) (k : Fin 128) :
    shapeCast S11x240x128 v h (ix3 b p k) = v (ix2 (rowOf b p) k) :=
  shapeCast_apply v h _ _ (by
    rw [Shape.rowMajor_val_three, Shape.rowMajor_val_two]
    show (240 * b.val + p.val) * 128 + k.val = (b.val * 240 + p.val) * 128 + k.val
    rw [Nat.mul_comm 240 b.val])

theorem ofBands_apply {α : Type} (v : S11x240x128.Idx → α) (h : S11x240x128.ShapeCasts S2640x128)
    (r : Fin 2640) (k : Fin 128) :
    shapeCast S2640x128 v h (ix2 r k) = v (ix3 (bandOf r) (posOf r) k) :=
  shapeCast_apply v h _ _ (by
    rw [Shape.rowMajor_val_three, Shape.rowMajor_val_two]
    show ((r.val / 240) * 240 + r.val % 240) * 128 + k.val = r.val * 128 + k.val
    rw [Nat.div_add_mod' r.val 240])

theorem keepBand_apply {α : Type} (v : S11x128.Idx → α) (h : S11x128.ShapeCasts S11x1x128)
    (b : Fin 11) (u : Fin 1) (k : Fin 128) :
    shapeCast S11x1x128 v h (ix3 b u k) = v (ix2 b k) :=
  shapeCast_apply v h _ _ (by
    have hu : u.val = 0 := by omega
    rw [Shape.rowMajor_val_three, Shape.rowMajor_val_two]
    show b.val * 128 + k.val = (b.val * 1 + u.val) * 128 + k.val
    rw [hu, Nat.mul_one, Nat.add_zero])

theorem spreadBand_apply {α : Type} (v : S11x1x128.Idx → α) (h : S11x1x128.Broadcasts S11x240x128)
    (b : Fin 11) (p : Fin 240) (k : Fin 128) :
    broadcastTo S11x240x128 v h (ix3 b p k) = v (ix3 b (0 : Fin 1) k) := by
  refine broadcastTo_apply v h (ix3 b p k) (ix3 b (0 : Fin 1) k) fun ax => ?_
  match ax with
  | ⟨0, _⟩ => rfl
  | ⟨1, _⟩ => rfl
  | ⟨2, _⟩ => rfl

theorem bandSum_eq (v : FVec Ideal S11x240x128 .f32) (h : S11x240x128.Reduces [1] S11x128)
    (hφ : FKind.Formats .f32) (hacc : (0x00000000#32 : BitVec 32) = 0x00000000#32) :
    multiReduction (F := Ideal) .add [1] S11x128 v 0x00000000#32 h hφ hacc = fun i => ∑ q : Fin 240, v (h.lift i q) :=
  funext fun i => Ideal.multiReduction_add_single v 0x00000000#32 h hφ hacc i

theorem lift_band (h : S11x240x128.Reduces [1] S11x128) (b : Fin 11) (k : Fin 128) (q : Fin 240) :
    h.lift (ix2 b k) q = ix3 b q k := by
  funext c
  match c with
  | ⟨0, _⟩ => rfl
  | ⟨1, _⟩ => rfl
  | ⟨2, _⟩ => rfl

theorem matmul_zero_apply {φ₁ φ₂ : FTy} (lhs : FVec Ideal S2640x128 φ₁) (rhs : FVec Ideal S128x128 φ₂) (r : Fin 2640) (j : Fin 128) :
    matmul dot_S2640x128_S128x128_S2640x128_1_0_0_1_n_n none lhs rhs (constant (F := Ideal) S2640x128 .f32 0x00000000#32) (ix2 r j)
      = ∑ k : Fin 128, lhs (ix2 r k) * rhs (ix2 k j) :=
  Cert.LibPlainDot.matmul_apply ⟨rfl, rfl, rfl, rfl, rfl, rfl, rfl, rfl⟩ _ _ _ _

def blockLat (x1 : Vec Ideal S2640x128 .f32) (r : Fin 2640) (k : Fin 128) : Elt Ideal .f32 :=
  Ideal.div (∑ q : Fin 240, x1 (ix2 (rowOf (bandOf r) q) k)) (Ideal.ofBits .f32 0x43700000#32)

def blockHid (x0 x1 : Vec Ideal S2640x128 .f32) (x2 x3 x4 : Vec Ideal S128x128 .f32) (x5 : Vec Ideal S1x128 .f32)
    (r : Fin 2640) (j : Fin 128) : Elt Ideal .f32 :=
  max ((((∑ k : Fin 128, x0 (ix2 r k) * x2 (ix2 k j)) + (∑ k : Fin 128, x1 (ix2 r k) * x3 (ix2 k j)))
        + (∑ k : Fin 128, blockLat x1 r k * x4 (ix2 k j))) + x5 (ix2 (0 : Fin 1) j))
    (Ideal.ofBits .f32 0x00000000#32)

theorem pay2_apply (x0 x1 : Vec Ideal S2640x128 .f32) (x2 x3 x4 : Vec Ideal S128x128 .f32) (x5 : Vec Ideal S1x128 .f32)
    (x6 : Vec Ideal S128x128 .f32) (r : Fin 2640) (j : Fin 128) :
    k1_pay2 (F := Ideal) x0 x1 x2 x3 x4 x5 x6 (ix2 r j) = ∑ k : Fin 128, blockHid x0 x1 x2 x3 x4 x5 r k * x6 (ix2 k j) := by
  unfold k1_pay2
  dsimp only
  rw [bandSum_eq]
  simp only [matmul_zero_apply, truncf_apply, maximumf_apply, addf_apply, broadcast_apply, broadcastTo_1b_ab_apply,
    shapeCast_self, ofBands_apply, spreadBand_apply, divf_apply, keepBand_apply, lift_band, toBands_apply]
  rfl

theorem pay1_apply (x0 : Vec Ideal S2640x128 .f32) (v37 : FVec Ideal S2640x128 .f32) (x7 : Vec Ideal S1x128 .f32)
    (r : Fin 2640) (j : Fin 128) :
    k1_pay1 (F := Ideal) x0 v37 x7 (ix2 r j) = (v37 (ix2 r j) + x7 (ix2 (0 : Fin 1) j)) + x0 (ix2 r j) := by
  unfold k1_pay1
  simp only [addf_apply, broadcastTo_1b_ab_apply, shapeCast_self]

open Idealize.ShloMosaic.TcCoe Idealize.SL.Sem
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

def arrRow (t : Fin cfg1.N) (r : Fin 2640) : Fin 29040 :=
  ⟨2640 * t.val + r.val, by have ht : t.val < 11 := Nat.lt_of_lt_of_eq t.isLt N_1; have := r.isLt; omega⟩

theorem featBlock_apply (c : Dev nD) (t : Fin cfg1.N) (r : Fin 2640) (k : Fin 128) :
    iblk1 V c 0 t (ix2 r k) = V c main_arg0 (ix2 (arrRow t r) k) := by
  obtain ⟨⟨e0, e1⟩, -⟩ := idx_facts t
  show V c main_arg0 (((cfg1.win 0).blk t).view.emb (ix2 r k)) = _
  refine congrArg (V c main_arg0) (funext fun a => Fin.ext ?_)
  match a with
  | ⟨0, _⟩ => show win1_0.index t (0 : Fin 2) * 2640 + 1 * r.val = 2640 * t.val + r.val; omega
  | ⟨1, _⟩ => show win1_0.index t (1 : Fin 2) * 128 + 1 * k.val = k.val; omega

theorem aggBlock_apply (c : Dev nD) (t : Fin cfg1.N) (r : Fin 2640) (k : Fin 128) :
    iblk1 V c 1 t (ix2 r k) = V c main_v19 (ix2 (arrRow t r) k) := by
  obtain ⟨-, ⟨e0, e1⟩, -⟩ := idx_facts t
  show V c main_v19 (((cfg1.win 1).blk t).view.emb (ix2 r k)) = _
  refine congrArg (V c main_v19) (funext fun a => Fin.ext ?_)
  match a with
  | ⟨0, _⟩ => show win1_1.index t (0 : Fin 2) * 2640 + 1 * r.val = 2640 * t.val + r.val; omega
  | ⟨1, _⟩ => show win1_1.index t (1 : Fin 2) * 128 + 1 * k.val = k.val; omega

theorem WaBlock_apply (c : Dev nD) (t : Fin cfg1.N) (k j : Fin 128) :
    iblk1 V c 2 t (ix2 k j) = V c main_v38 (ix2 k j) := by
  obtain ⟨-, -, ⟨e0, e1⟩, -⟩ := idx_facts t
  show V c main_v38 (((cfg1.win 2).blk t).view.emb (ix2 k j)) = _
  refine congrArg (V c main_v38) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

theorem WbBlock_apply (c : Dev nD) (t : Fin cfg1.N) (k j : Fin 128) :
    iblk1 V c 3 t (ix2 k j) = V c main_v39 (ix2 k j) := by
  obtain ⟨-, -, -, ⟨e0, e1⟩, -⟩ := idx_facts t
  show V c main_v39 (((cfg1.win 3).blk t).view.emb (ix2 k j)) = _
  refine congrArg (V c main_v39) (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

theorem WcBlock_apply (c : Dev nD) (t : Fin cfg1.N) (k j : Fin 128) :
    iblk1 V c 4 t (ix2 k j) = V c main_v40 (ix2 k j) := by
  obtain ⟨-, -, -, -, ⟨e0, e1⟩, -⟩ := idx_facts t
  show V c main_v40 (((cfg1.win 4).blk t).view.emb (ix2 k j)) = _
  refine congrArg (V c main_v40) (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

theorem b1Block_apply (c : Dev nD) (t : Fin cfg1.N) (u : Fin 1) (j : Fin 128) :
    iblk1 V c 5 t (ix2 u j) = V c main_v41 (ix2 u j) := by
  obtain ⟨-, -, -, -, -, ⟨e0, e1⟩, -⟩ := idx_facts t
  show V c main_v41 (((cfg1.win 5).blk t).view.emb (ix2 u j)) = _
  refine congrArg (V c main_v41) (funext fun a => Fin.ext ?_)
  match a with
  | ⟨0, _⟩ => show win1_5.index t (0 : Fin 2) * 1 + 1 * u.val = u.val; omega
  | ⟨1, _⟩ => show win1_5.index t (1 : Fin 2) * 128 + 1 * j.val = j.val; omega

theorem W2Block_apply (c : Dev nD) (t : Fin cfg1.N) (k j : Fin 128) :
    iblk1 V c 6 t (ix2 k j) = V c main_arg10 (ix2 k j) := by
  obtain ⟨-, -, -, -, -, -, ⟨e0, e1⟩, -⟩ := idx_facts t
  show V c main_arg10 (((cfg1.win 6).blk t).view.emb (ix2 k j)) = _
  refine congrArg (V c main_arg10) (funext fun a => Fin.ext ?_)
  match a with
  | ⟨0, _⟩ => show win1_6.index t (0 : Fin 2) * 128 + 1 * k.val = k.val; omega
  | ⟨1, _⟩ => show win1_6.index t (1 : Fin 2) * 128 + 1 * j.val = j.val; omega

theorem b2Block_apply (c : Dev nD) (t : Fin cfg1.N) (u : Fin 1) (j : Fin 128) :
    iblk1 V c 7 t (ix2 u j) = V c main_v42 (ix2 u j) := by
  obtain ⟨-, -, -, -, -, -, -, ⟨e0, e1⟩, -⟩ := idx_facts t
  show V c main_v42 (((cfg1.win 7).blk t).view.emb (ix2 u j)) = _
  refine congrArg (V c main_v42) (funext fun a => Fin.ext ?_)
  match a with
  | ⟨0, _⟩ => show win1_7.index t (0 : Fin 2) * 1 + 1 * u.val = u.val; omega
  | ⟨1, _⟩ => show win1_7.index t (1 : Fin 2) * 128 + 1 * j.val = j.val; omega

theorem arrRow_band (t : Fin cfg1.N) (r : Fin 2640) (q : Fin 240) :
    arrRow t (rowOf (bandOf r) q) = Cert.Spec.Node.bandRow (arrRow t r) q := by
  refine Fin.ext ?_
  show 2640 * t.val + (240 * (r.val / 240) + q.val) = 240 * ((2640 * t.val + r.val) / 240) + q.val
  omega

theorem blockLat_eq (c : Dev nD) (t : Fin cfg1.N) (r : Fin 2640) (k : Fin 128) :
    blockLat (iblk1 V c 1 t) r k = Cert.Spec.Node.lat (V c main_v19) (arrRow t r) k := by
  unfold blockLat Cert.Spec.Node.lat
  simp only [aggBlock_apply, arrRow_band]
  rfl

theorem blockHid_eq (c : Dev nD) (t : Fin cfg1.N) (r : Fin 2640) (j : Fin 128) :
    blockHid (iblk1 V c 0 t) (iblk1 V c 1 t) (iblk1 V c 2 t) (iblk1 V c 3 t) (iblk1 V c 4 t) (iblk1 V c 5 t) r j
      = Cert.Spec.Node.hid (V c main_arg0) (V c main_v19) (V c main_v38) (V c main_v39) (V c main_v40) (V c main_v41)
          (arrRow t r) j := by
  unfold blockHid Cert.Spec.Node.hid
  simp only [featBlock_apply, aggBlock_apply, WaBlock_apply, WbBlock_apply, WcBlock_apply, b1Block_apply, blockLat_eq]
  rfl

theorem out_apply (h agg : FVec Ideal Cert.Spec.Node.SN .f32) (Wa Wb Wc : FVec Ideal Cert.Spec.Node.SW .f32)
    (b1 : FVec Ideal Cert.Spec.Node.SB .f32) (W2 : FVec Ideal Cert.Spec.Node.SW .f32) (b2 : FVec Ideal Cert.Spec.Node.SB .f32)
    (i : Fin 29040) (j : Fin 128) :
    Cert.Spec.Node.out h agg Wa Wb Wc b1 W2 b2 (ix2 i j)
      = ((∑ k : Fin 128, Cert.Spec.Node.hid h agg Wa Wb Wc b1 i k * W2 (ix2 k j)) + b2 (ix2 (0 : Fin 1) j)) + h (ix2 i j) := rfl

theorem flushed_eq (c : Dev nD) (t : Fin cfg1.N) :
    (dat1 (F := Ideal) V c).flushed 8 t = ((cfg1.win 8).blk t).view.read (Elt Ideal)
      (Cert.Spec.Node.out (V c main_arg0) (V c main_v19) (V c main_v38) (V c main_v39) (V c main_v40) (V c main_v41)
        (V c main_arg10) (V c main_v42)) := by
  show (cfg1.win 8).cut (grid1.coords t) ((dat1 V c).after 8 t) = _
  rw [after1_8]
  unfold out1_8
  rw [View.canon_unit_zero zeroOff]
  simp only [View.ld_unit_zero (S := S2640x128) zeroOff, View.ld_unit_zero (S := S128x128) zeroOff,
    View.ld_unit_zero (S := S1x128) zeroOff]
  funext y
  obtain ⟨r, j, rfl⟩ : ∃ (r : Fin 2640) (j : Fin 128), y = ix2 r j := ⟨y 0, y 1, eq_ix2 (n0 := 2640) (n1 := 128) y⟩
  obtain ⟨-, -, -, -, -, -, -, -, e0, e1⟩ := idx_facts t
  have hemb : ((cfg1.win 8).blk t).view.emb (ix2 r j) = ix2 (arrRow t r) j := funext fun a => Fin.ext (by
    match a with
    | ⟨0, _⟩ => show win1_8.index t (0 : Fin 2) * 2640 + 1 * r.val = 2640 * t.val + r.val; omega
    | ⟨1, _⟩ => show win1_8.index t (1 : Fin 2) * 128 + 1 * j.val = j.val; omega)
  show k1_pay1 (F := Ideal) (iblk1 V c 0 t)
        (k1_pay2 (F := Ideal) (iblk1 V c 0 t) (iblk1 V c 1 t) (iblk1 V c 2 t) (iblk1 V c 3 t) (iblk1 V c 4 t) (iblk1 V c 5 t)
          (iblk1 V c 6 t))
        (iblk1 V c 7 t) (ix2 r j)
      = Cert.Spec.Node.out (V c main_arg0) (V c main_v19) (V c main_v38) (V c main_v39) (V c main_v40) (V c main_v41)
          (V c main_arg10) (V c main_v42) (((cfg1.win 8).blk t).view.emb (ix2 r j))
  rw [hemb, pay1_apply, pay2_apply, out_apply]
  simp only [blockHid_eq, W2Block_apply, b2Block_apply, featBlock_apply]

theorem mem_outBlock (t : Fin cfg1.N) (i : S29040x128.Idx) :
    i ∈ ((cfg1.win 8).blk t).view.set ↔ ∀ a : Fin 2, win1_8.index t a * S2640x128.size a ≤ (i a).val
      ∧ (i a).val < win1_8.index t a * S2640x128.size a + S2640x128.size a := by
  show i ∈ ((View.whole main_v43).slice (win1_8.rect t)).set ↔ _
  rw [View.set_slice_whole, Rect.mem_set_unit]
  exact Iff.rfl

theorem covered (i : S29040x128.Idx) :
    ∃ t : Fin cfg1.N, (cfg1.win 8).flush t = true ∧ i ∈ ((cfg1.win 8).blk t).view.set := by
  have hi0 : (i 0).val < 29040 := (i 0).isLt
  have hi1 : (i 1).val < 128 := (i 1).isLt
  have hN : (i 0).val / 2640 < cfg1.N := Nat.lt_of_lt_of_eq (by omega : (i 0).val / 2640 < 11) N_1.symm
  obtain ⟨-, -, -, -, -, -, -, -, e0, e1⟩ := idx_facts ⟨(i 0).val / 2640, hN⟩
  refine ⟨⟨(i 0).val / 2640, hN⟩, flush1_8 _, ?_⟩
  rw [mem_outBlock]
  intro a
  match a with
  | ⟨0, _⟩ =>
    show win1_8.index ⟨(i 0).val / 2640, hN⟩ (0 : Fin 2) * 2640 ≤ (i 0).val
      ∧ (i 0).val < win1_8.index ⟨(i 0).val / 2640, hN⟩ (0 : Fin 2) * 2640 + 2640
    rw [e0]
    show (i 0).val / 2640 * 2640 ≤ (i 0).val ∧ (i 0).val < (i 0).val / 2640 * 2640 + 2640
    omega
  | ⟨1, _⟩ =>
    show win1_8.index ⟨(i 0).val / 2640, hN⟩ (1 : Fin 2) * 128 ≤ (i 1).val
      ∧ (i 1).val < win1_8.index ⟨(i 0).val / 2640, hN⟩ (1 : Fin 2) * 128 + 128
    rw [e1]
    omega

/-- The second call leaves the node update of its input arrays: a block is eleven whole latitude bands, so its band means are the array's. -/
theorem final8 (c : Dev nD) :
    (dat1 (F := Ideal) V c).arrAt 8 cfg1.N
      = Cert.Spec.Node.out (V c main_arg0) (V c main_v19) (V c main_v38) (V c main_v39) (V c main_v40) (V c main_v41)
          (V c main_arg10) (V c main_v42) :=
  (dat1 (F := Ideal) V c).arrAt_eq_of_cover 8 _ (fun t _ => flushed_eq V c t) covered

end Cert.KernelIdeal.NodeValue

end
-- ==== Proof.KChain.lean ====
import proofs.«418158_j78065325572140_2_alg».proof.Proof.KChainPre
import proofs.«418158_j78065325572140_2_alg».proof.Proof.HostMid
import proofs.«418158_j78065325572140_2_alg».proof.Proof.EdgeFeatValue
import proofs.«418158_j78065325572140_2_alg».proof.Proof.WindValue
import proofs.«418158_j78065325572140_2_alg».proof.Proof.NodeValue

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo
open Cert.KernelIdeal.KChainPre

variable (m : (ℓ : Loc nD τ sig) → Buf (Elt Ideal) ℓ) (ρ : Dev nD → PrngReg)

abbrev FEAT (c : Dev nD) : FVec Ideal S464640x128 .f32 :=
  Cert.Spec.Edge.feat (n := 464640)
    (TakeTerm.take128 (m ((c : Thread nD τ).loc main_arg0)) (row m c)) (TakeTerm.take128 (m ((c : Thread nD τ).loc main_arg0)) (col m c))
    (TakeTerm.take11 (m ((c : Thread nD τ).loc main_arg1)) (row m c)) (TakeTerm.take11 (m ((c : Thread nD τ).loc main_arg2)) (row m c))
    (TakeTerm.take11 (m ((c : Thread nD τ).loc main_arg1)) (col m c)) (TakeTerm.take11 (m ((c : Thread nD τ).loc main_arg2)) (col m c))
    (m ((c : Thread nD τ).loc main_arg3)) (HostPre.eBlock0 (m ((c : Thread nD τ).loc main_arg4))) (HostPre.eBlock1 (m ((c : Thread nD τ).loc main_arg4))) (HostPre.eBlock2 (m ((c : Thread nD τ).loc main_arg4)))
    (HostPre.biasRow (m ((c : Thread nD τ).loc main_arg5))) (m ((c : Thread nD τ).loc main_arg6)) (HostPre.biasRow (m ((c : Thread nD τ).loc main_arg7)))

abbrev WIND (c : Dev nD) : FVec Ideal S464640x22 .f32 :=
  Cert.Spec.Edge.wind (n := 464640)
    (TakeTerm.take128 (m ((c : Thread nD τ).loc main_arg0)) (row m c)) (TakeTerm.take128 (m ((c : Thread nD τ).loc main_arg0)) (col m c))
    (TakeTerm.take11 (m ((c : Thread nD τ).loc main_arg1)) (row m c)) (TakeTerm.take11 (m ((c : Thread nD τ).loc main_arg2)) (row m c))
    (TakeTerm.take11 (m ((c : Thread nD τ).loc main_arg1)) (col m c)) (TakeTerm.take11 (m ((c : Thread nD τ).loc main_arg2)) (col m c))
    (m ((c : Thread nD τ).loc main_arg3)) (HostPre.eBlock0 (m ((c : Thread nD τ).loc main_arg4))) (HostPre.eBlock1 (m ((c : Thread nD τ).loc main_arg4))) (HostPre.eBlock2 (m ((c : Thread nD τ).loc main_arg4)))
    (HostPre.biasRow (m ((c : Thread nD τ).loc main_arg5))) (m ((c : Thread nD τ).loc main_arg6)) (HostPre.biasRow (m ((c : Thread nD τ).loc main_arg7)))
    (m ((c : Thread nD τ).loc main_arg12)) (HostPre.biasRow (m ((c : Thread nD τ).loc main_arg13))) (m ((c : Thread nD τ).loc main_arg14))

theorem feat_exit (c : Dev nD) : W9 m ρ c (Proc.devRef .tc main_v16_0) = FEAT m c := by
  refine (W9_arr m ρ c 16).trans ?_
  have e := EdgeFeatValue.final16 (V8 m ρ) c
  rw [show V8 m ρ c main_v4 = _ from hr_entry m ρ c, show V8 m ρ c main_v5 = _ from hc_entry m ρ c,
    show V8 m ρ c main_v6 = _ from ur_entry m ρ c, show V8 m ρ c main_v7 = _ from vr_entry m ρ c,
    show V8 m ρ c main_v8 = _ from uc_entry m ρ c, show V8 m ρ c main_v9 = _ from vc_entry m ρ c,
    show V8 m ρ c main_arg3 = _ from arg3_at8 m ρ c, show V8 m ρ c main_v10 = _ from wa_entry m ρ c,
    show V8 m ρ c main_v11 = _ from wb_entry m ρ c, show V8 m ρ c main_v12 = _ from wc_entry m ρ c,
    show V8 m ρ c main_v13 = _ from b1_entry m ρ c, show V8 m ρ c main_arg6 = _ from arg6_at8 m ρ c,
    show V8 m ρ c main_v14 = _ from b2_entry m ρ c] at e
  exact e

theorem wind_exit (c : Dev nD) : W9 m ρ c (Proc.devRef .tc main_v16_1) = WIND m c := by
  refine (W9_arr m ρ c 17).trans ?_
  have e := WindValue.final17 (V8 m ρ) EdgeFeatValue.pay10_eq c
  rw [show V8 m ρ c main_v4 = _ from hr_entry m ρ c, show V8 m ρ c main_v5 = _ from hc_entry m ρ c,
    show V8 m ρ c main_v6 = _ from ur_entry m ρ c, show V8 m ρ c main_v7 = _ from vr_entry m ρ c,
    show V8 m ρ c main_v8 = _ from uc_entry m ρ c, show V8 m ρ c main_v9 = _ from vc_entry m ρ c,
    show V8 m ρ c main_arg3 = _ from arg3_at8 m ρ c, show V8 m ρ c main_v10 = _ from wa_entry m ρ c,
    show V8 m ρ c main_v11 = _ from wb_entry m ρ c, show V8 m ρ c main_v12 = _ from wc_entry m ρ c,
    show V8 m ρ c main_v13 = _ from b1_entry m ρ c, show V8 m ρ c main_arg6 = _ from arg6_at8 m ρ c,
    show V8 m ρ c main_v14 = _ from b2_entry m ρ c, show V8 m ρ c main_arg12 = _ from arg12_at8 m ρ c,
    show V8 m ρ c main_v15 = _ from bc1_entry m ρ c, show V8 m ρ c main_arg14 = _ from arg14_at8 m ρ c] at e
  exact e

theorem row_exit (c : Dev nD) : W9 m ρ c (Proc.devRef .tc main_v1) = row m c :=
  (W9_of_ne m ρ c main_v1 (by decide)).trans (row_at8 m ρ c)

theorem arg0_at14 (c : Dev nD) : W14 m ρ c (Proc.devRef .tc main_arg0) = m ((c : Thread nD τ).loc main_arg0) := by kept
theorem arg10_at14 (c : Dev nD) : W14 m ρ c (Proc.devRef .tc main_arg10) = m ((c : Thread nD τ).loc main_arg10) := by kept
theorem arg8_at13 (c : Dev nD) : W13 m ρ c (Proc.devRef .tc main_arg8) = m ((c : Thread nD τ).loc main_arg8) := by kept
theorem arg9_at13 (c : Dev nD) : W13 m ρ c (Proc.devRef .tc main_arg9) = m ((c : Thread nD τ).loc main_arg9) := by kept
theorem arg11_at13 (c : Dev nD) : W13 m ρ c (Proc.devRef .tc main_arg11) = m ((c : Thread nD τ).loc main_arg11) := by kept

abbrev AGG (c : Dev nD) : FVec Ideal S29040x128 .f32 := HostMid.aggOf (row m c) (FEAT m c)

theorem agg_entry (c : Dev nD) : W14 m ρ c (Proc.devRef .tc main_v19) = AGG m c := by
  kept
  refine (HostMid.after_v19 (W9 m ρ c)).trans ?_
  rw [row_exit m ρ c, feat_exit m ρ c]

theorem wn1a_entry (c : Dev nD) : W14 m ρ c (Proc.devRef .tc main_v38) = HostMid.wBlock0 (F := Ideal) (m ((c : Thread nD τ).loc main_arg8)) := by
  refine (HostMid.after_v38 (W13 m ρ c)).trans ?_; rw [arg8_at13 m ρ c]
theorem wn1b_entry (c : Dev nD) : W14 m ρ c (Proc.devRef .tc main_v39) = HostMid.wBlock1 (F := Ideal) (m ((c : Thread nD τ).loc main_arg8)) := by
  refine (HostMid.after_v39 (W13 m ρ c)).trans ?_; rw [arg8_at13 m ρ c]
theorem wn1c_entry (c : Dev nD) : W14 m ρ c (Proc.devRef .tc main_v40) = HostMid.wBlock2 (F := Ideal) (m ((c : Thread nD τ).loc main_arg8)) := by
  refine (HostMid.after_v40 (W13 m ρ c)).trans ?_; rw [arg8_at13 m ρ c]
theorem bn1_entry (c : Dev nD) : W14 m ρ c (Proc.devRef .tc main_v41) = HostMid.biasRow (F := Ideal) (m ((c : Thread nD τ).loc main_arg9)) := by
  refine (HostMid.after_v41 (W13 m ρ c)).trans ?_; rw [arg9_at13 m ρ c]
theorem bn2_entry (c : Dev nD) : W14 m ρ c (Proc.devRef .tc main_v42) = HostMid.biasRow (F := Ideal) (m ((c : Thread nD τ).loc main_arg11)) := by
  refine (HostMid.after_v42 (W13 m ρ c)).trans ?_; rw [arg11_at13 m ρ c]

/-- The kernel's node update, from the launch arrays. -/
theorem out_result (c : Dev nD) : W15 m ρ c (Proc.devRef .tc main_v43)
    = Cert.Spec.Node.out (m ((c : Thread nD τ).loc main_arg0)) (AGG m c) (HostMid.wBlock0 (m ((c : Thread nD τ).loc main_arg8))) (HostMid.wBlock1 (m ((c : Thread nD τ).loc main_arg8))) (HostMid.wBlock2 (m ((c : Thread nD τ).loc main_arg8)))
        (HostMid.biasRow (m ((c : Thread nD τ).loc main_arg9))) (m ((c : Thread nD τ).loc main_arg10)) (HostMid.biasRow (m ((c : Thread nD τ).loc main_arg11))) := by
  refine (W15_arr m ρ c 8).trans ?_
  have e := NodeValue.final8 (V14 m ρ) c
  rw [show V14 m ρ c main_arg0 = _ from arg0_at14 m ρ c, show V14 m ρ c main_v19 = _ from agg_entry m ρ c,
    show V14 m ρ c main_v38 = _ from wn1a_entry m ρ c, show V14 m ρ c main_v39 = _ from wn1b_entry m ρ c,
    show V14 m ρ c main_v40 = _ from wn1c_entry m ρ c, show V14 m ρ c main_v41 = _ from bn1_entry m ρ c,
    show V14 m ρ c main_arg10 = _ from arg10_at14 m ρ c, show V14 m ρ c main_v42 = _ from bn2_entry m ρ c] at e
  exact e

/-- The kernel's first mean wind, clipped, from the launch arrays. -/
theorem u_result (c : Dev nD) : W15 m ρ c (Proc.devRef .tc main_v33)
    = HostMid.clip11 (HostMid.meanWindLo (row m c) (WIND m c)) := by
  refine (W15_of_ne m ρ c main_v33 (by decide)).trans ?_
  kept
  refine (HostMid.after_v33_of (W9 m ρ c)).trans ?_
  rw [row_exit m ρ c, wind_exit m ρ c]

/-- The kernel's second mean wind, clipped, from the launch arrays. -/
theorem v_result (c : Dev nD) : W15 m ρ c (Proc.devRef .tc main_v37)
    = HostMid.clip11 (HostMid.meanWindHi (row m c) (WIND m c)) := by
  refine (W15_of_ne m ρ c main_v37 (by decide)).trans ?_
  kept
  refine (HostMid.after_v37_of (W11 m ρ c)).trans ?_
  have h29 : W11 m ρ c (Proc.devRef .tc main_v29) = HostMid.windSum (row m c) (WIND m c) := by
    kept
    refine (HostMid.after_v29 (W9 m ρ c)).trans ?_
    rw [row_exit m ρ c, wind_exit m ρ c]
  have h26 : W11 m ρ c (Proc.devRef .tc main_v26) = HostMid.cntCol (F := Ideal) (row m c) := by
    kept
    refine (HostMid.after_v26 (W9 m ρ c)).trans ?_
    rw [row_exit m ρ c]
  rw [h29, h26, HostMid.meanHiOf_sums]

end Cert.KernelIdeal.KChain

end
-- ==== Proof.AlgKernel.lean ====
import proofs.«418158_j78065325572140_2_alg».proof.Proof.ValueRun
import proofs.«418158_j78065325572140_2_alg».proof.Proof.KChain

set_option maxRecDepth 16384

noncomputable section

namespace Cert.KernelIdeal.AlgKernel

open Cert.KernelIdeal Cert.KernelIdeal.Gen Idealize.ShloMosaic Idealize.ShloMosaic.TcCoe Idealize.SL.Sem Idealize.ShloMosaic.StableHlo
open Cert.KernelIdeal.KChainPre Cert.KernelIdeal.KChain

variable (m : (ℓ : Loc nD τ sig) → Buf (Elt Ideal) ℓ)

abbrev OUTk (c : Dev nD) : Buf (Elt Ideal) ((c.tc : Thread nD τ).loc main_v43) :=
  Cert.Spec.Node.out (m ((c : Thread nD τ).loc main_arg0)) (AGG m c) (HostMid.wBlock0 (m ((c : Thread nD τ).loc main_arg8)))
    (HostMid.wBlock1 (m ((c : Thread nD τ).loc main_arg8))) (HostMid.wBlock2 (m ((c : Thread nD τ).loc main_arg8)))
    (HostMid.biasRow (m ((c : Thread nD τ).loc main_arg9))) (m ((c : Thread nD τ).loc main_arg10))
    (HostMid.biasRow (m ((c : Thread nD τ).loc main_arg11)))

abbrev Uk (c : Dev nD) : Buf (Elt Ideal) ((c.tc : Thread nD τ).loc main_v33) :=
  HostMid.clip11 (HostMid.meanWindLo (row m c) (WIND m c))

abbrev Vk (c : Dev nD) : Buf (Elt Ideal) ((c.tc : Thread nD τ).loc main_v37) :=
  HostMid.clip11 (HostMid.meanWindHi (row m c) (WIND m c))

theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = OUTk m c
      ∧ r.2.mem ((c.tc : Thread nD τ).loc main_v33) = Uk m c
      ∧ r.2.mem ((c.tc : Thread nD τ).loc main_v37) = Vk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono
    (fun r h c => ⟨(h c).1.trans (KChain.out_result m ρ c), (h c).2.1.trans (KChain.u_result m ρ c),
      (h c).2.2.1.trans (KChain.v_result m ρ c), (h c).2.2.2⟩)
    (ValueRun.run_values m ρ)

end Cert.KernelIdeal.AlgKernel

end
-- ==== Proof.LibSumSplit.lean ====
import Mathlib.Algebra.BigOperators.Fin

namespace Cert.Lib.SumSplit

open Finset

/-- A sum over `a + b + c` indices is the sum of the sums over its three consecutive ranges. -/
theorem sum_three {M : Type*} [AddCommMonoid M] (a b c : ℕ) (f : Fin (a + b + c) → M) :
    ∑ k : Fin (a + b + c), f k
      = ∑ k : Fin a, f (Fin.castAdd c (Fin.castAdd b k))
        + ∑ k : Fin b, f (Fin.castAdd c (Fin.natAdd a k))
        + ∑ k : Fin c, f (Fin.natAdd (a + b) k) := by
  rw [Fin.sum_univ_add, Fin.sum_univ_add]

/-- The same when the index type's size is `a + b + c` only by an equation. -/
theorem sum_three_cast {M : Type*} [AddCommMonoid M] {n : ℕ} (a b c : ℕ) (h : a + b + c = n)
    (f : Fin n → M) :
    ∑ k : Fin n, f k
      = ∑ k : Fin a, f (Fin.cast h (Fin.castAdd c (Fin.castAdd b k)))
        + ∑ k : Fin b, f (Fin.cast h (Fin.castAdd c (Fin.natAdd a k)))
        + ∑ k : Fin c, f (Fin.cast h (Fin.natAdd (a + b) k)) := by
  subst h
  simpa using sum_three a b c f

end Cert.Lib.SumSplit
-- ==== Proof.RefEdge.lean ====
import proofs.«418158_j78065325572140_2_alg».proof.Proof.Gen.ReferenceIdeal
import proofs.«418158_j78065325572140_2_alg».proof.Proof.LibPlainDot
import proofs.«418158_j78065325572140_2_alg».proof.Proof.SpecEdge
import proofs.«418158_j78065325572140_2_alg».proof.Proof.LibSumSplit
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.ReferenceIdeal.RefEdge

open Cert.ReferenceIdeal Cert.ReferenceIdeal.Gen
open Idealize.ShloMosaic Idealize.ShloMosaic.ValueIdx Idealize.ShloMosaic.TcCoe Idealize.SL.Sem
open Cert.ReferenceIdeal.Facts

variable {F : FTy → Type} [FloatOps F]

def refColSpeed (uc vc : FVec F S464640x11 .f32) : FVec F S464640x11 .f32 :=
  Host.sqrt (addf (mulf uc uc) (mulf vc vc))

def refRowSpeed (ur vr : FVec F S464640x11 .f32) : FVec F S464640x11 .f32 :=
  Host.sqrt (addf (mulf ur ur) (mulf vr vr))

def refRelDir (ur vr uc vc : FVec F S464640x11 .f32) : FVec F S464640x11 .f32 :=
  Host.divf (addf (mulf uc ur) (mulf vc vr)) (mulf (refColSpeed uc vc) (refRowSpeed ur vr))

def cat33 (a b c : FVec F S464640x11 .f32) : FVec F S464640x33 .f32 :=
  concatenate S464640x33 1 [⟨S464640x11, a⟩, ⟨S464640x11, b⟩, ⟨S464640x11, c⟩]
    concatenates_S464640x11_S464640x11_S464640x11_S464640x33_d1

def refSmall33 (ur vr uc vc : FVec F S464640x11 .f32) : FVec F S464640x33 .f32 :=
  cat33 (refRelDir ur vr uc vc) (refColSpeed uc vc) (refRowSpeed ur vr)

def refCat290 (hr hc : FVec F S464640x128 .f32) (s33 : FVec F S464640x33 .f32) (ea : FVec F S464640x1 .f32) :
    FVec F S464640x290 .f32 :=
  concatenate S464640x290 1 [⟨S464640x128, hr⟩, ⟨S464640x128, hc⟩, ⟨S464640x33, s33⟩, ⟨S464640x1, ea⟩]
    concatenates_S464640x128_S464640x128_S464640x33_S464640x1_S464640x290_d1

def biasRows (b : FVec F S128 .f32) : FVec F S464640x128 .f32 :=
  broadcastInDim S464640x128 ![0, 1] bcast_S1x128_S464640x128_0_1 (broadcastInDim S1x128 ![1] bcast_S128_S1x128_1 b)

def zeros : FVec F S464640x128 .f32 :=
  broadcastInDim S464640x128 ![] bcast_S_S464640x128 (constant S_ .f32 0x00000000#32)

def refLayer1 (x : FVec F S464640x290 .f32) (We1 : FVec F S290x128 .f32) (be1 : FVec F S128 .f32) : FVec F S464640x128 .f32 :=
  maximumf (addf (Host.dotGeneral dot_S464640x290_S290x128_S464640x128_1_0_0_1_n_n none x We1) (biasRows be1)) (zeros (F := F))

def refLayers (x : FVec F S464640x290 .f32) (We1 : FVec F S290x128 .f32) (be1 : FVec F S128 .f32)
    (We2 : FVec F S128x128 .f32) (be2 : FVec F S128 .f32) : FVec F S464640x128 .f32 :=
  maximumf (addf (Host.dotGeneral dot_S464640x128_S128x128_S464640x128_1_0_0_1_n_n none (refLayer1 x We1 be1) We2) (biasRows be2))
    (zeros (F := F))

def refFeat (hr hc : FVec F S464640x128 .f32) (s33 : FVec F S464640x33 .f32) (ea : FVec F S464640x1 .f32)
    (We1 : FVec F S290x128 .f32) (be1 : FVec F S128 .f32) (We2 : FVec F S128x128 .f32) (be2 : FVec F S128 .f32) :
    FVec F S464640x128 .f32 :=
  refLayers (refCat290 hr hc s33 ea) We1 be1 We2 be2

theorem dot290_apply (A : FVec Ideal S464640x290 .f32) (B : FVec Ideal S290x128 .f32) (e : Fin 464640) (j : Fin 128) :
    Host.dotGeneral dot_S464640x290_S290x128_S464640x128_1_0_0_1_n_n none A B (ix2 e j) = ∑ k : Fin 290, A (ix2 e k) * B (ix2 k j) :=
  Cert.LibPlainDot.dotGeneral_apply ⟨rfl, rfl, rfl, rfl, rfl, rfl, rfl, rfl⟩ _ _ _ _

theorem dot128_apply (A : FVec Ideal S464640x128 .f32) (B : FVec Ideal S128x128 .f32) (e : Fin 464640) (j : Fin 128) :
    Host.dotGeneral dot_S464640x128_S128x128_S464640x128_1_0_0_1_n_n none A B (ix2 e j) = ∑ k : Fin 128, A (ix2 e k) * B (ix2 k j) :=
  Cert.LibPlainDot.dotGeneral_apply ⟨rfl, rfl, rfl, rfl, rfl, rfl, rfl, rfl⟩ _ _ _ _

theorem biasRows_apply {α : Type} (b : S128.Idx → α) (e : Fin 464640) (j : Fin 128) :
    broadcastInDim S464640x128 ![0, 1] bcast_S1x128_S464640x128_0_1 (broadcastInDim S1x128 ![1] bcast_S128_S1x128_1 b) (ix2 e j)
      = b (ix1 j) := by
  rw [broadcastInDim_apply _ bcast_S1x128_S464640x128_0_1 _ (ix2 e j) (ix2 (0 : Fin 1) j) (fun a => match a with
    | ⟨0, _⟩ => by show 0 = if (1 : Nat) = 1 then 0 else e.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

theorem zeros_apply (i : S464640x128.Idx) : zeros (F := Ideal) i = FloatOps.ofBits (F := Ideal) .f32 0x00000000#32 := by
  unfold zeros
  exact broadcastInDim_apply _ bcast_S_S464640x128 _ i (fun a => a.elim0) (fun a => a.elim0)

theorem cat33_fst {α : Type} (a b c : S464640x11.Idx → α)
    (h : Shape.Concatenates [S464640x11, S464640x11, S464640x11] S464640x33 1) (e : Fin 464640) (q : Fin 33) (i : Fin 11)
    (hq : q.val = i.val) :
    concatenate S464640x33 1 [⟨S464640x11, a⟩, ⟨S464640x11, b⟩, ⟨S464640x11, c⟩] h (ix2 e q) = a (ix2 e i) := by
  refine concatenate_apply_piece (t := S464640x33) 1 [⟨S464640x11, a⟩, ⟨S464640x11, b⟩, ⟨S464640x11, c⟩] h (ix2 e q) 0
    (by show 0 < 3; omega) S464640x11 a rfl rfl 0 rfl (ix2 e i) ?_ ?_
  · intro bx hb
    match bx with
    | ⟨0, _⟩ => rfl
    | ⟨1, _⟩ => exact absurd rfl hb
  · show 0 + i.val = q.val
    omega
theorem cat33_snd {α : Type} (a b c : S464640x11.Idx → α)
    (h : Shape.Concatenates [S464640x11, S464640x11, S464640x11] S464640x33 1) (e : Fin 464640) (q : Fin 33) (i : Fin 11)
    (hq : q.val = 11 + i.val) :
    concatenate S464640x33 1 [⟨S464640x11, a⟩, ⟨S464640x11, b⟩, ⟨S464640x11, c⟩] h (ix2 e q) = b (ix2 e i) := by
  refine concatenate_apply_piece (t := S464640x33) 1 [⟨S464640x11, a⟩, ⟨S464640x11, b⟩, ⟨S464640x11, c⟩] h (ix2 e q) 1
    (by show 1 < 3; omega) S464640x11 b rfl rfl 11 rfl (ix2 e i) ?_ ?_
  · intro bx hb
    match bx with
    | ⟨0, _⟩ => rfl
    | ⟨1, _⟩ => exact absurd rfl hb
  · show 11 + i.val = q.val
    omega
theorem cat33_trd {α : Type} (a b c : S464640x11.Idx → α)
    (h : Shape.Concatenates [S464640x11, S464640x11, S464640x11] S464640x33 1) (e : Fin 464640) (q : Fin 33) (i : Fin 11)
    (hq : q.val = 22 + i.val) :
    concatenate S464640x33 1 [⟨S464640x11, a⟩, ⟨S464640x11, b⟩, ⟨S464640x11, c⟩] h (ix2 e q) = c (ix2 e i) := by
  refine concatenate_apply_piece (t := S464640x33) 1 [⟨S464640x11, a⟩, ⟨S464640x11, b⟩, ⟨S464640x11, c⟩] h (ix2 e q) 2
    (by show 2 < 3; omega) S464640x11 c rfl rfl 22 rfl (ix2 e i) ?_ ?_
  · intro bx hb
    match bx with
    | ⟨0, _⟩ => rfl
    | ⟨1, _⟩ => exact absurd rfl hb
  · show 22 + i.val = q.val
    omega

theorem cat290_hr {α : Type} (hr hc : S464640x128.Idx → α) (s33 : S464640x33.Idx → α) (ea : S464640x1.Idx → α)
    (h : Shape.Concatenates [S464640x128, S464640x128, S464640x33, S464640x1] S464640x290 1) (e : Fin 464640) (q : Fin 290)
    (i : Fin 128) (hq : q.val = i.val) :
    concatenate S464640x290 1 [⟨S464640x128, hr⟩, ⟨S464640x128, hc⟩, ⟨S464640x33, s33⟩, ⟨S464640x1, ea⟩] h (ix2 e q) = hr (ix2 e i) := by
  refine concatenate_apply_piece (t := S464640x290) 1 [⟨S464640x128, hr⟩, ⟨S464640x128, hc⟩, ⟨S464640x33, s33⟩, ⟨S464640x1, ea⟩] h
    (ix2 e q) 0 (by show 0 < 4; omega) S464640x128 hr rfl rfl 0 rfl (ix2 e i) ?_ ?_
  · intro bx hb
    match bx with
    | ⟨0, _⟩ => rfl
    | ⟨1, _⟩ => exact absurd rfl hb
  · show 0 + i.val = q.val
    omega
theorem cat290_hc {α : Type} (hr hc : S464640x128.Idx → α) (s33 : S464640x33.Idx → α) (ea : S464640x1.Idx → α)
    (h : Shape.Concatenates [S464640x128, S464640x128, S464640x33, S464640x1] S464640x290 1) (e : Fin 464640) (q : Fin 290)
    (i : Fin 128) (hq : q.val = 128 + i.val) :
    concatenate S464640x290 1 [⟨S464640x128, hr⟩, ⟨S464640x128, hc⟩, ⟨S464640x33, s33⟩, ⟨S464640x1, ea⟩] h (ix2 e q) = hc (ix2 e i) := by
  refine concatenate_apply_piece (t := S464640x290) 1 [⟨S464640x128, hr⟩, ⟨S464640x128, hc⟩, ⟨S464640x33, s33⟩, ⟨S464640x1, ea⟩] h
    (ix2 e q) 1 (by show 1 < 4; omega) S464640x128 hc rfl rfl 128 rfl (ix2 e i) ?_ ?_
  · intro bx hb
    match bx with
    | ⟨0, _⟩ => rfl
    | ⟨1, _⟩ => exact absurd rfl hb
  · show 128 + i.val = q.val
    omega
theorem cat290_s33 {α : Type} (hr hc : S464640x128.Idx → α) (s33 : S464640x33.Idx → α) (ea : S464640x1.Idx → α)
    (h : Shape.Concatenates [S464640x128, S464640x128, S464640x33, S464640x1] S464640x290 1) (e : Fin 464640) (q : Fin 290)
    (i : Fin 33) (hq : q.val = 256 + i.val) :
    concatenate S464640x290 1 [⟨S464640x128, hr⟩, ⟨S464640x128, hc⟩, ⟨S464640x33, s33⟩, ⟨S464640x1, ea⟩] h (ix2 e q) = s33 (ix2 e i) := by
  refine concatenate_apply_piece (t := S464640x290) 1 [⟨S464640x128, hr⟩, ⟨S464640x128, hc⟩, ⟨S464640x33, s33⟩, ⟨S464640x1, ea⟩] h
    (ix2 e q) 2 (by show 2 < 4; omega) S464640x33 s33 rfl rfl 256 rfl (ix2 e i) ?_ ?_
  · intro bx hb
    match bx with
    | ⟨0, _⟩ => rfl
    | ⟨1, _⟩ => exact absurd rfl hb
  · show 256 + i.val = q.val
    omega
theorem cat290_ea {α : Type} (hr hc : S464640x128.Idx → α) (s33 : S464640x33.Idx → α) (ea : S464640x1.Idx → α)
    (h : Shape.Concatenates [S464640x128, S464640x128, S464640x33, S464640x1] S464640x290 1) (e : Fin 464640) (q : Fin 290)
    (i : Fin 1) (hq : q.val = 289 + i.val) :
    concatenate S464640x290 1 [⟨S464640x128, hr⟩, ⟨S464640x128, hc⟩, ⟨S464640x33, s33⟩, ⟨S464640x1, ea⟩] h (ix2 e q) = ea (ix2 e i) := by
  refine concatenate_apply_piece (t := S464640x290) 1 [⟨S464640x128, hr⟩, ⟨S464640x128, hc⟩, ⟨S464640x33, s33⟩, ⟨S464640x1, ea⟩] h
    (ix2 e q) 3 (by show 3 < 4; omega) S464640x1 ea rfl rfl 289 rfl (ix2 e i) ?_ ?_
  · intro bx hb
    match bx with
    | ⟨0, _⟩ => rfl
    | ⟨1, _⟩ => exact absurd rfl hb
  · show 289 + i.val = q.val
    omega

section Spec
open Cert.Spec.Edge

variable (hr hc : FVec Ideal S464640x128 .f32) (ur vr uc vc : FVec Ideal S464640x11 .f32) (ea : FVec Ideal S464640x1 .f32)
variable (We1 : FVec Ideal S290x128 .f32) (be1 be2 : FVec Ideal S128 .f32) (We2 : FVec Ideal S128x128 .f32)
variable (Wa Wb : FVec Ideal ⟨2, ![128, 128]⟩ .f32) (Wc : FVec Ideal ⟨2, ![34, 128]⟩ .f32) (b1 b2 : FVec Ideal ⟨2, ![1, 128]⟩ .f32)

theorem small34 (e : Fin 464640) (i : Fin 34) :
    (if h : i.val < 33 then refSmall33 ur vr uc vc (ix2 e ⟨i.val, h⟩) else ea (ix2 e 0))
      = small (n := 464640) ur vr uc vc ea e i := by
  unfold small refSmall33 cat33
  by_cases h0 : i.val < 11
  · rw [dif_pos (show i.val < 33 by omega), dif_pos h0,
      cat33_fst _ _ _ _ e ⟨i.val, by omega⟩ ⟨i.val, h0⟩ rfl]
    rfl
  · by_cases h1 : i.val < 22
    · rw [dif_pos (show i.val < 33 by omega), dif_neg h0, dif_pos h1,
        cat33_snd _ _ _ _ e ⟨i.val, by omega⟩ ⟨i.val - 11, by omega⟩ (show i.val = 11 + (i.val - 11) by omega)]
      rfl
    · by_cases h2 : i.val < 33
      · rw [dif_pos h2, dif_neg h0, dif_neg h1, dif_pos h2,
          cat33_trd _ _ _ _ e ⟨i.val, h2⟩ ⟨i.val - 22, by omega⟩ (show i.val = 22 + (i.val - 22) by omega)]
        rfl
      · rw [dif_neg h2, dif_neg h0, dif_neg h1, dif_neg h2]

theorem contraction290
    (hWa : ∀ (k : Fin 128) (j : Fin 128), Wa (ix2 k j) = We1 (ix2 (⟨k.val, by omega⟩ : Fin 290) j))
    (hWb : ∀ (k : Fin 128) (j : Fin 128), Wb (ix2 k j) = We1 (ix2 (⟨128 + k.val, by omega⟩ : Fin 290) j))
    (hWc : ∀ (k : Fin 34) (j : Fin 128), Wc (ix2 k j) = We1 (ix2 (⟨256 + k.val, by omega⟩ : Fin 290) j))
    (e : Fin 464640) (k : Fin 128) :
    ∑ q : Fin 290, refCat290 hr hc (refSmall33 ur vr uc vc) ea (ix2 e q) * We1 (ix2 q k)
      = ((∑ i : Fin 128, hr (ix2 e i) * Wa (ix2 i k)) + (∑ i : Fin 128, hc (ix2 e i) * Wb (ix2 i k)))
        + ∑ i : Fin 34, small (n := 464640) ur vr uc vc ea e i * Wc (ix2 i k) := by
  rw [Cert.Lib.SumSplit.sum_three_cast 128 128 34 (show 128 + 128 + 34 = 290 by norm_num)]
  unfold refCat290
  congr 1
  · congr 1
    · refine Finset.sum_congr rfl fun i _ => ?_
      rw [hWa i k, cat290_hr _ _ _ _ _ e _ i rfl]
      rfl
    · refine Finset.sum_congr rfl fun i _ => ?_
      rw [hWb i k, cat290_hc _ _ _ _ _ e _ i rfl]
      rfl
  · refine Finset.sum_congr rfl fun i _ => ?_
    rw [hWc i k, ← small34 ur vr uc vc ea e i]
    by_cases h : i.val < 33
    · rw [dif_pos h, cat290_s33 _ _ _ _ _ e _ ⟨i.val, h⟩ (show 128 + 128 + i.val = 256 + i.val by omega)]
      rfl
    · have h33 : i.val = 33 := by have := i.isLt; omega
      rw [dif_neg h, cat290_ea _ _ _ _ _ e _ (0 : Fin 1) (show 128 + 128 + i.val = 289 + 0 by omega)]
      rfl

theorem layer1_eq
    (hWa : ∀ (k : Fin 128) (j : Fin 128), Wa (ix2 k j) = We1 (ix2 (⟨k.val, by omega⟩ : Fin 290) j))
    (hWb : ∀ (k : Fin 128) (j : Fin 128), Wb (ix2 k j) = We1 (ix2 (⟨128 + k.val, by omega⟩ : Fin 290) j))
    (hWc : ∀ (k : Fin 34) (j : Fin 128), Wc (ix2 k j) = We1 (ix2 (⟨256 + k.val, by omega⟩ : Fin 290) j))
    (hb1 : ∀ j : Fin 128, b1 (ix2 0 j) = be1 (ix1 j)) (e : Fin 464640) (k : Fin 128) :
    refLayer1 (refCat290 hr hc (refSmall33 ur vr uc vc) ea) We1 be1 (ix2 e k)
      = h1 (n := 464640) hr hc ur vr uc vc ea Wa Wb Wc b1 e k := by
  unfold refLayer1 biasRows
  rw [maximumf_apply, addf_apply, dot290_apply, biasRows_apply, zeros_apply,
    contraction290 hr hc ur vr uc vc ea We1 Wa Wb Wc hWa hWb hWc e k, ← hb1 k]
  rfl

theorem refFeat_eq_spec
    (hWa : ∀ (k : Fin 128) (j : Fin 128), Wa (ix2 k j) = We1 (ix2 (⟨k.val, by omega⟩ : Fin 290) j))
    (hWb : ∀ (k : Fin 128) (j : Fin 128), Wb (ix2 k j) = We1 (ix2 (⟨128 + k.val, by omega⟩ : Fin 290) j))
    (hWc : ∀ (k : Fin 34) (j : Fin 128), Wc (ix2 k j) = We1 (ix2 (⟨256 + k.val, by omega⟩ : Fin 290) j))
    (hb1 : ∀ j : Fin 128, b1 (ix2 0 j) = be1 (ix1 j)) (hb2 : ∀ j : Fin 128, b2 (ix2 0 j) = be2 (ix1 j)) :
    refFeat hr hc (refSmall33 ur vr uc vc) ea We1 be1 We2 be2
      = feat (n := 464640) hr hc ur vr uc vc ea Wa Wb Wc b1 We2 b2 := by
  funext i
  obtain ⟨e, j, rfl⟩ : ∃ (e : Fin 464640) (j : Fin 128), i = ix2 e j := ⟨i 0, i 1, eq_ix2 i⟩
  unfold refFeat refLayers biasRows
  rw [maximumf_apply, addf_apply, dot128_apply, biasRows_apply, zeros_apply, ← hb2 j]
  simp only [layer1_eq hr hc ur vr uc vc ea We1 be1 Wa Wb Wc b1 hWa hWb hWc hb1 e]
  rfl

end Spec

end Cert.ReferenceIdeal.RefEdge

end
-- ==== Proof.RefRun.lean ====
import proofs.«418158_j78065325572140_2_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev chunk0 : List (HloOp τ sig (Elt F)) :=
  [ unary main_arg15 main_v0 ((extractStridedSlice S1x464640 ![0, 0] · slices_S2x464640_S1x464640_0_0) : (⟨S2x464640, .i32⟩ : BufTy).Contents (Elt F) → (⟨S1x464640, .i32⟩ : BufTy).Contents (Elt F)),
    reshape main_v0 main_v1 rfl shapeCasts_S1x464640_S464640,
    unary main_arg15 main_v2 ((extractStridedSlice S1x464640 ![1, 0] · slices_S2x464640_S1x464640_1_0) : (⟨S2x464640, .i32⟩ : BufTy).Contents (Elt F) → (⟨S1x464640, .i32⟩ : BufTy).Contents (Elt F)),
    reshape main_v2 main_v3 rfl shapeCasts_S1x464640_S464640 ]

abbrev chunk1 : List (HloOp τ sig (Elt F)) :=
  [ nullary main_c (constantI S_ 32 0#32),
    unary main_c main_v4 (broadcastInDim S464640 ![] bcast_S_S464640 : (⟨S_, .i32⟩ : BufTy).Contents (Elt F) → (⟨S464640, .i32⟩ : BufTy).Contents (Elt F)),
    binary main_v3 main_v4 main_v5 (cmpi .slt : (⟨S464640, .i32⟩ : BufTy).Contents (Elt F) → (⟨S464640, .i32⟩ : BufTy).Contents (Elt F) → (⟨S464640, .i1⟩ : BufTy).Contents (Elt F)),
    nullary main_c_0 (constantI S_ 32 29040#32),
    unary main_c_0 main_v6 (broadcastInDim S464640 ![] bcast_S_S464640 : (⟨S_, .i32⟩ : BufTy).Contents (Elt F) → (⟨S464640, .i32⟩ : BufTy).Contents (Elt F)),
    binary main_v3 main_v6 main_v7 (addi : (⟨S464640, .i32⟩ : BufTy).Contents (Elt F) → (⟨S464640, .i32⟩ : BufTy).Contents (Elt F) → (⟨S464640, .i32⟩ : BufTy).Contents (Elt F)),
    ternary main_v5 main_v7 main_v3 main_v8 (select : (⟨S464640, .i1⟩ : BufTy).Contents (Elt F) → (⟨S464640, .i32⟩ : BufTy).Contents (Elt F) → (⟨S464640, .i32⟩ : BufTy).Contents (Elt F) → (⟨S464640, .i32⟩ : BufTy).Contents (Elt F)),
    unary main_v8 main_v9 (broadcastInDim S464640x1 ![0] bcast_S464640_S464640x1_0 : (⟨S464640, .i32⟩ : BufTy).Contents (Elt F) → (⟨S464640x1, .i32⟩ : BufTy).Contents (Elt F)),
    binary main_arg1 main_v9 main_v10 ((fun x i => Host.gather gather_S29040x11_S464640x1_S464640x11_1_0_n_n_0_1_111 x i) : (⟨S29040x11, .f32⟩ : BufTy).Contents (Elt F) → (⟨S464640x1, .i32⟩ : BufTy).Contents (Elt F) → (⟨S464640x11, .f32⟩ : BufTy).Contents (Elt F)) ]

abbrev chunk2 : List (HloOp τ sig (Elt F)) :=
  [ nullary main_c_1 (constantI S_ 32 0#32),
    unary main_c_1 main_v11 (broadcastInDim S464640 ![] bcast_S_S464640 : (⟨S_, .i32⟩ : BufTy).Contents (Elt F) → (⟨S464640, .i32⟩ : BufTy).Contents (Elt F)),
    binary main_v3 main_v11 main_v12 (cmpi .slt : (⟨S464640, .i32⟩ : BufTy).Contents (Elt F) → (⟨S464640, .i32⟩ : BufTy).Contents (Elt F) → (⟨S464640, .i1⟩ : BufTy).Contents (Elt F)),
    nullary main_c_2 (constantI S_ 32 29040#32),
    unary main_c_2 main_v13 (broadcastInDim S464640 ![] bcast_S_S464640 : (⟨S_, .i32⟩ : BufTy).Contents (Elt F) → (⟨S464640, .i32⟩ : BufTy).Contents (Elt F)),
    binary main_v3 main_v13 main_v14 (addi : (⟨S464640, .i32⟩ : BufTy).Contents (Elt F) → (⟨S464640, .i32⟩ : BufTy).Contents (Elt F) → (⟨S464640, .i32⟩ : BufTy).Contents (Elt F)),
    ternary main_v12 main_v14 main_v3 main_v15 (select : (⟨S464640, .i1⟩ : BufTy).Contents (Elt F) → (⟨S464640, .i32⟩ : BufTy).Contents (Elt F) → (⟨S464640, .i32⟩ : BufTy).Contents (Elt F) → (⟨S464640, .i32⟩ : BufTy).Contents (Elt F)),
    unary main_v15 main_v16 (broadcastInDim S464640x1 ![0] bcast_S464640_S464640x1_0 : (⟨S464640, .i32⟩ : BufTy).Contents (Elt F) → (⟨S464640x1, .i32⟩ : BufTy).Contents (Elt F)),
    binary main_arg2 main_v16 main_v17 ((fun x i => Host.gather gather_S29040x11_S464640x1_S464640x11_1_0_n_n_0_1_111 x i) : (⟨S29040x11, .f32⟩ : BufTy).Contents (Elt F) → (⟨S464640x1, .i32⟩ : BufTy).Contents (Elt F) → (⟨S464640x11, .f32⟩ : BufTy).Contents (Elt F)) ]

abbrev chunk3 : List (HloOp τ sig (Elt F)) :=
  [ nullary main_c_3 (constantI S_ 32 0#32),
    unary main_c_3 main_v18 (broadcastInDim S464640 ![] bcast_S_S464640 : (⟨S_, .i32⟩ : BufTy).Contents (Elt F) → (⟨S464640, .i32⟩ : BufTy).Contents (Elt F)),
    binary main_v1 main_v18 main_v19 (cmpi .slt : (⟨S464640, .i32⟩ : BufTy).Contents (Elt F) → (⟨S464640, .i32⟩ : BufTy).Contents (Elt F) → (⟨S464640, .i1⟩ : BufTy).Contents (Elt F)),
    nullary main_c_4 (constantI S_ 32 29040#32),
    unary main_c_4 main_v20 (broadcastInDim S464640 ![] bcast_S_S464640 : (⟨S_, .i32⟩ : BufTy).Contents (Elt F) → (⟨S464640, .i32⟩ : BufTy).Contents (Elt F)),
    binary main_v1 main_v20 main_v21 (addi : (⟨S464640, .i32⟩ : BufTy).Contents (Elt F) → (⟨S464640, .i32⟩ : BufTy).Contents (Elt F) → (⟨S464640, .i32⟩ : BufTy).Contents (Elt F)),
    ternary main_v19 main_v21 main_v1 main_v22 (select : (⟨S464640, .i1⟩ : BufTy).Contents (Elt F) → (⟨S464640, .i32⟩ : BufTy).Contents (Elt F) → (⟨S464640, .i32⟩ : BufTy).Contents (Elt F) → (⟨S464640, .i32⟩ : BufTy).Contents (Elt F)),
    unary main_v22 main_v23 (broadcastInDim S464640x1 ![0] bcast_S464640_S464640x1_0 : (⟨S464640, .i32⟩ : BufTy).Contents (Elt F) → (⟨S464640x1, .i32⟩ : BufTy).Contents (Elt F)),
    binary main_arg1 main_v23 main_v24 ((fun x i => Host.gather gather_S29040x11_S464640x1_S464640x11_1_0_n_n_0_1_111 x i) : (⟨S29040x11, .f32⟩ : BufTy).Contents (Elt F) → (⟨S464640x1, .i32⟩ : BufTy).Contents (Elt F) → (⟨S464640x11, .f32⟩ : BufTy).Contents (Elt F)) ]

abbrev chunk4 : List (HloOp τ sig (Elt F)) :=
  [ nullary main_c_5 (constantI S_ 32 0#32),
    unary main_c_5 main_v25 (broadcastInDim S464640 ![] bcast_S_S464640 : (⟨S_, .i32⟩ : BufTy).Contents (Elt F) → (⟨S464640, .i32⟩ : BufTy).Contents (Elt F)),
    binary main_v1 main_v25 main_v26 (cmpi .slt : (⟨S464640, .i32⟩ : BufTy).Contents (Elt F) → (⟨S464640, .i32⟩ : BufTy).Contents (Elt F) → (⟨S464640, .i1⟩ : BufTy).Contents (Elt F)),
    nullary main_c_6 (constantI S_ 32 29040#32),
    unary main_c_6 main_v27 (broadcastInDim S464640 ![] bcast_S_S464640 : (⟨S_, .i32⟩ : BufTy).Contents (Elt F) → (⟨S464640, .i32⟩ : BufTy).Contents (Elt F)),
    binary main_v1 main_v27 main_v28 (addi : (⟨S464640, .i32⟩ : BufTy).Contents (Elt F) → (⟨S464640, .i32⟩ : BufTy).Contents (Elt F) → (⟨S464640, .i32⟩ : BufTy).Contents (Elt F)),
    ternary main_v26 main_v28 main_v1 main_v29 (select : (⟨S464640, .i1⟩ : BufTy).Contents (Elt F) → (⟨S464640, .i32⟩ : BufTy).Contents (Elt F) → (⟨S464640, .i32⟩ : BufTy).Contents (Elt F) → (⟨S464640, .i32⟩ : BufTy).Contents (Elt F)),
    unary main_v29 main_v30 (broadcastInDim S464640x1 ![0] bcast_S464640_S464640x1_0 : (⟨S464640, .i32⟩ : BufTy).Contents (Elt F) → (⟨S464640x1, .i32⟩ : BufTy).Contents (Elt F)),
    binary main_arg2 main_v30 main_v31 ((fun x i => Host.gather gather_S29040x11_S464640x1_S464640x11_1_0_n_n_0_1_111 x i) : (⟨S29040x11, .f32⟩ : BufTy).Contents (Elt F) → (⟨S464640x1, .i32⟩ : BufTy).Contents (Elt F) → (⟨S464640x11, .f32⟩ : BufTy).Contents (Elt F)) ]

abbrev chunk5 : List (HloOp τ sig (Elt F)) :=
  [ binary main_v10 main_v10 main_v32 (mulf : (⟨S464640x11, .f32⟩ : BufTy).Contents (Elt F) → (⟨S464640x11, .f32⟩ : BufTy).Contents (Elt F) → (⟨S464640x11, .f32⟩ : BufTy).Contents (Elt F)),
    binary main_v17 main_v17 main_v33 (mulf : (⟨S464640x11, .f32⟩ : BufTy).Contents (Elt F) → (⟨S464640x11, .f32⟩ : BufTy).Contents (Elt F) → (⟨S464640x11, .f32⟩ : BufTy).Contents (Elt F)),
    binary main_v32 main_v33 main_v34 (addf : (⟨S464640x11, .f32⟩ : BufTy).Contents (Elt F) → (⟨S464640x11, .f32⟩ : BufTy).Contents (Elt F) → (⟨S464640x11, .f32⟩ : BufTy).Contents (Elt F)),
    unary main_v34 main_v35 (Host.sqrt : (⟨S464640x11, .f32⟩ : BufTy).Contents (Elt F) → (⟨S464640x11, .f32⟩ : BufTy).Contents (Elt F)),
    binary main_v24 main_v24 main_v36 (mulf : (⟨S464640x11, .f32⟩ : BufTy).Contents (Elt F) → (⟨S464640x11, .f32⟩ : BufTy).Contents (Elt F) → (⟨S464640x11, .f32⟩ : BufTy).Contents (Elt F)),
    binary main_v31 main_v31 main_v37 (mulf : (⟨S464640x11, .f32⟩ : BufTy).Contents (Elt F) → (⟨S464640x11, .f32⟩ : BufTy).Contents (Elt F) → (⟨S464640x11, .f32⟩ : BufTy).Contents (Elt F)),
    binary main_v36 main_v37 main_v38 (addf : (⟨S464640x11, .f32⟩ : BufTy).Contents (Elt F) → (⟨S464640x11, .f32⟩ : BufTy).Contents (Elt F) → (⟨S464640x11, .f32⟩ : BufTy).Contents (Elt F)),
    unary main_v38 main_v39 (Host.sqrt : (⟨S464640x11, .f32⟩ : BufTy).Contents (Elt F) → (⟨S464640x11, .f32⟩ : BufTy).Contents (Elt F)),
    binary main_v10 main_v24 main_v40 (mulf : (⟨S464640x11, .f32⟩ : BufTy).Contents (Elt F) → (⟨S464640x11, .f32⟩ : BufTy).Contents (Elt F) → (⟨S464640x11, .f32⟩ : BufTy).Contents (Elt F)),
    binary main_v17 main_v31 main_v41 (mulf : (⟨S464640x11, .f32⟩ : BufTy).Contents (Elt F) → (⟨S464640x11, .f32⟩ : BufTy).Contents (Elt F) → (⟨S464640x11, .f32⟩ : BufTy).Contents (Elt F)),
    binary main_v40 main_v41 main_v42 (addf : (⟨S464640x11, .f32⟩ : BufTy).Contents (Elt F) → (⟨S464640x11, .f32⟩ : BufTy).Contents (Elt F) → (⟨S464640x11, .f32⟩ : BufTy).Contents (Elt F)),
    binary main_v35 main_v39 main_v43 (mulf : (⟨S464640x11, .f32⟩ : BufTy).Contents (Elt F) → (⟨S464640x11, .f32⟩ : BufTy).Contents (Elt F) → (⟨S464640x11, .f32⟩ : BufTy).Contents (Elt F)),
    binary main_v42 main_v43 main_v44 (Host.divf : (⟨S464640x11, .f32⟩ : BufTy).Contents (Elt F) → (⟨S464640x11, .f32⟩ : BufTy).Contents (Elt F) → (⟨S464640x11, .f32⟩ : BufTy).Contents (Elt F)) ]

abbrev chunk6 : List (HloOp τ sig (Elt F)) :=
  [ nary ![main_v44, main_v35, main_v39] main_v45 (fun u => concatenate S464640x33 1 [⟨S464640x11, u 0⟩, ⟨S464640x11, u 1⟩, ⟨S464640x11, u 2⟩] concatenates_S464640x11_S464640x11_S464640x11_S464640x33_d1) ]

abbrev chunk7 : List (HloOp τ sig (Elt F)) :=
  [ nullary main_c_7 (constantI S_ 32 0#32),
    unary main_c_7 main_v46 (broadcastInDim S464640 ![] bcast_S_S464640 : (⟨S_, .i32⟩ : BufTy).Contents (Elt F) → (⟨S464640, .i32⟩ : BufTy).Contents (Elt F)),
    binary main_v1 main_v46 main_v47 (cmpi .slt : (⟨S464640, .i32⟩ : BufTy).Contents (Elt F) → (⟨S464640, .i32⟩ : BufTy).Contents (Elt F) → (⟨S464640, .i1⟩ : BufTy).Contents (Elt F)),
    nullary main_c_8 (constantI S_ 32 29040#32),
    unary main_c_8 main_v48 (broadcastInDim S464640 ![] bcast_S_S464640 : (⟨S_, .i32⟩ : BufTy).Contents (Elt F) → (⟨S464640, .i32⟩ : BufTy).Contents (Elt F)),
    binary main_v1 main_v48 main_v49 (addi : (⟨S464640, .i32⟩ : BufTy).Contents (Elt F) → (⟨S464640, .i32⟩ : BufTy).Contents (Elt F) → (⟨S464640, .i32⟩ : BufTy).Contents (Elt F)),
    ternary main_v47 main_v49 main_v1 main_v50 (select : (⟨S464640, .i1⟩ : BufTy).Contents (Elt F) → (⟨S464640, .i32⟩ : BufTy).Contents (Elt F) → (⟨S464640, .i32⟩ : BufTy).Contents (Elt F) → (⟨S464640, .i32⟩ : BufTy).Contents (Elt F)),
    unary main_v50 main_v51 (broadcastInDim S464640x1 ![0] bcast_S464640_S464640x1_0 : (⟨S464640, .i32⟩ : BufTy).Contents (Elt F) → (⟨S464640x1, .i32⟩ : BufTy).Contents (Elt F)),
    binary main_arg0 main_v51 main_v52 ((fun x i => Host.gather gather_S29040x128_S464640x1_S464640x128_1_0_n_n_0_1_1128 x i) : (⟨S29040x128, .f32⟩ : BufTy).Contents (Elt F) → (⟨S464640x1, .i32⟩ : BufTy).Contents (Elt F) → (⟨S464640x128, .f32⟩ : BufTy).Contents (Elt F)) ]

abbrev chunk8 : List (HloOp τ sig (Elt F)) :=
  [ nullary main_c_9 (constantI S_ 32 0#32),
    unary main_c_9 main_v53 (broadcastInDim S464640 ![] bcast_S_S464640 : (⟨S_, .i32⟩ : BufTy).Contents (Elt F) → (⟨S464640, .i32⟩ : BufTy).Contents (Elt F)),
    binary main_v3 main_v53 main_v54 (cmpi .slt : (⟨S464640, .i32⟩ : BufTy).Contents (Elt F) → (⟨S464640, .i32⟩ : BufTy).Contents (Elt F) → (⟨S464640, .i1⟩ : BufTy).Contents (Elt F)),
    nullary main_c_10 (constantI S_ 32 29040#32),
    unary main_c_10 main_v55 (broadcastInDim S464640 ![] bcast_S_S464640 : (⟨S_, .i32⟩ : BufTy).Contents (Elt F) → (⟨S464640, .i32⟩ : BufTy).Contents (Elt F)),
    binary main_v3 main_v55 main_v56 (addi : (⟨S464640, .i32⟩ : BufTy).Contents (Elt F) → (⟨S464640, .i32⟩ : BufTy).Contents (Elt F) → (⟨S464640, .i32⟩ : BufTy).Contents (Elt F)),
    ternary main_v54 main_v56 main_v3 main_v57 (select : (⟨S464640, .i1⟩ : BufTy).Contents (Elt F) → (⟨S464640, .i32⟩ : BufTy).Contents (Elt F) → (⟨S464640, .i32⟩ : BufTy).Contents (Elt F) → (⟨S464640, .i32⟩ : BufTy).Contents (Elt F)),
    unary main_v57 main_v58 (broadcastInDim S464640x1 ![0] bcast_S464640_S464640x1_0 : (⟨S464640, .i32⟩ : BufTy).Contents (Elt F) → (⟨S464640x1, .i32⟩ : BufTy).Contents (Elt F)),
    binary main_arg0 main_v58 main_v59 ((fun x i => Host.gather gather_S29040x128_S464640x1_S464640x128_1_0_n_n_0_1_1128 x i) : (⟨S29040x128, .f32⟩ : BufTy).Contents (Elt F) → (⟨S464640x1, .i32⟩ : BufTy).Contents (Elt F) → (⟨S464640x128, .f32⟩ : BufTy).Contents (Elt F)) ]

abbrev chunk9 : List (HloOp τ sig (Elt F)) :=
  [ nary ![main_v52, main_v59, main_v45, main_arg3] main_v60 (fun u => concatenate S464640x290 1 [⟨S464640x128, u 0⟩, ⟨S464640x128, u 1⟩, ⟨S464640x33, u 2⟩, ⟨S464640x1, u 3⟩] concatenates_S464640x128_S464640x128_S464640x33_S464640x1_S464640x290_d1) ]

abbrev chunk10 : List (HloOp τ sig (Elt F)) :=
  [ binary main_v60 main_arg4 main_v61 ((fun l r => Host.dotGeneral dot_S464640x290_S290x128_S464640x128_1_0_0_1_n_n none l r) : (⟨S464640x290, .f32⟩ : BufTy).Contents (Elt F) → (⟨S290x128, .f32⟩ : BufTy).Contents (Elt F) → (⟨S464640x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S464640x128 ![0, 1] bcast_S1x128_S464640x128_0_1 : (⟨S1x128, .f32⟩ : BufTy).Contents (Elt F) → (⟨S464640x128, .f32⟩ : BufTy).Contents (Elt F)),
    binary main_v61 main_v63 main_v64 (addf : (⟨S464640x128, .f32⟩ : BufTy).Contents (Elt F) → (⟨S464640x128, .f32⟩ : BufTy).Contents (Elt F) → (⟨S464640x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S464640x128, .f32⟩) main_call0_v0) (broadcastInDim S464640x128 ![] bcast_S_S464640x128),
    TRef.binary (TRef.of (T := ⟨S464640x128, .f32⟩) main_v64) (TRef.of (T := ⟨S464640x128, .f32⟩) main_call0_v0) (TRef.of (T := ⟨S464640x128, .f32⟩) main_v65) maximumf,
    binary main_v65 main_arg6 main_v66 ((fun l r => Host.dotGeneral dot_S464640x128_S128x128_S464640x128_1_0_0_1_n_n none l r) : (⟨S464640x128, .f32⟩ : BufTy).Contents (Elt F) → (⟨S128x128, .f32⟩ : BufTy).Contents (Elt F) → (⟨S464640x128, .f32⟩ : BufTy).Contents (Elt F)),
    unary main_arg7 main_v67 (broadcastInDim S1x128 ![1] bcast_S128_S1x128_1 : (⟨S128, .f32⟩ : BufTy).Contents (Elt F) → (⟨S1x128, .f32⟩ : BufTy).Contents (Elt F)),
    unary main_v67 main_v68 (broadcastInDim S464640x128 ![0, 1] bcast_S1x128_S464640x128_0_1 : (⟨S1x128, .f32⟩ : BufTy).Contents (Elt F) → (⟨S464640x128, .f32⟩ : BufTy).Contents (Elt F)),
    binary main_v66 main_v68 main_v69 (addf : (⟨S464640x128, .f32⟩ : BufTy).Contents (Elt F) → (⟨S464640x128, .f32⟩ : BufTy).Contents (Elt F) → (⟨S464640x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S464640x128, .f32⟩) main_call1_v0) (broadcastInDim S464640x128 ![] bcast_S_S464640x128),
    TRef.binary (TRef.of (T := ⟨S464640x128, .f32⟩) main_v69) (TRef.of (T := ⟨S464640x128, .f32⟩) main_call1_v0) (TRef.of (T := ⟨S464640x128, .f32⟩) main_v70) maximumf ]

abbrev chunk11 : List (HloOp τ sig (Elt F)) :=
  [ nullary main_cst (constant S_ .f32 0x00000000#32),
    unary main_cst main_v71 (broadcastInDim S29040x128 ![] bcast_S_S29040x128 : (⟨S_, .f32⟩ : BufTy).Contents (Elt F) → (⟨S29040x128, .f32⟩ : BufTy).Contents (Elt F)),
    unary main_v1 main_v72 (broadcastInDim S464640x1 ![0] bcast_S464640_S464640x1_0 : (⟨S464640, .i32⟩ : BufTy).Contents (Elt F) → (⟨S464640x1, .i32⟩ : BufTy).Contents (Elt F)),
    ternary main_v71 main_v72 main_v70 main_v73 ((fun x i u => Host.scatterAdd scatter_S29040x128_S464640x1_S464640x128_1_0_0_1 x i u) : (⟨S29040x128, .f32⟩ : BufTy).Contents (Elt F) → (⟨S464640x1, .i32⟩ : BufTy).Contents (Elt F) → (⟨S464640x128, .f32⟩ : BufTy).Contents (Elt F) → (⟨S29040x128, .f32⟩ : BufTy).Contents (Elt F)),
    reshape main_v73 main_v74 rfl shapeCasts_S29040x128_S121x240x128,
    nullary main_cst_11 (constant S_ .f32 0x00000000#32),
    binary main_v74 main_cst_11 main_v75 ((fun x v => Host.reduceAdd x v reducesTo_S121x240x128_S121x128_d1 h_S_) : (⟨S121x240x128, .f32⟩ : BufTy).Contents (Elt F) → (⟨S_, .f32⟩ : BufTy).Contents (Elt F) → (⟨S121x128, .f32⟩ : BufTy).Contents (Elt F)),
    unary main_v75 main_v76 (broadcastInDim S121x1x128 ![0, 2] bcast_S121x128_S121x1x128_0_2 : (⟨S121x128, .f32⟩ : BufTy).Contents (Elt F) → (⟨S121x1x128, .f32⟩ : BufTy).Contents (Elt F)),
    nullary main_cst_12 (constant S_ .f32 0x43700000#32),
    unary main_cst_12 main_v77 (broadcastInDim S121x1x128 ![] bcast_S_S121x1x128 : (⟨S_, .f32⟩ : BufTy).Contents (Elt F) → (⟨S121x1x128, .f32⟩ : BufTy).Contents (Elt F)),
    binary main_v76 main_v77 main_v78 (Host.divf : (⟨S121x1x128, .f32⟩ : BufTy).Contents (Elt F) → (⟨S121x1x128, .f32⟩ : BufTy).Contents (Elt F) → (⟨S121x1x128, .f32⟩ : BufTy).Contents (Elt F)),
    unary main_v78 main_v79 (broadcastInDim S121x240x128 ![0, 1, 2] bcast_S121x1x128_S121x240x128_0_1_2 : (⟨S121x1x128, .f32⟩ : BufTy).Contents (Elt F) → (⟨S121x240x128, .f32⟩ : BufTy).Contents (Elt F)),
    reshape main_v79 main_v80 rfl shapeCasts_S121x240x128_S29040x128 ]

abbrev chunk12 : List (HloOp τ sig (Elt F)) :=
  [ nary ![main_arg0, main_v73, main_v80] main_v81 (fun u => concatenate S29040x384 1 [⟨S29040x128, u 0⟩, ⟨S29040x128, u 1⟩, ⟨S29040x128, u 2⟩] concatenates_S29040x128_S29040x128_S29040x128_S29040x384_d1) ]

abbrev chunk13 : List (HloOp τ sig (Elt F)) :=
  [ binary main_v81 main_arg8 main_v82 ((fun l r => Host.dotGeneral dot_S29040x384_S384x128_S29040x128_1_0_0_1_n_n none l r) : (⟨S29040x384, .f32⟩ : BufTy).Contents (Elt F) → (⟨S384x128, .f32⟩ : BufTy).Contents (Elt F) → (⟨S29040x128, .f32⟩ : BufTy).Contents (Elt F)),
    unary main_arg9 main_v83 (broadcastInDim S1x128 ![1] bcast_S128_S1x128_1 : (⟨S128, .f32⟩ : BufTy).Contents (Elt F) → (⟨S1x128, .f32⟩ : BufTy).Contents (Elt F)),
    unary main_v83 main_v84 (broadcastInDim S29040x128 ![0, 1] bcast_S1x128_S29040x128_0_1 : (⟨S1x128, .f32⟩ : BufTy).Contents (Elt F) → (⟨S29040x128, .f32⟩ : BufTy).Contents (Elt F)),
    binary main_v82 main_v84 main_v85 (addf : (⟨S29040x128, .f32⟩ : BufTy).Contents (Elt F) → (⟨S29040x128, .f32⟩ : BufTy).Contents (Elt F) → (⟨S29040x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S29040x128, .f32⟩) main_call2_v0) (broadcastInDim S29040x128 ![] bcast_S_S29040x128),
    TRef.binary (TRef.of (T := ⟨S29040x128, .f32⟩) main_v85) (TRef.of (T := ⟨S29040x128, .f32⟩) main_call2_v0) (TRef.of (T := ⟨S29040x128, .f32⟩) main_v86) maximumf,
    binary main_v86 main_arg10 main_v87 ((fun l r => Host.dotGeneral dot_S29040x128_S128x128_S29040x128_1_0_0_1_n_n none l r) : (⟨S29040x128, .f32⟩ : BufTy).Contents (Elt F) → (⟨S128x128, .f32⟩ : BufTy).Contents (Elt F) → (⟨S29040x128, .f32⟩ : BufTy).Contents (Elt F)),
    unary main_arg11 main_v88 (broadcastInDim S1x128 ![1] bcast_S128_S1x128_1 : (⟨S128, .f32⟩ : BufTy).Contents (Elt F) → (⟨S1x128, .f32⟩ : BufTy).Contents (Elt F)),
    unary main_v88 main_v89 (broadcastInDim S29040x128 ![0, 1] bcast_S1x128_S29040x128_0_1 : (⟨S1x128, .f32⟩ : BufTy).Contents (Elt F) → (⟨S29040x128, .f32⟩ : BufTy).Contents (Elt F)),
    binary main_v87 main_v89 main_v90 (addf : (⟨S29040x128, .f32⟩ : BufTy).Contents (Elt F) → (⟨S29040x128, .f32⟩ : BufTy).Contents (Elt F) → (⟨S29040x128, .f32⟩ : BufTy).Contents (Elt F)),
    binary main_v90 main_arg0 main_v91 (addf : (⟨S29040x128, .f32⟩ : BufTy).Contents (Elt F) → (⟨S29040x128, .f32⟩ : BufTy).Contents (Elt F) → (⟨S29040x128, .f32⟩ : BufTy).Contents (Elt F)) ]

abbrev chunk14 : List (HloOp τ sig (Elt F)) :=
  [ binary main_v70 main_arg12 main_v92 ((fun l r => Host.dotGeneral dot_S464640x128_S128x128_S464640x128_1_0_0_1_n_n none l r) : (⟨S464640x128, .f32⟩ : BufTy).Contents (Elt F) → (⟨S128x128, .f32⟩ : BufTy).Contents (Elt F) → (⟨S464640x128, .f32⟩ : BufTy).Contents (Elt F)),
    unary main_arg13 main_v93 (broadcastInDim S1x128 ![1] bcast_S128_S1x128_1 : (⟨S128, .f32⟩ : BufTy).Contents (Elt F) → (⟨S1x128, .f32⟩ : BufTy).Contents (Elt F)),
    unary main_v93 main_v94 (broadcastInDim S464640x128 ![0, 1] bcast_S1x128_S464640x128_0_1 : (⟨S1x128, .f32⟩ : BufTy).Contents (Elt F) → (⟨S464640x128, .f32⟩ : BufTy).Contents (Elt F)),
    binary main_v92 main_v94 main_v95 (addf : (⟨S464640x128, .f32⟩ : BufTy).Contents (Elt F) → (⟨S464640x128, .f32⟩ : BufTy).Contents (Elt F) → (⟨S464640x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S464640x128, .f32⟩) main_call3_v0) (broadcastInDim S464640x128 ![] bcast_S_S464640x128),
    TRef.binary (TRef.of (T := ⟨S464640x128, .f32⟩) main_v95) (TRef.of (T := ⟨S464640x128, .f32⟩) main_call3_v0) (TRef.of (T := ⟨S464640x128, .f32⟩) main_v96) maximumf,
    binary main_v96 main_arg14 main_v97 ((fun l r => Host.dotGeneral dot_S464640x128_S128x22_S464640x22_1_0_0_1_n_n none l r) : (⟨S464640x128, .f32⟩ : BufTy).Contents (Elt F) → (⟨S128x22, .f32⟩ : BufTy).Contents (Elt F) → (⟨S464640x22, .f32⟩ : BufTy).Contents (Elt F)),
    reshape main_v97 main_v98 rfl shapeCasts_S464640x22_S464640x2x11,
    unary main_v10 main_v99 (broadcastInDim S464640x1x11 ![0, 2] bcast_S464640x11_S464640x1x11_0_2 : (⟨S464640x11, .f32⟩ : BufTy).Contents (Elt F) → (⟨S464640x1x11, .f32⟩ : BufTy).Contents (Elt F)),
    unary main_v17 main_v100 (broadcastInDim S464640x1x11 ![0, 2] bcast_S464640x11_S464640x1x11_0_2 : (⟨S464640x11, .f32⟩ : BufTy).Contents (Elt F) → (⟨S464640x1x11, .f32⟩ : BufTy).Contents (Elt F)) ]

abbrev chunk15 : List (HloOp τ sig (Elt F)) :=
  [ binary main_v99 main_v100 main_v101 ((fun a b => concatenate S464640x2x11 1 [⟨S464640x1x11, a⟩, ⟨S464640x1x11, b⟩] concatenates_S464640x1x11_S464640x1x11_S464640x2x11_d1) : (⟨S464640x1x11, .f32⟩ : BufTy).Contents (Elt F) → (⟨S464640x1x11, .f32⟩ : BufTy).Contents (Elt F) → (⟨S464640x2x11, .f32⟩ : BufTy).Contents (Elt F)),
    binary main_v101 main_v101 main_v102 (mulf : (⟨S464640x2x11, .f32⟩ : BufTy).Contents (Elt F) → (⟨S464640x2x11, .f32⟩ : BufTy).Contents (Elt F) → (⟨S464640x2x11, .f32⟩ : BufTy).Contents (Elt F)),
    nullary main_cst_13 (constant S_ .f32 0x00000000#32),
    binary main_v102 main_cst_13 main_v103 ((fun x v => Host.reduceAdd x v reducesTo_S464640x2x11_S464640x2_d2 h_S_) : (⟨S464640x2x11, .f32⟩ : BufTy).Contents (Elt F) → (⟨S_, .f32⟩ : BufTy).Contents (Elt F) → (⟨S464640x2, .f32⟩ : BufTy).Contents (Elt F)),
    unary main_v103 main_v104 (Host.sqrt : (⟨S464640x2, .f32⟩ : BufTy).Contents (Elt F) → (⟨S464640x2, .f32⟩ : BufTy).Contents (Elt F)),
    unary main_v104 main_v105 (broadcastInDim S464640x2x1 ![0, 1] bcast_S464640x2_S464640x2x1_0_1 : (⟨S464640x2, .f32⟩ : BufTy).Contents (Elt F) → (⟨S464640x2x1, .f32⟩ : BufTy).Contents (Elt F)),
    unary main_v105 main_v106 (broadcastInDim S464640x2x11 ![0, 1, 2] bcast_S464640x2x1_S464640x2x11_0_1_2 : (⟨S464640x2x1, .f32⟩ : BufTy).Contents (Elt F) → (⟨S464640x2x11, .f32⟩ : BufTy).Contents (Elt F)),
    binary main_v98 main_v106 main_v107 (mulf : (⟨S464640x2x11, .f32⟩ : BufTy).Contents (Elt F) → (⟨S464640x2x11, .f32⟩ : BufTy).Contents (Elt F) → (⟨S464640x2x11, .f32⟩ : BufTy).Contents (Elt F)) ]

abbrev chunk16 : List (HloOp τ sig (Elt F)) :=
  [ nullary main_cst_14 (constant S_ .f32 0x3F800000#32),
    unary main_cst_14 main_v108 (broadcastInDim S464640 ![] bcast_S_S464640 : (⟨S_, .f32⟩ : BufTy).Contents (Elt F) → (⟨S464640, .f32⟩ : BufTy).Contents (Elt F)),
    nullary main_cst_15 (constant S_ .f32 0x00000000#32),
    unary main_cst_15 main_v109 (broadcastInDim S29040 ![] bcast_S_S29040 : (⟨S_, .f32⟩ : BufTy).Contents (Elt F) → (⟨S29040, .f32⟩ : BufTy).Contents (Elt F)),
    unary main_v1 main_v110 (broadcastInDim S464640x1 ![0] bcast_S464640_S464640x1_0 : (⟨S464640, .i32⟩ : BufTy).Contents (Elt F) → (⟨S464640x1, .i32⟩ : BufTy).Contents (Elt F)),
    ternary main_v109 main_v110 main_v108 main_v111 ((fun x i u => Host.scatterAdd scatter_S29040_S464640x1_S464640_n_0_0_1 x i u) : (⟨S29040, .f32⟩ : BufTy).Contents (Elt F) → (⟨S464640x1, .i32⟩ : BufTy).Contents (Elt F) → (⟨S464640, .f32⟩ : BufTy).Contents (Elt F) → (⟨S29040, .f32⟩ : BufTy).Contents (Elt F)),
    nullary main_cst_16 (constant S_ .f32 0x3F800000#32),
    unary main_cst_16 main_v112 (broadcastInDim S29040 ![] bcast_S_S29040 : (⟨S_, .f32⟩ : BufTy).Contents (Elt F) → (⟨S29040, .f32⟩ : BufTy).Contents (Elt F)),
    binary main_v111 main_v112 main_v113 (maximumf : (⟨S29040, .f32⟩ : BufTy).Contents (Elt F) → (⟨S29040, .f32⟩ : BufTy).Contents (Elt F) → (⟨S29040, .f32⟩ : BufTy).Contents (Elt F)),
    unary main_v113 main_v114 (broadcastInDim S29040x1 ![0] bcast_S29040_S29040x1_0 : (⟨S29040, .f32⟩ : BufTy).Contents (Elt F) → (⟨S29040x1, .f32⟩ : BufTy).Contents (Elt F)),
    unary main_v107 main_v115 ((extractStridedSlice S464640x1x11 ![0, 0, 0] · slices_S464640x2x11_S464640x1x11_0_0_0) : (⟨S464640x2x11, .f32⟩ : BufTy).Contents (Elt F) → (⟨S464640x1x11, .f32⟩ : BufTy).Contents (Elt F)),
    reshape main_v115 main_v116 rfl shapeCasts_S464640x1x11_S464640x11,
    nullary main_cst_17 (constant S_ .f32 0x00000000#32),
    unary main_cst_17 main_v117 (broadcastInDim S29040x11 ![] bcast_S_S29040x11 : (⟨S_, .f32⟩ : BufTy).Contents (Elt F) → (⟨S29040x11, .f32⟩ : BufTy).Contents (Elt F)),
    unary main_v1 main_v118 (broadcastInDim S464640x1 ![0] bcast_S464640_S464640x1_0 : (⟨S464640, .i32⟩ : BufTy).Contents (Elt F) → (⟨S464640x1, .i32⟩ : BufTy).Contents (Elt F)),
    ternary main_v117 main_v118 main_v116 main_v119 ((fun x i u => Host.scatterAdd scatter_S29040x11_S464640x1_S464640x11_1_0_0_1 x i u) : (⟨S29040x11, .f32⟩ : BufTy).Contents (Elt F) → (⟨S464640x1, .i32⟩ : BufTy).Contents (Elt F) → (⟨S464640x11, .f32⟩ : BufTy).Contents (Elt F) → (⟨S29040x11, .f32⟩ : BufTy).Contents (Elt F)),
    unary main_v114 main_v120 (broadcastInDim S29040x11 ![0, 1] bcast_S29040x1_S29040x11_0_1 : (⟨S29040x1, .f32⟩ : BufTy).Contents (Elt F) → (⟨S29040x11, .f32⟩ : BufTy).Contents (Elt F)),
    binary main_v119 main_v120 main_v121 (Host.divf : (⟨S29040x11, .f32⟩ : BufTy).Contents (Elt F) → (⟨S29040x11, .f32⟩ : BufTy).Contents (Elt F) → (⟨S29040x11, .f32⟩ : BufTy).Contents (Elt F)),
    nullary main_cst_18 (constant S_ .f32 0xC2C80000#32),
    nullary main_cst_19 (constant S_ .f32 0x42C80000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S29040x11, .f32⟩) main_call4_v1) (broadcastInDim S29040x11 ![] bcast_S_S29040x11),
    TRef.binary (TRef.of (T := ⟨S29040x11, .f32⟩) main_call4_v1) (TRef.of (T := ⟨S29040x11, .f32⟩) main_v121) (TRef.of (T := ⟨S29040x11, .f32⟩) main_call4_v2) maximumf,
    TRef.unary (TRef.of (T := ⟨S_, .f32⟩) main_cst_19) (TRef.of (T := ⟨S_, .f32⟩) main_call4_v3) id,
    TRef.unary (TRef.of (T := ⟨S_, .f32⟩) main_call4_v3) (TRef.of (T := ⟨S29040x11, .f32⟩) main_call4_v4) (broadcastInDim S29040x11 ![] bcast_S_S29040x11),
    TRef.binary (TRef.of (T := ⟨S29040x11, .f32⟩) main_call4_v4) (TRef.of (T := ⟨S29040x11, .f32⟩) main_call4_v2) (TRef.of (T := ⟨S29040x11, .f32⟩) main_v122) minimumf,
    unary main_v107 main_v123 ((extractStridedSlice S464640x1x11 ![0, 1, 0] · slices_S464640x2x11_S464640x1x11_0_1_0) : (⟨S464640x2x11, .f32⟩ : BufTy).Contents (Elt F) → (⟨S464640x1x11, .f32⟩ : BufTy).Contents (Elt F)),
    reshape main_v123 main_v124 rfl shapeCasts_S464640x1x11_S464640x11,
    nullary main_cst_20 (constant S_ .f32 0x00000000#32),
    unary main_cst_20 main_v125 (broadcastInDim S29040x11 ![] bcast_S_S29040x11 : (⟨S_, .f32⟩ : BufTy).Contents (Elt F) → (⟨S29040x11, .f32⟩ : BufTy).Contents (Elt F)),
    unary main_v1 main_v126 (broadcastInDim S464640x1 ![0] bcast_S464640_S464640x1_0 : (⟨S464640, .i32⟩ : BufTy).Contents (Elt F) → (⟨S464640x1, .i32⟩ : BufTy).Contents (Elt F)),
    ternary main_v125 main_v126 main_v124 main_v127 ((fun x i u => Host.scatterAdd scatter_S29040x11_S464640x1_S464640x11_1_0_0_1 x i u) : (⟨S29040x11, .f32⟩ : BufTy).Contents (Elt F) → (⟨S464640x1, .i32⟩ : BufTy).Contents (Elt F) → (⟨S464640x11, .f32⟩ : BufTy).Contents (Elt F) → (⟨S29040x11, .f32⟩ : BufTy).Contents (Elt F)),
    unary main_v114 main_v128 (broadcastInDim S29040x11 ![0, 1] bcast_S29040x1_S29040x11_0_1 : (⟨S29040x1, .f32⟩ : BufTy).Contents (Elt F) → (⟨S29040x11, .f32⟩ : BufTy).Contents (Elt F)),
    binary main_v127 main_v128 main_v129 (Host.divf : (⟨S29040x11, .f32⟩ : BufTy).Contents (Elt F) → (⟨S29040x11, .f32⟩ : BufTy).Contents (Elt F) → (⟨S29040x11, .f32⟩ : BufTy).Contents (Elt F)),
    nullary main_cst_21 (constant S_ .f32 0xC2C80000#32),
    nullary main_cst_22 (constant S_ .f32 0x42C80000#32),
    TRef.unary (TRef.of (T := ⟨S_, .f32⟩) main_cst_21) (TRef.of (T := ⟨S_, .f32⟩) main_call5_v0) id,
    TRef.unary (TRef.of (T := ⟨S_, .f32⟩) main_call5_v0) (TRef.of (T := ⟨S29040x11, .f32⟩) main_call5_v1) (broadcastInDim S29040x11 ![] bcast_S_S29040x11),
    TRef.binary (TRef.of (T := ⟨S29040x11, .f32⟩) main_call5_v1) (TRef.of (T := ⟨S29040x11, .f32⟩) main_v129) (TRef.of (T := ⟨S29040x11, .f32⟩) main_call5_v2) maximumf,
    TRef.unary (TRef.of (T := ⟨S_, .f32⟩) main_cst_22) (TRef.of (T := ⟨S_, .f32⟩) main_call5_v3) id,
    TRef.unary (TRef.of (T := ⟨S_, .f32⟩) main_call5_v3) (TRef.of (T := ⟨S29040x11, .f32⟩) main_call5_v4) (broadcastInDim S29040x11 ![] bcast_S_S29040x11),
    TRef.binary (TRef.of (T := ⟨S29040x11, .f32⟩) main_call5_v4) (TRef.of (T := ⟨S29040x11, .f32⟩) main_call5_v2) (TRef.of (T := ⟨S29040x11, .f32⟩) main_v130) minimumf ]

abbrev ops : List (HloOp τ sig (Elt F)) :=
  List.flatten [chunk0, chunk1, chunk2, chunk3, chunk4, chunk5, chunk6, chunk7, chunk8, chunk9, chunk10, chunk11, chunk12, chunk13, chunk14, chunk15, chunk16]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., binary_bufs_sub .., binary_bufs_sub .., binary_bufs_sub .., unary_bufs_sub .., binary_bufs_sub .., binary_bufs_sub .., binary_bufs_sub .., binary_bufs_sub .., binary_bufs_sub .., nary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., reshape_bufs_sub .., nullary_bufs_sub .., binary_bufs_sub .., unary_bufs_sub .., nullary_bufs_sub .., unary_bufs_sub .., binary_bufs_sub .., unary_bufs_sub .., reshape_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., reshape_bufs_sub .., unary_bufs_sub .., unary_bufs_sub .., binary_bufs_sub .., binary_bufs_sub .., nullary_bufs_sub .., binary_bufs_sub .., unary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., reshape_bufs_sub .., nullary_bufs_sub .., unary_bufs_sub .., unary_bufs_sub .., ternary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., unary_bufs_sub .., ternary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after (ops (F := F)) (launchContents m d) (Proc.devRef .tc b) :=
  run_seq scopedRefs_eq scopedSems_eq defs main (fun _ => ops) main_eq (fun _ => ops_sub) m ρ

end Cert.ReferenceIdeal.RunP

end
-- ==== Proof.RefEdgeRun.lean ====
import proofs.«418158_j78065325572140_2_alg».proof.Proof.RefEdge
import proofs.«418158_j78065325572140_2_alg».proof.Proof.RefRun
import Idealize.ShloMosaic.Lib.StableHlo.Run

noncomputable section

namespace Cert.ReferenceIdeal.RefEdge

open Cert.ReferenceIdeal Cert.ReferenceIdeal.Gen Idealize.ShloMosaic Idealize.ShloMosaic.TcCoe Idealize.SL.Sem Idealize.ShloMosaic.StableHlo
open Cert.ReferenceIdeal.Facts
open Cert.ReferenceIdeal.RunP

variable {F : FTy → Type} [FloatOps F]

variable (W : Valuation τ sig (Elt F))

set_option maxHeartbeats 1000000 in
set_option maxRecDepth 65536 in

theorem after_v35 :
    StableHlo.after chunk5 W (Proc.devRef .tc main_v35)
      = refColSpeed (F := F) (W (Proc.devRef .tc main_v10)) (W (Proc.devRef .tc main_v17)) := by
  unfold refColSpeed
  after_results_simp <;> (try simp only [TRef.ofBuf, TRef.toBuf, cast_eq]) <;> rfl

set_option maxHeartbeats 1000000 in
set_option maxRecDepth 65536 in

theorem after_v39 :
    StableHlo.after chunk5 W (Proc.devRef .tc main_v39)
      = refRowSpeed (F := F) (W (Proc.devRef .tc main_v24)) (W (Proc.devRef .tc main_v31)) := by
  unfold refRowSpeed
  after_results_simp <;> (try simp only [TRef.ofBuf, TRef.toBuf, cast_eq]) <;> rfl

set_option maxHeartbeats 1000000 in
set_option maxRecDepth 65536 in

theorem after_v44 :
    StableHlo.after chunk5 W (Proc.devRef .tc main_v44)
      = refRelDir (F := F) (W (Proc.devRef .tc main_v24)) (W (Proc.devRef .tc main_v31)) (W (Proc.devRef .tc main_v10)) (W (Proc.devRef .tc main_v17)) := by
  unfold refRelDir refColSpeed refRowSpeed
  after_results_simp <;> (try simp only [TRef.ofBuf, TRef.toBuf, cast_eq]) <;> rfl

set_option maxHeartbeats 1000000 in
set_option maxRecDepth 65536 in

theorem after_v45 :
    StableHlo.after chunk6 W (Proc.devRef .tc main_v45)
      = cat33 (F := F) (W (Proc.devRef .tc main_v44)) (W (Proc.devRef .tc main_v35)) (W (Proc.devRef .tc main_v39)) := by
  unfold cat33
  after_results_simp <;> (try simp only [TRef.ofBuf, TRef.toBuf, cast_eq]) <;> rfl

set_option maxHeartbeats 1000000 in
set_option maxRecDepth 65536 in

theorem after_v60 :
    StableHlo.after chunk9 W (Proc.devRef .tc main_v60)
      = refCat290 (F := F) (W (Proc.devRef .tc main_v52)) (W (Proc.devRef .tc main_v59)) (W (Proc.devRef .tc main_v45)) (W (Proc.devRef .tc main_arg3)) := by
  unfold refCat290
  after_results_simp <;> (try simp only [TRef.ofBuf, TRef.toBuf, cast_eq]) <;> rfl

set_option maxHeartbeats 1000000 in
set_option maxRecDepth 65536 in

theorem after_v70 :
    StableHlo.after chunk10 W (Proc.devRef .tc main_v70)
      = refLayers (F := F) (W (Proc.devRef .tc main_v60)) (W (Proc.devRef .tc main_arg4)) (W (Proc.devRef .tc main_arg5)) (W (Proc.devRef .tc main_arg6)) (W (Proc.devRef .tc main_arg7)) := by
  unfold refLayers refLayer1 biasRows zeros
  after_results_simp <;> (try simp only [TRef.ofBuf, TRef.toBuf, cast_eq]) <;> rfl

end Cert.ReferenceIdeal.RefEdge

end
-- ==== Proof.RefNode.lean ====
import proofs.«418158_j78065325572140_2_alg».proof.Proof.Gen.ReferenceIdeal
import proofs.«418158_j78065325572140_2_alg».proof.Proof.LibPlainDot
import proofs.«418158_j78065325572140_2_alg».proof.Proof.SpecNode
import proofs.«418158_j78065325572140_2_alg».proof.Proof.LibSumSplit
import Idealize.ShloMosaic.Lib.ValueIdx
import Idealize.ShloMosaic.Lib.Pipeline.Value
import Idealize.ShloMosaic.PureOps.Ideal.Laws
import Idealize.ShloMosaic.Lib.ValueLayout

noncomputable section

namespace Cert.ReferenceIdeal.RefNode

open Cert.ReferenceIdeal Cert.ReferenceIdeal.Gen Idealize.ShloMosaic Idealize.ShloMosaic.ValueIdx

variable {F : FTy → Type} [FloatOps F]

def refAgg (idx : IVec S464640 32) (feat : FVec F S464640x128 .f32) : FVec F S29040x128 .f32 :=
  Host.scatterAdd scatter_S29040x128_S464640x1_S464640x128_1_0_0_1
    (broadcastInDim S29040x128 ![] bcast_S_S29040x128 (constant S_ .f32 0x00000000#32))
    (broadcastInDim S464640x1 ![0] bcast_S464640_S464640x1_0 idx) feat

def refLatAgg (agg : FVec F S29040x128 .f32) : FVec F S29040x128 .f32 :=
  shapeCast S29040x128
    (broadcastInDim S121x240x128 ![0, 1, 2] bcast_S121x1x128_S121x240x128_0_1_2
      (Host.divf
        (broadcastInDim S121x1x128 ![0, 2] bcast_S121x128_S121x1x128_0_2
          (Host.reduceAdd (shapeCast S121x240x128 agg shapeCasts_S29040x128_S121x240x128)
            (constant S_ .f32 0x00000000#32) reducesTo_S121x240x128_S121x128_d1 h_S_))
        (broadcastInDim S121x1x128 ![] bcast_S_S121x1x128 (constant S_ .f32 0x43700000#32))))
    shapeCasts_S121x240x128_S29040x128

def refCat (h agg latagg : FVec F S29040x128 .f32) : FVec F S29040x384 .f32 :=
  concatenate S29040x384 1 [⟨S29040x128, h⟩, ⟨S29040x128, agg⟩, ⟨S29040x128, latagg⟩]
    concatenates_S29040x128_S29040x128_S29040x128_S29040x384_d1

def refHid (cat : FVec F S29040x384 .f32) (Wn1 : FVec F S384x128 .f32) (bn1 : FVec F S128 .f32) : FVec F S29040x128 .f32 :=
  maximumf
    (addf (Host.dotGeneral dot_S29040x384_S384x128_S29040x128_1_0_0_1_n_n none cat Wn1)
      (broadcastInDim S29040x128 ![0, 1] bcast_S1x128_S29040x128_0_1 (broadcastInDim S1x128 ![1] bcast_S128_S1x128_1 bn1)))
    (broadcastInDim S29040x128 ![] bcast_S_S29040x128 (constant S_ .f32 0x00000000#32))

def refOutOf (h : FVec F S29040x128 .f32) (cat : FVec F S29040x384 .f32) (Wn1 : FVec F S384x128 .f32) (bn1 : FVec F S128 .f32)
    (Wn2 : FVec F S128x128 .f32) (bn2 : FVec F S128 .f32) : FVec F S29040x128 .f32 :=
  addf
    (addf (Host.dotGeneral dot_S29040x128_S128x128_S29040x128_1_0_0_1_n_n none (refHid cat Wn1 bn1) Wn2)
      (broadcastInDim S29040x128 ![0, 1] bcast_S1x128_S29040x128_0_1 (broadcastInDim S1x128 ![1] bcast_S128_S1x128_1 bn2)))
    h

def refOut (h agg latagg : FVec F S29040x128 .f32) (Wn1 : FVec F S384x128 .f32) (bn1 : FVec F S128 .f32)
    (Wn2 : FVec F S128x128 .f32) (bn2 : FVec F S128 .f32) : FVec F S29040x128 .f32 :=
  refOutOf h (refCat h agg latagg) Wn1 bn1 Wn2 bn2

def bandOf (i : Fin 29040) : Fin 121 := ⟨i.val / 240, by have := i.isLt; omega⟩

def posOf (i : Fin 29040) : Fin 240 := ⟨i.val % 240, Nat.mod_lt _ (by decide)⟩

def rowOf (b : Fin 121) (p : Fin 240) : Fin 29040 := ⟨240 * b.val + p.val, by have := b.isLt; have := p.isLt; omega⟩

theorem toBands_apply {α : Type} (v : S29040x128.Idx → α) (h : S29040x128.ShapeCasts S121x240x128)
    (b : Fin 121) (p : Fin 240) (k : Fin 128) :
    shapeCast S121x240x128 v h (ix3 b p k) = v (ix2 (rowOf b p) k) :=
  shapeCast_apply v h _ _ (by
    rw [Shape.rowMajor_val_three, Shape.rowMajor_val_two]
    show (240 * b.val + p.val) * 128 + k.val = (b.val * 240 + p.val) * 128 + k.val
    rw [Nat.mul_comm 240 b.val])

theorem ofBands_apply {α : Type} (v : S121x240x128.Idx → α) (h : S121x240x128.ShapeCasts S29040x128)
    (i : Fin 29040) (k : Fin 128) :
    shapeCast S29040x128 v h (ix2 i k) = v (ix3 (bandOf i) (posOf i) k) :=
  shapeCast_apply v h _ _ (by
    rw [Shape.rowMajor_val_three, Shape.rowMajor_val_two]
    show ((i.val / 240) * 240 + i.val % 240) * 128 + k.val = i.val * 128 + k.val
    rw [Nat.div_add_mod' i.val 240])

theorem keepBand_apply {α : Type} (v : S121x128.Idx → α)
    (h : S121x128.BroadcastsInDim S121x1x128 (![0, 2] : Fin 2 → Fin S121x1x128.rank)) (b : Fin 121) (u : Fin 1) (k : Fin 128) :
    broadcastInDim S121x1x128 ![0, 2] h v (ix3 b u k) = v (ix2 b k) :=
  broadcastInDim_apply _ h v (ix3 b u k) (ix2 b k) (fun a => match a with
    | ⟨0, _⟩ => by show b.val = if (121 : Nat) = 1 then 0 else b.val; rw [if_neg (by decide)]
    | ⟨1, _⟩ => by show k.val = if (128 : Nat) = 1 then 0 else k.val; rw [if_neg (by decide)])

theorem spreadBand_apply {α : Type} (v : S121x1x128.Idx → α)
    (h : S121x1x128.BroadcastsInDim S121x240x128 (![0, 1, 2] : Fin 3 → Fin S121x240x128.rank)) (b : Fin 121) (p : Fin 240) (k : Fin 128) :
    broadcastInDim S121x240x128 ![0, 1, 2] h v (ix3 b p k) = v (ix3 b (0 : Fin 1) k) :=
  broadcastInDim_apply _ h v (ix3 b p k) (ix3 b (0 : Fin 1) k) (fun a => match a with
    | ⟨0, _⟩ => by show b.val = if (121 : Nat) = 1 then 0 else b.val; rw [if_neg (by decide)]
    | ⟨1, _⟩ => by show 0 = if (1 : Nat) = 1 then 0 else p.val; rw [if_pos rfl]
    | ⟨2, _⟩ => by show k.val = if (128 : Nat) = 1 then 0 else k.val; rw [if_neg (by decide)])

theorem scalar_apply {α : Type} {t : Shape} (v : S_.Idx → α) (h : S_.BroadcastsInDim t (![] : Fin 0 → Fin t.rank)) (j : t.Idx) :
    broadcastInDim t ![] h v j = v ix0 :=
  broadcastInDim_apply _ h v j ix0 (fun a => a.elim0)

theorem bandSum_apply (v : FVec Ideal S121x240x128 .f32) (b : Fin 121) (k : Fin 128) :
    Host.reduceAdd (F := Ideal) v (constant (F := Ideal) S_ .f32 0x00000000#32) reducesTo_S121x240x128_S121x128_d1 h_S_ (ix2 b k)
      = ∑ q : Fin 240, v (ix3 b q k) := by
  simp only [Host.reduceAdd, Ideal.hostReduceAdd_def]
  rw [Ideal.hostReduceAdd_single reducesTo_S121x240x128_S121x128_d1 (by decide)]
  show Ideal.ofBits .f32 0x00000000#32 + _ = _
  rw [Ideal.ofBits_zero_f32, zero_add]
  refine Finset.sum_congr rfl fun q _ => congrArg v (funext fun a => Fin.ext ?_)
  match a with
  | ⟨0, _⟩ => rfl
  | ⟨1, _⟩ => rfl
  | ⟨2, _⟩ => rfl

theorem rowOf_band (i : Fin 29040) (q : Fin 240) : rowOf (bandOf i) q = Cert.Spec.Node.bandRow i q := rfl

theorem refLatAgg_apply (agg : FVec Ideal S29040x128 .f32) (i : Fin 29040) (k : Fin 128) :
    refLatAgg (F := Ideal) agg (ix2 i k) = Cert.Spec.Node.lat agg i k := by
  unfold refLatAgg Cert.Spec.Node.lat
  rw [ofBands_apply, spreadBand_apply]
  show FloatOps.hostDivf _ _ = _
  rw [keepBand_apply, bandSum_apply, scalar_apply, Ideal.hostDivf_def]
  simp only [toBands_apply, rowOf_band]
  rfl

theorem cat_first {α : Type} (u0 u1 u2 : S29040x128.Idx → α)
    (h : Shape.Concatenates [S29040x128, S29040x128, S29040x128] S29040x384 1)
    (i : Fin 29040) (c : Fin 384) (k : Fin 128) (hc : c.val = k.val) :
    concatenate S29040x384 1 [⟨S29040x128, u0⟩, ⟨S29040x128, u1⟩, ⟨S29040x128, u2⟩] h (ix2 i c) = u0 (ix2 i k) :=
  concatenate_apply_piece (t := S29040x384) 1 [⟨S29040x128, u0⟩, ⟨S29040x128, u1⟩, ⟨S29040x128, u2⟩] h (ix2 i c) 0 (by show (0 : Nat) < 3; decide) S29040x128 u0 rfl rfl 0 rfl (ix2 i k)
    (fun b hb => match b with
      | ⟨0, _⟩ => rfl
      | ⟨1, _⟩ => absurd rfl hb)
    (by show 0 + k.val = c.val; omega)

theorem cat_second {α : Type} (u0 u1 u2 : S29040x128.Idx → α)
    (h : Shape.Concatenates [S29040x128, S29040x128, S29040x128] S29040x384 1)
    (i : Fin 29040) (c : Fin 384) (k : Fin 128) (hc : c.val = 128 + k.val) :
    concatenate S29040x384 1 [⟨S29040x128, u0⟩, ⟨S29040x128, u1⟩, ⟨S29040x128, u2⟩] h (ix2 i c) = u1 (ix2 i k) :=
  concatenate_apply_piece (t := S29040x384) 1 [⟨S29040x128, u0⟩, ⟨S29040x128, u1⟩, ⟨S29040x128, u2⟩] h (ix2 i c) 1 (by show (1 : Nat) < 3; decide) S29040x128 u1 rfl rfl 128 rfl (ix2 i k)
    (fun b hb => match b with
      | ⟨0, _⟩ => rfl
      | ⟨1, _⟩ => absurd rfl hb)
    (by show 128 + k.val = c.val; omega)

theorem cat_third {α : Type} (u0 u1 u2 : S29040x128.Idx → α)
    (h : Shape.Concatenates [S29040x128, S29040x128, S29040x128] S29040x384 1)
    (i : Fin 29040) (c : Fin 384) (k : Fin 128) (hc : c.val = 256 + k.val) :
    concatenate S29040x384 1 [⟨S29040x128, u0⟩, ⟨S29040x128, u1⟩, ⟨S29040x128, u2⟩] h (ix2 i c) = u2 (ix2 i k) :=
  concatenate_apply_piece (t := S29040x384) 1 [⟨S29040x128, u0⟩, ⟨S29040x128, u1⟩, ⟨S29040x128, u2⟩] h (ix2 i c) 2 (by show (2 : Nat) < 3; decide) S29040x128 u2 rfl rfl 256 rfl (ix2 i k)
    (fun b hb => match b with
      | ⟨0, _⟩ => rfl
      | ⟨1, _⟩ => absurd rfl hb)
    (by show 256 + k.val = c.val; omega)

theorem biasRows_apply {α : Type} (bn : S128.Idx → α) (i : Fin 29040) (j : Fin 128) :
    broadcastInDim S29040x128 ![0, 1] bcast_S1x128_S29040x128_0_1 (broadcastInDim S1x128 ![1] bcast_S128_S1x128_1 bn) (ix2 i j)
      = bn (ix1 j) := by
  refine (broadcastInDim_apply _ bcast_S1x128_S29040x128_0_1 _ (ix2 i j) (ix2 (0 : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])).trans ?_
  exact broadcastInDim_apply _ bcast_S128_S1x128_1 bn (ix2 (0 : Fin 1) j) (ix1 j) (fun a => match a with
    | ⟨0, _⟩ => by show j.val = if (128 : Nat) = 1 then 0 else j.val; rw [if_neg (by decide)])

theorem dot384_apply (lhs : FVec Ideal S29040x384 .f32) (rhs : FVec Ideal S384x128 .f32) (i : Fin 29040) (j : Fin 128) :
    Host.dotGeneral (F := Ideal) dot_S29040x384_S384x128_S29040x128_1_0_0_1_n_n none lhs rhs (ix2 i j) = ∑ k : Fin 384, lhs (ix2 i k) * rhs (ix2 k j) :=
  Cert.LibPlainDot.dotGeneral_apply ⟨rfl, rfl, rfl, rfl, rfl, rfl, rfl, rfl⟩ _ _ _ _

theorem dot128_apply (lhs : FVec Ideal S29040x128 .f32) (rhs : FVec Ideal S128x128 .f32) (i : Fin 29040) (j : Fin 128) :
    Host.dotGeneral (F := Ideal) dot_S29040x128_S128x128_S29040x128_1_0_0_1_n_n none lhs rhs (ix2 i j) = ∑ k : Fin 128, lhs (ix2 i k) * rhs (ix2 k j) :=
  Cert.LibPlainDot.dotGeneral_apply ⟨rfl, rfl, rfl, rfl, rfl, rfl, rfl, rfl⟩ _ _ _ _

theorem parts384 : 128 + 128 + 128 = 384 := rfl

theorem cat_part1 {α : Type} (u0 u1 u2 : S29040x128.Idx → α) (h : Shape.Concatenates [S29040x128, S29040x128, S29040x128] S29040x384 1)
    (i : Fin 29040) (k : Fin 128) :
    concatenate S29040x384 1 [⟨S29040x128, u0⟩, ⟨S29040x128, u1⟩, ⟨S29040x128, u2⟩] h
        (ix2 i (Fin.cast parts384 (Fin.castAdd 128 (Fin.castAdd 128 k)))) = u0 (ix2 i k) :=
  cat_first u0 u1 u2 h i _ k rfl
theorem cat_part2 {α : Type} (u0 u1 u2 : S29040x128.Idx → α) (h : Shape.Concatenates [S29040x128, S29040x128, S29040x128] S29040x384 1)
    (i : Fin 29040) (k : Fin 128) :
    concatenate S29040x384 1 [⟨S29040x128, u0⟩, ⟨S29040x128, u1⟩, ⟨S29040x128, u2⟩] h
        (ix2 i (Fin.cast parts384 (Fin.castAdd 128 (Fin.natAdd 128 k)))) = u1 (ix2 i k) :=
  cat_second u0 u1 u2 h i _ k rfl
theorem cat_part3 {α : Type} (u0 u1 u2 : S29040x128.Idx → α) (h : Shape.Concatenates [S29040x128, S29040x128, S29040x128] S29040x384 1)
    (i : Fin 29040) (k : Fin 128) :
    concatenate S29040x384 1 [⟨S29040x128, u0⟩, ⟨S29040x128, u1⟩, ⟨S29040x128, u2⟩] h
        (ix2 i (Fin.cast parts384 (Fin.natAdd (128 + 128) k))) = u2 (ix2 i k) :=
  cat_third u0 u1 u2 h i _ k rfl

theorem refHid_apply (cat : FVec Ideal S29040x384 .f32) (Wn1 : FVec Ideal S384x128 .f32) (bn1 : FVec Ideal S128 .f32)
    (i : Fin 29040) (j : Fin 128) :
    refHid (F := Ideal) cat Wn1 bn1 (ix2 i j)
      = max ((∑ c : Fin 384, cat (ix2 i c) * Wn1 (ix2 c j)) + bn1 (ix1 j)) (Ideal.ofBits .f32 0x00000000#32) := by
  unfold refHid
  rw [maximumf_apply, addf_apply, dot384_apply, biasRows_apply, scalar_apply]
  rfl

theorem refOutOf_apply (h : FVec Ideal S29040x128 .f32) (cat : FVec Ideal S29040x384 .f32) (Wn1 : FVec Ideal S384x128 .f32)
    (bn1 : FVec Ideal S128 .f32) (Wn2 : FVec Ideal S128x128 .f32) (bn2 : FVec Ideal S128 .f32) (i : Fin 29040) (j : Fin 128) :
    refOutOf (F := Ideal) h cat Wn1 bn1 Wn2 bn2 (ix2 i j)
      = ((∑ k : Fin 128, refHid (F := Ideal) cat Wn1 bn1 (ix2 i k) * Wn2 (ix2 k j)) + bn2 (ix1 j)) + h (ix2 i j) := by
  unfold refOutOf
  rw [addf_apply, addf_apply, dot128_apply, biasRows_apply]

theorem hid_congr {S1 S2 S3 T1 T2 T3 b b' z : EReal} (h1 : S1 = T1) (h2 : S2 = T2) (h3 : S3 = T3) (hb : b = b') :
    max (((S1 + S2) + S3) + b) z = max (((T1 + T2) + T3) + b') z := by
  subst h1 h2 h3 hb; rfl

section Views

variable (h agg : FVec Ideal S29040x128 .f32) (Wn1 : FVec Ideal S384x128 .f32) (bn1 bn2 : FVec Ideal S128 .f32)
  (Wn2 : FVec Ideal S128x128 .f32) (Wa Wb Wc : FVec Ideal ⟨2, ![128, 128]⟩ .f32) (b1 b2 : FVec Ideal ⟨2, ![1, 128]⟩ .f32)

theorem refHid_eq_spec
    (hWa : ∀ (k j : Fin 128), Wa (ix2 k j) = Wn1 (ix2 (⟨k.val, by omega⟩ : Fin 384) j))
    (hWb : ∀ (k j : Fin 128), Wb (ix2 k j) = Wn1 (ix2 (⟨128 + k.val, by omega⟩ : Fin 384) j))
    (hWc : ∀ (k j : Fin 128), Wc (ix2 k j) = Wn1 (ix2 (⟨256 + k.val, by omega⟩ : Fin 384) j))
    (hb1 : ∀ j : Fin 128, b1 (ix2 0 j) = bn1 (ix1 j)) (i : Fin 29040) (j : Fin 128) :
    refHid (F := Ideal) (refCat h agg (refLatAgg agg)) Wn1 bn1 (ix2 i j) = Cert.Spec.Node.hid h agg Wa Wb Wc b1 i j := by
  rw [refHid_apply, Cert.Lib.SumSplit.sum_three_cast 128 128 128 parts384]
  unfold Cert.Spec.Node.hid refCat
  refine hid_congr (Finset.sum_congr rfl fun k _ => ?_) (Finset.sum_congr rfl fun k _ => ?_)
    (Finset.sum_congr rfl fun k _ => ?_) (hb1 j).symm
  · rw [cat_part1]; exact congrArg _ (hWa k j).symm
  · rw [cat_part2]; exact congrArg _ (hWb k j).symm
  · rw [cat_part3, refLatAgg_apply]; exact congrArg _ (hWc k j).symm

theorem refOut_eq_spec
    (hWa : ∀ (k j : Fin 128), Wa (ix2 k j) = Wn1 (ix2 (⟨k.val, by omega⟩ : Fin 384) j))
    (hWb : ∀ (k j : Fin 128), Wb (ix2 k j) = Wn1 (ix2 (⟨128 + k.val, by omega⟩ : Fin 384) j))
    (hWc : ∀ (k j : Fin 128), Wc (ix2 k j) = Wn1 (ix2 (⟨256 + k.val, by omega⟩ : Fin 384) j))
    (hb1 : ∀ j : Fin 128, b1 (ix2 0 j) = bn1 (ix1 j)) (hb2 : ∀ j : Fin 128, b2 (ix2 0 j) = bn2 (ix1 j)) :
    refOut (F := Ideal) h agg (refLatAgg agg) Wn1 bn1 Wn2 bn2 = Cert.Spec.Node.out h agg Wa Wb Wc b1 Wn2 b2 := by
  funext y
  obtain ⟨i, j, rfl⟩ : ∃ (i : Fin 29040) (j : Fin 128), y = ix2 i j := ⟨y 0, y 1, eq_ix2 y⟩
  unfold refOut
  rw [refOutOf_apply]
  show _ = ((∑ k : Fin 128, Cert.Spec.Node.hid h agg Wa Wb Wc b1 i k * Wn2 (ix2 k j)) + b2 (ix2 (0 : Fin 1) j)) + h (ix2 i j)
  simp only [refHid_eq_spec h agg Wn1 bn1 Wa Wb Wc b1 hWa hWb hWc hb1, hb2]

end Views

end Cert.ReferenceIdeal.RefNode

end
-- ==== Proof.RefNodeRun.lean ====
import proofs.«418158_j78065325572140_2_alg».proof.Proof.RefNode
import proofs.«418158_j78065325572140_2_alg».proof.Proof.RefRun
import Idealize.ShloMosaic.Lib.StableHlo.Run

noncomputable section

namespace Cert.ReferenceIdeal.RefNode

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

variable (W : Valuation τ sig (Elt F))

set_option maxHeartbeats 1000000 in
set_option maxRecDepth 65536 in

theorem after_v73 :
    StableHlo.after chunk11 W (Proc.devRef .tc main_v73)
      = refAgg (F := F) (W (Proc.devRef .tc main_v1)) (W (Proc.devRef .tc main_v70)) := by
  unfold refAgg
  after_results_simp <;> (try simp only [TRef.ofBuf, TRef.toBuf, cast_eq]) <;> rfl

set_option maxHeartbeats 1000000 in
set_option maxRecDepth 65536 in

theorem after_v80 :
    StableHlo.after chunk11 W (Proc.devRef .tc main_v80)
      = refLatAgg (F := F) (refAgg (W (Proc.devRef .tc main_v1)) (W (Proc.devRef .tc main_v70))) := by
  unfold refLatAgg refAgg
  after_results_simp <;> (try simp only [TRef.ofBuf, TRef.toBuf, cast_eq]) <;> rfl

set_option maxHeartbeats 1000000 in
set_option maxRecDepth 65536 in

theorem after_v81 :
    StableHlo.after chunk12 W (Proc.devRef .tc main_v81)
      = refCat (F := F) (W (Proc.devRef .tc main_arg0)) (W (Proc.devRef .tc main_v73)) (W (Proc.devRef .tc main_v80)) := by
  unfold refCat
  after_results_simp <;> (try simp only [TRef.ofBuf, TRef.toBuf, cast_eq]) <;> rfl

set_option maxHeartbeats 1000000 in
set_option maxRecDepth 65536 in

theorem after_v91 :
    StableHlo.after chunk13 W (Proc.devRef .tc main_v91)
      = refOutOf (F := F) (W (Proc.devRef .tc main_arg0)) (W (Proc.devRef .tc main_v81)) (W (Proc.devRef .tc main_arg8))
          (W (Proc.devRef .tc main_arg9)) (W (Proc.devRef .tc main_arg10)) (W (Proc.devRef .tc main_arg11)) := by
  unfold refOutOf refHid
  after_results_simp <;> (try simp only [TRef.ofBuf, TRef.toBuf, cast_eq]) <;> rfl

end Cert.ReferenceIdeal.RefNode

end
-- ==== Proof.RefWind.lean ====
import proofs.«418158_j78065325572140_2_alg».proof.Proof.Gen.ReferenceIdeal
import proofs.«418158_j78065325572140_2_alg».proof.Proof.LibPlainDot
import proofs.«418158_j78065325572140_2_alg».proof.Proof.SpecEdge
import Idealize.ShloMosaic.Lib.ValueIdx
import Idealize.ShloMosaic.Lib.Pipeline.Value
import Idealize.ShloMosaic.PureOps.Ideal.Laws
import Idealize.ShloMosaic.Lib.ValueLayout

noncomputable section

namespace Cert.ReferenceIdeal.RefWind

open Cert.ReferenceIdeal Cert.ReferenceIdeal.Gen
open Idealize.ShloMosaic Idealize.ShloMosaic.ValueIdx

section Defs
variable {F : FTy → Type} [FloatOps F]

def coord22 (ft : FVec F S464640x128 .f32) (Wc1 : FVec F S128x128 .f32) (bc1v : FVec F S128 .f32)
    (Wcl : FVec F S128x22 .f32) : FVec F S464640x2x11 .f32 :=
  shapeCast S464640x2x11
    (Host.dotGeneral dot_S464640x128_S128x22_S464640x22_1_0_0_1_n_n none
      (maximumf
        (addf (Host.dotGeneral dot_S464640x128_S128x128_S464640x128_1_0_0_1_n_n none ft Wc1)
          (broadcastInDim S464640x128 ![0, 1] bcast_S1x128_S464640x128_0_1
            (broadcastInDim S1x128 ![1] bcast_S128_S1x128_1 bc1v)))
        (broadcastInDim S464640x128 ![] bcast_S_S464640x128 (constant S_ .f32 0x00000000#32)))
      Wcl)
    shapeCasts_S464640x22_S464640x2x11

def comp (u : FVec F S464640x11 .f32) : FVec F S464640x1x11 .f32 :=
  broadcastInDim S464640x1x11 ![0, 2] bcast_S464640x11_S464640x1x11_0_2 u

def stack (a b : FVec F S464640x1x11 .f32) : FVec F S464640x2x11 .f32 :=
  concatenate S464640x2x11 1 [⟨S464640x1x11, a⟩, ⟨S464640x1x11, b⟩] concatenates_S464640x1x11_S464640x1x11_S464640x2x11_d1

def stackMag (a b : FVec F S464640x1x11 .f32) : FVec F S464640x2x11 .f32 :=
  broadcastInDim S464640x2x11 ![0, 1, 2] bcast_S464640x2x1_S464640x2x11_0_1_2
    (broadcastInDim S464640x2x1 ![0, 1] bcast_S464640x2_S464640x2x1_0_1
      (Host.sqrt (Host.reduceAdd (mulf (stack a b) (stack a b)) (constant S_ .f32 0x00000000#32)
        reducesTo_S464640x2x11_S464640x2_d2 h_S_)))

def scaled (x : FVec F S464640x2x11 .f32) (a b : FVec F S464640x1x11 .f32) : FVec F S464640x2x11 .f32 :=
  mulf x (stackMag a b)

def refWind (ft : FVec F S464640x128 .f32) (uc vc : FVec F S464640x11 .f32) (Wc1 : FVec F S128x128 .f32)
    (bc1v : FVec F S128 .f32) (Wcl : FVec F S128x22 .f32) : FVec F S464640x2x11 .f32 :=
  scaled (coord22 ft Wc1 bc1v Wcl) (comp uc) (comp vc)

end Defs

theorem dot_c128_apply (A : FVec Ideal S464640x128 .f32) (B : FVec Ideal S128x128 .f32) (e : Fin 464640) (j : Fin 128) :
    Host.dotGeneral dot_S464640x128_S128x128_S464640x128_1_0_0_1_n_n none A B (ix2 e j)
      = ∑ k : Fin 128, A (ix2 e k) * B (ix2 k j) :=
  Cert.LibPlainDot.dotGeneral_apply ⟨rfl, rfl, rfl, rfl, rfl, rfl, rfl, rfl⟩ _ _ _ _

theorem dot_c22_apply (A : FVec Ideal S464640x128 .f32) (B : FVec Ideal S128x22 .f32) (e : Fin 464640) (q : Fin 22) :
    Host.dotGeneral dot_S464640x128_S128x22_S464640x22_1_0_0_1_n_n none A B (ix2 e q)
      = ∑ k : Fin 128, A (ix2 e k) * B (ix2 k q) :=
  Cert.LibPlainDot.dotGeneral_apply ⟨rfl, rfl, rfl, rfl, rfl, rfl, rfl, rfl⟩ _ _ _ _

theorem bias_apply (b : FVec Ideal S128 .f32) (e : Fin 464640) (j : Fin 128) :
    broadcastInDim S464640x128 ![0, 1] bcast_S1x128_S464640x128_0_1 (broadcastInDim S1x128 ![1] bcast_S128_S1x128_1 b) (ix2 e j)
      = b (ix1 j) := by
  refine (broadcastInDim_apply _ bcast_S1x128_S464640x128_0_1 _ (ix2 e j) (ix2 (0 : Fin 1) j) fun a => ?_).trans ?_
  · match a with
    | ⟨0, _⟩ => rfl
    | ⟨1, _⟩ => rfl
  · exact broadcastInDim_apply _ bcast_S128_S1x128_1 b (ix2 (0 : Fin 1) j) (ix1 j) fun a => by
      match a with
      | ⟨0, _⟩ => rfl

theorem reshape_apply (X : FVec Ideal S464640x22 .f32) (e : Fin 464640) (c : Fin 2) (l : Fin 11) :
    shapeCast S464640x2x11 X shapeCasts_S464640x22_S464640x2x11 (ix3 e c l)
      = X (ix2 e (⟨11 * c.val + l.val, by omega⟩ : Fin 22)) := by
  refine shapeCast_apply X shapeCasts_S464640x22_S464640x2x11 (ix3 e c l) _ ?_
  rw [Shape.rowMajor_val_two, Shape.rowMajor_val_three]
  show e.val * 22 + (11 * c.val + l.val) = (e.val * 2 + c.val) * 11 + l.val
  omega

theorem comp_apply (u : FVec Ideal S464640x11 .f32) (e : Fin 464640) (z : Fin 1) (l : Fin 11) :
    comp u (ix3 e z l) = u (ix2 e l) := by
  unfold comp
  exact broadcastInDim_apply _ bcast_S464640x11_S464640x1x11_0_2 u (ix3 e z l) (ix2 e l) fun a => by
    match a with
    | ⟨0, _⟩ => rfl
    | ⟨1, _⟩ => rfl

theorem stack_apply_zero (a b : FVec Ideal S464640x1x11 .f32) (e : Fin 464640) (l : Fin 11) :
    stack a b (ix3 e (0 : Fin 2) l) = a (ix3 e (0 : Fin 1) l) := by
  unfold stack
  exact concatenate_pair_apply_left 1 a b concatenates_S464640x1x11_S464640x1x11_S464640x2x11_d1 (ix3 e (0 : Fin 2) l) rfl
    (ix3 e (0 : Fin 1) l) fun d => by
      match d with
      | ⟨0, _⟩ => rfl
      | ⟨1, _⟩ => rfl
      | ⟨2, _⟩ => rfl

theorem stack_apply_one (a b : FVec Ideal S464640x1x11 .f32) (e : Fin 464640) (l : Fin 11) :
    stack a b (ix3 e (1 : Fin 2) l) = b (ix3 e (0 : Fin 1) l) := by
  unfold stack
  exact concatenate_pair_apply_right 1 a b concatenates_S464640x1x11_S464640x1x11_S464640x2x11_d1 (ix3 e (1 : Fin 2) l) rfl rfl
    (ix3 e (0 : Fin 1) l)
    (fun d => by
      match d with
      | ⟨0, _⟩ => exact fun _ => rfl
      | ⟨1, _⟩ => exact fun h => absurd rfl h
      | ⟨2, _⟩ => exact fun _ => rfl)
    rfl

theorem rowsum_apply (X : FVec Ideal S464640x2x11 .f32) (e : Fin 464640) (c : Fin 2) :
    Host.reduceAdd X (constant (F := Ideal) S_ .f32 0x00000000#32) reducesTo_S464640x2x11_S464640x2_d2 h_S_ (ix2 e c)
      = ∑ l : Fin 11, X (ix3 e c l) := by
  simp only [Host.reduceAdd, Ideal.hostReduceAdd_def]
  rw [Ideal.hostReduceAdd_single reducesTo_S464640x2x11_S464640x2_d2 (by decide)]
  show Ideal.ofBits .f32 0x00000000#32 + ∑ l : Fin 11, _ = _
  rw [Ideal.ofBits_zero_f32, zero_add]
  refine Finset.sum_congr rfl fun k _ => ?_
  exact congrArg X (funext fun a => Fin.ext (by match a with | ⟨0, _⟩ => rfl | ⟨1, _⟩ => rfl | ⟨2, _⟩ => rfl))

theorem stackMag_apply (a b : FVec Ideal S464640x1x11 .f32) (e : Fin 464640) (c : Fin 2) (l : Fin 11) :
    stackMag a b (ix3 e c l)
      = FloatOps.sqrt (F := Ideal) (∑ l' : Fin 11, stack a b (ix3 e c l') * stack a b (ix3 e c l')) := by
  unfold stackMag
  refine (broadcastInDim_apply _ bcast_S464640x2x1_S464640x2x11_0_1_2 _ (ix3 e c l) (ix3 e c (0 : Fin 1)) fun d => ?_).trans ?_
  · match d with
    | ⟨0, _⟩ => rfl
    | ⟨1, _⟩ => rfl
    | ⟨2, _⟩ => rfl
  refine (broadcastInDim_apply _ bcast_S464640x2_S464640x2x1_0_1 _ (ix3 e c (0 : Fin 1)) (ix2 e c) fun d => ?_).trans ?_
  · match d with
    | ⟨0, _⟩ => rfl
    | ⟨1, _⟩ => rfl
  show FloatOps.hostUnary .sqrt (Host.reduceAdd _ _ reducesTo_S464640x2x11_S464640x2_d2 h_S_ (ix2 e c)) = _
  rw [rowsum_apply]
  rfl

theorem coord22_apply (ft : FVec Ideal S464640x128 .f32) (Wc1 : FVec Ideal S128x128 .f32) (bc1v : FVec Ideal S128 .f32)
    (Wcl : FVec Ideal S128x22 .f32) (e : Fin 464640) (c : Fin 2) (l : Fin 11) :
    coord22 ft Wc1 bc1v Wcl (ix3 e c l)
      = ∑ k : Fin 128, FloatOps.maximumf (F := Ideal)
          ((∑ k' : Fin 128, ft (ix2 e k') * Wc1 (ix2 k' k)) + bc1v (ix1 k))
          (FloatOps.ofBits (F := Ideal) .f32 0x00000000#32) * Wcl (ix2 k (⟨11 * c.val + l.val, by omega⟩ : Fin 22)) := by
  unfold coord22
  rw [reshape_apply, dot_c22_apply]
  refine Finset.sum_congr rfl fun k _ => ?_
  rw [maximumf_apply, addf_apply, dot_c128_apply, bias_apply]
  rfl

theorem wind_apply {n : Nat} (hr hc : FVec Ideal (Cert.Spec.Edge.SE128 n) .f32) (ur vr uc vc : FVec Ideal (Cert.Spec.Edge.SE11 n) .f32)
    (ea : FVec Ideal (Cert.Spec.Edge.SE1 n) .f32) (Wa Wb : FVec Ideal Cert.Spec.Edge.SW .f32) (Wc : FVec Ideal Cert.Spec.Edge.SW34 .f32)
    (b1 : FVec Ideal Cert.Spec.Edge.SB .f32) (W2 : FVec Ideal Cert.Spec.Edge.SW .f32) (b2 : FVec Ideal Cert.Spec.Edge.SB .f32)
    (Wc1 : FVec Ideal Cert.Spec.Edge.SW .f32) (bc1 : FVec Ideal Cert.Spec.Edge.SB .f32) (Wcl : FVec Ideal Cert.Spec.Edge.SW22 .f32)
    (e : Fin n) (q : Fin 22) :
    Cert.Spec.Edge.wind hr hc ur vr uc vc ea Wa Wb Wc b1 W2 b2 Wc1 bc1 Wcl (ix2 e q)
      = (∑ k : Fin 128, FloatOps.maximumf (F := Ideal)
            ((∑ k' : Fin 128, Cert.Spec.Edge.feat hr hc ur vr uc vc ea Wa Wb Wc b1 W2 b2 (ix2 e k') * Wc1 (ix2 k' k)) + bc1 (ix2 0 k))
            (FloatOps.ofBits (F := Ideal) .f32 0x00000000#32) * Wcl (ix2 k q))
        * (if q.val < 11 then FloatOps.sqrt (F := Ideal) (∑ l : Fin 11, uc (ix2 e l) * uc (ix2 e l))
            else FloatOps.sqrt (F := Ideal) (∑ l : Fin 11, vc (ix2 e l) * vc (ix2 e l))) := rfl

section Main
variable (hr hc : FVec Ideal (Cert.Spec.Edge.SE128 464640) .f32) (ur vr uc vc : FVec Ideal (Cert.Spec.Edge.SE11 464640) .f32)
  (ea : FVec Ideal (Cert.Spec.Edge.SE1 464640) .f32) (Wa Wb : FVec Ideal Cert.Spec.Edge.SW .f32) (Wc : FVec Ideal Cert.Spec.Edge.SW34 .f32)
  (b1 : FVec Ideal Cert.Spec.Edge.SB .f32) (W2 : FVec Ideal Cert.Spec.Edge.SW .f32) (b2 : FVec Ideal Cert.Spec.Edge.SB .f32)
  (Wc1 : FVec Ideal S128x128 .f32) (bc1v : FVec Ideal S128 .f32) (Wcl : FVec Ideal S128x22 .f32)
  (bc1 : FVec Ideal ⟨2, ![1, 128]⟩ .f32)

theorem refWind_eq_spec_zero (hbc1 : ∀ j : Fin 128, bc1 (ix2 0 j) = bc1v (ix1 j)) (e : Fin 464640) (l : Fin 11) :
    refWind (Cert.Spec.Edge.feat (n := 464640) hr hc ur vr uc vc ea Wa Wb Wc b1 W2 b2) uc vc Wc1 bc1v Wcl (ix3 e (0 : Fin 2) l)
      = Cert.Spec.Edge.wind (n := 464640) hr hc ur vr uc vc ea Wa Wb Wc b1 W2 b2 Wc1 bc1 Wcl
          (ix2 e (⟨11 * (0 : Fin 2).val + l.val, by omega⟩ : Fin 22)) := by
  unfold refWind scaled
  rw [mulf_apply, coord22_apply, stackMag_apply, wind_apply, if_pos (show 11 * (0 : Fin 2).val + l.val < 11 by show 11 * 0 + l.val < 11; omega)]
  simp only [stack_apply_zero, comp_apply, hbc1]

theorem refWind_eq_spec_one (hbc1 : ∀ j : Fin 128, bc1 (ix2 0 j) = bc1v (ix1 j)) (e : Fin 464640) (l : Fin 11) :
    refWind (Cert.Spec.Edge.feat (n := 464640) hr hc ur vr uc vc ea Wa Wb Wc b1 W2 b2) uc vc Wc1 bc1v Wcl (ix3 e (1 : Fin 2) l)
      = Cert.Spec.Edge.wind (n := 464640) hr hc ur vr uc vc ea Wa Wb Wc b1 W2 b2 Wc1 bc1 Wcl
          (ix2 e (⟨11 * (1 : Fin 2).val + l.val, by omega⟩ : Fin 22)) := by
  unfold refWind scaled
  rw [mulf_apply, coord22_apply, stackMag_apply, wind_apply, if_neg (show ¬ 11 * (1 : Fin 2).val + l.val < 11 by show ¬ 11 * 1 + l.val < 11; omega)]
  simp only [stack_apply_one, comp_apply, hbc1]

theorem refWind_eq_spec (hbc1 : ∀ j : Fin 128, bc1 (ix2 0 j) = bc1v (ix1 j)) (e : Fin 464640) (c : Fin 2) (l : Fin 11) :
    refWind (Cert.Spec.Edge.feat (n := 464640) hr hc ur vr uc vc ea Wa Wb Wc b1 W2 b2) uc vc Wc1 bc1v Wcl (ix3 e c l)
      = Cert.Spec.Edge.wind (n := 464640) hr hc ur vr uc vc ea Wa Wb Wc b1 W2 b2 Wc1 bc1 Wcl
          (ix2 e (⟨11 * c.val + l.val, by omega⟩ : Fin 22)) := by
  revert c
  exact Fin.forall_fin_two.2 ⟨refWind_eq_spec_zero hr hc ur vr uc vc ea Wa Wb Wc b1 W2 b2 Wc1 bc1v Wcl bc1 hbc1 e l,
    refWind_eq_spec_one hr hc ur vr uc vc ea Wa Wb Wc b1 W2 b2 Wc1 bc1v Wcl bc1 hbc1 e l⟩

end Main

end Cert.ReferenceIdeal.RefWind

end
-- ==== Proof.RefWindRun.lean ====
import proofs.«418158_j78065325572140_2_alg».proof.Proof.RefWind
import proofs.«418158_j78065325572140_2_alg».proof.Proof.RefRun
import Idealize.ShloMosaic.Lib.StableHlo.Run

noncomputable section

namespace Cert.ReferenceIdeal.RefWind

open Cert.ReferenceIdeal Cert.ReferenceIdeal.Gen
open Idealize.ShloMosaic Idealize.ShloMosaic.TcCoe Idealize.SL.Sem Idealize.ShloMosaic.StableHlo Cert.ReferenceIdeal.RunP

section ReadBack
variable {F : FTy → Type} [FloatOps F] (W : Valuation τ sig (Elt F))

set_option maxHeartbeats 1000000 in
set_option maxRecDepth 65536 in

theorem after_coord22 :
    StableHlo.after chunk14 W (Proc.devRef .tc main_v98)
      = coord22 (F := F) (W (Proc.devRef .tc main_v70)) (W (Proc.devRef .tc main_arg12)) (W (Proc.devRef .tc main_arg13))
          (W (Proc.devRef .tc main_arg14)) := by
  unfold coord22
  after_results_simp <;> (try simp only [TRef.ofBuf, TRef.toBuf, cast_eq]) <;> rfl

set_option maxHeartbeats 1000000 in
set_option maxRecDepth 65536 in

theorem after_comp_uc :
    StableHlo.after chunk14 W (Proc.devRef .tc main_v99) = comp (F := F) (W (Proc.devRef .tc main_v10)) := by
  unfold comp
  after_results_simp <;> (try simp only [TRef.ofBuf, TRef.toBuf, cast_eq]) <;> rfl

set_option maxHeartbeats 1000000 in
set_option maxRecDepth 65536 in

theorem after_comp_vc :
    StableHlo.after chunk14 W (Proc.devRef .tc main_v100) = comp (F := F) (W (Proc.devRef .tc main_v17)) := by
  unfold comp
  after_results_simp <;> (try simp only [TRef.ofBuf, TRef.toBuf, cast_eq]) <;> rfl

set_option maxHeartbeats 1000000 in
set_option maxRecDepth 65536 in

theorem after_scaled :
    StableHlo.after chunk15 W (Proc.devRef .tc main_v107)
      = scaled (F := F) (W (Proc.devRef .tc main_v98)) (W (Proc.devRef .tc main_v99)) (W (Proc.devRef .tc main_v100)) := by
  unfold scaled stackMag stack
  after_results_simp <;> (try simp only [TRef.ofBuf, TRef.toBuf, cast_eq]) <;> rfl

theorem after_refWind :
    StableHlo.after chunk15 (StableHlo.after chunk14 W) (Proc.devRef .tc main_v107)
      = refWind (F := F) (W (Proc.devRef .tc main_v70)) (W (Proc.devRef .tc main_v10)) (W (Proc.devRef .tc main_v17))
          (W (Proc.devRef .tc main_arg12)) (W (Proc.devRef .tc main_arg13)) (W (Proc.devRef .tc main_arg14)) := by
  rw [after_scaled, after_coord22, after_comp_uc, after_comp_vc]
  rfl

end ReadBack

end Cert.ReferenceIdeal.RefWind

end
-- ==== Proof.RefTail.lean ====
import proofs.«418158_j78065325572140_2_alg».proof.Proof.Gen.ReferenceIdeal

noncomputable section

namespace Cert.ReferenceIdeal.RefTail

open Cert.ReferenceIdeal Cert.ReferenceIdeal.Gen Idealize.ShloMosaic Idealize.ShloMosaic.TcCoe Idealize.SL.Sem
open Cert.ReferenceIdeal.Facts

variable {F : FTy → Type} [FloatOps F]

def refRowCol (idx : IVec S464640 32) : IVec S464640x1 32 :=
  broadcastInDim S464640x1 ![0] bcast_S464640_S464640x1_0 idx

def refCntOf (idx : IVec S464640 32) : FVec F S29040 .f32 :=
  Host.scatterAdd scatter_S29040_S464640x1_S464640_n_0_0_1
    (broadcastInDim S29040 ![] bcast_S_S29040 (constant S_ .f32 0x00000000#32)) (refRowCol idx)
    (broadcastInDim S464640 ![] bcast_S_S464640 (constant S_ .f32 0x3F800000#32))

def refCntCol (idx : IVec S464640 32) : FVec F S29040x1 .f32 :=
  broadcastInDim S29040x1 ![0] bcast_S29040_S29040x1_0
    (maximumf (refCntOf (F := F) idx) (broadcastInDim S29040 ![] bcast_S_S29040 (constant S_ .f32 0x3F800000#32)))

def refComp0 (wind3 : FVec F S464640x2x11 .f32) : FVec F S464640x11 .f32 :=
  shapeCast S464640x11 (extractStridedSlice S464640x1x11 ![0, 0, 0] wind3 slices_S464640x2x11_S464640x1x11_0_0_0)
    shapeCasts_S464640x1x11_S464640x11

def refComp1 (wind3 : FVec F S464640x2x11 .f32) : FVec F S464640x11 .f32 :=
  shapeCast S464640x11 (extractStridedSlice S464640x1x11 ![0, 1, 0] wind3 slices_S464640x2x11_S464640x1x11_0_1_0)
    shapeCasts_S464640x1x11_S464640x11

def refSum11 (idx : IVec S464640 32) (u : FVec F S464640x11 .f32) : FVec F S29040x11 .f32 :=
  Host.scatterAdd scatter_S29040x11_S464640x1_S464640x11_1_0_0_1
    (broadcastInDim S29040x11 ![] bcast_S_S29040x11 (constant S_ .f32 0x00000000#32)) (refRowCol idx) u

def refMeanOf (s : FVec F S29040x11 .f32) (cnt : FVec F S29040x1 .f32) : FVec F S29040x11 .f32 :=
  Host.divf s (broadcastInDim S29040x11 ![0, 1] bcast_S29040x1_S29040x11_0_1 cnt)

def refClip (lo hi : FVec F S_ .f32) (x : FVec F S29040x11 .f32) : FVec F S29040x11 .f32 :=
  minimumf (broadcastInDim S29040x11 ![] bcast_S_S29040x11 hi)
    (maximumf (broadcastInDim S29040x11 ![] bcast_S_S29040x11 lo) x)

def refClip11 (x : FVec F S29040x11 .f32) : FVec F S29040x11 .f32 :=
  refClip (constant S_ .f32 0xC2C80000#32) (constant S_ .f32 0x42C80000#32) x

def refMeanU (idx : IVec S464640 32) (wind3 : FVec F S464640x2x11 .f32) : FVec F S29040x11 .f32 :=
  refClip11 (refMeanOf (refSum11 idx (refComp0 wind3)) (refCntCol idx))

def refMeanV (idx : IVec S464640 32) (wind3 : FVec F S464640x2x11 .f32) : FVec F S29040x11 .f32 :=
  refClip11 (refMeanOf (refSum11 idx (refComp1 wind3)) (refCntCol idx))

end Cert.ReferenceIdeal.RefTail

end
-- ==== Proof.RefTailRun.lean ====
import proofs.«418158_j78065325572140_2_alg».proof.Proof.RefTail
import proofs.«418158_j78065325572140_2_alg».proof.Proof.RefRun
import Idealize.ShloMosaic.Lib.StableHlo.Run

noncomputable section

namespace Cert.ReferenceIdeal.RefTail

open Cert.ReferenceIdeal Cert.ReferenceIdeal.Gen Idealize.ShloMosaic Idealize.ShloMosaic.TcCoe Idealize.SL.Sem Idealize.ShloMosaic.StableHlo
open Cert.ReferenceIdeal.Facts
open Cert.ReferenceIdeal.RunP

variable {F : FTy → Type} [FloatOps F]

variable (W : Valuation τ sig (Elt F))

set_option maxHeartbeats 1000000 in
set_option maxRecDepth 65536 in

theorem after_v122 :
    StableHlo.after chunk16 W (Proc.devRef .tc main_v122)
      = refMeanU (F := F) (W (Proc.devRef .tc main_v1)) (W (Proc.devRef .tc main_v107)) := by
  unfold refMeanU refClip11 refClip refMeanOf refSum11 refComp0 refCntCol refCntOf refRowCol
  after_results_simp <;> (try simp only [TRef.ofBuf, TRef.toBuf, cast_eq]) <;> rfl

set_option maxHeartbeats 1000000 in
set_option maxRecDepth 65536 in

theorem after_v130 :
    StableHlo.after chunk16 W (Proc.devRef .tc main_v130)
      = refMeanV (F := F) (W (Proc.devRef .tc main_v1)) (W (Proc.devRef .tc main_v107)) := by
  unfold refMeanV refClip11 refClip refMeanOf refSum11 refComp1 refCntCol refCntOf refRowCol
  after_results_simp <;> (try simp only [TRef.ofBuf, TRef.toBuf, cast_eq]) <;> rfl

end Cert.ReferenceIdeal.RefTail

end
-- ==== Proof.LibRowGather.lean ====
import Idealize.ShloMosaic.PureOps.ShapeOps
import Idealize.ShloMosaic.Lib.ValueIdx

noncomputable section

namespace Cert.Lib.RowGather

open Idealize.ShloMosaic Idealize.ShloMosaic.ValueIdx

variable {α : Type}

/-- Dimension numbers of a gather of whole rows: row `e` of the result is the operand's row at index `e`. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev rowIdx {E : Nat} (e : Fin E) : (⟨2, ![E, 1]⟩ : Shape).Idx := ix2 e (0 : Fin 1)

section
variable {N E C w : Nat}
  (wf : GatherDims.WF ⟨2, ![N, C]⟩ ⟨2, ![E, 1]⟩ ⟨2, ![E, C]⟩ [1] [0] [] [0] [] 1 ![1, C])
  (idx : IVec ⟨2, ![E, 1]⟩ w) (e : Fin E) (j : Fin C)

theorem start_row : (rowDims N E C wf).start (ix2 e j) idx (0 : Fin 2) = min (idx (rowIdx e)).toInt.toNat (N - 1) := by
  unfold GatherDims.start
  rw [dif_pos (show (0 : Fin 2) ∈ (rowDims N E C wf).startIndexMap from List.mem_singleton.mpr rfl)]
  have hsi : (rowDims N E C wf).siIdx (ix2 e j) ⟨List.idxOf (0 : Fin 2) (rowDims N E C wf).startIndexMap,
      List.idxOf_lt_length_iff.2 (List.mem_singleton.mpr rfl)⟩ = rowIdx e := by
    funext b; refine Fin.ext ?_
    match b with
    | ⟨0, _⟩ => rfl
    | ⟨1, _⟩ => rfl
  rw [hsi]
  rfl

theorem start_col : (rowDims N E C wf).start (ix2 e j) idx (1 : Fin 2) = 0 := by
  unfold GatherDims.start
  rw [dif_neg (show ¬ (1 : Fin 2) ∈ ([0] : List (Fin 2)) from by decide)]

theorem off_row : (rowDims N E C wf).offCoord (ix2 e j) (0 : Fin 2) = 0 :=
  GatherDims.offCoord_eq_zero _ _ _ (fun h => ((GatherDims.mem_sKept _ _).mp h).1 (List.mem_singleton.mpr rfl))

theorem off_col : (rowDims N E C wf).offCoord (ix2 e j) (1 : Fin 2) = j.val := by
  unfold GatherDims.offCoord
  rw [dif_pos ((GatherDims.mem_sKept _ _).mpr ⟨show ¬ (1 : Fin 2) ∈ ([0] : List (Fin 2)) from by decide, List.not_mem_nil⟩)]
  rfl

/-- A row gather at an entry: the operand at the index's row, clamped to the last row, and the same column. -/
theorem row_gather_apply (hN : 0 < N) (x : (⟨2, ![N, C]⟩ : Shape).Idx → α) :
    Host.gather (rowDims N E C wf) x idx (ix2 e j)
      = x (ix2 (⟨min (idx (rowIdx e)).toInt.toNat (N - 1), by omega⟩ : Fin N) j) := by
  unfold Host.gather
  congr 1
  funext a
  refine Fin.ext ?_
  show (rowDims N E C wf).start (ix2 e j) idx a + (rowDims N E C wf).batchCoord (ix2 e j) a
      + (rowDims N E C wf).offCoord (ix2 e j) a = _
  rw [GatherDims.batchCoord_eq_zero _ _ _ List.not_mem_nil, Nat.add_zero]
  match a with
  | ⟨0, _⟩ => exact (congrArg₂ (· + ·) (start_row wf idx e j) (off_row wf e j)).trans (Nat.add_zero _)
  | ⟨1, _⟩ => exact (congrArg₂ (· + ·) (start_col wf idx e j) (off_col wf e j)).trans (Nat.zero_add _)

/-- An index below the row count is not clamped. -/
theorem row_gather_apply_of_lt {idx : IVec ⟨2, ![E, 1]⟩ 32} (x : (⟨2, ![N, C]⟩ : Shape).Idx → α)
    (hN31 : N < 2 ^ 31) (h : (idx (rowIdx e)).toNat < N) :
    Host.gather (rowDims N E C wf) x idx (ix2 e j) = x (ix2 (⟨(idx (rowIdx e)).toNat, h⟩ : Fin N) j) := by
  rw [row_gather_apply wf idx e j (by omega) x]
  have hi : (idx (rowIdx e)).toInt = ((idx (rowIdx e)).toNat : ℤ) := by
    apply BitVec.toInt_eq_toNat_of_lt
    omega
  have hm : min (idx (rowIdx e)).toInt.toNat (N - 1) = (idx (rowIdx e)).toNat := by
    rw [hi, Int.toNat_natCast]; omega
  congr 1
  funext a
  refine Fin.ext ?_
  match a with
  | ⟨0, _⟩ => exact hm
  | ⟨1, _⟩ => rfl
end

end Cert.Lib.RowGather

end
-- ==== Proof.RefGather.lean ====
import proofs.«418158_j78065325572140_2_alg».proof.Proof.Gen.ReferenceIdeal
import proofs.«418158_j78065325572140_2_alg».proof.Proof.LibRowGather
import Idealize.ShloMosaic.Lib.StableHlo.Predicate
import Idealize.ShloMosaic.Lib.Pipeline.Value
import Idealize.ShloMosaic.Lib.ValueIdx

noncomputable section

namespace Cert.ReferenceIdeal.RefGather

open Cert.ReferenceIdeal Cert.ReferenceIdeal.Gen Idealize.ShloMosaic Idealize.ShloMosaic.ValueIdx

variable {F : FTy → Type} [FloatOps F]

def refWrapped (idx : IVec S464640 32) : IVec S464640x1 32 :=
  broadcastInDim S464640x1 ![0] bcast_S464640_S464640x1_0
    (select (cmpi .slt idx (broadcastInDim S464640 ![] bcast_S_S464640 (constantI S_ 32 0#32)))
      (addi idx (broadcastInDim S464640 ![] bcast_S_S464640 (constantI S_ 32 29040#32))) idx)

def refGather11 (x : FVec F S29040x11 .f32) (idx : IVec S464640 32) : FVec F S464640x11 .f32 :=
  Host.gather gather_S29040x11_S464640x1_S464640x11_1_0_n_n_0_1_111 x (refWrapped idx)

def refGather128 (x : FVec F S29040x128 .f32) (idx : IVec S464640 32) : FVec F S464640x128 .f32 :=
  Host.gather gather_S29040x128_S464640x1_S464640x128_1_0_n_n_0_1_1128 x (refWrapped idx)

variable (idx : IVec S464640 32) (e : Fin 464640)

theorem refWrapped_apply_of_lt (h : (idx (ix1 e)).toNat < 29040) :
    refWrapped idx (ix2 e (0 : Fin 1)) = idx (ix1 e) := by
  unfold refWrapped
  rw [broadcastInDim_apply ![0] bcast_S464640_S464640x1_0 _ (ix2 e (0 : Fin 1)) (ix1 e)
    (fun a => by match a with | ⟨0, _⟩ => rfl)]
  rw [select_apply]
  have hc : cmpi .slt idx (broadcastInDim S464640 ![] bcast_S_S464640 (constantI S_ 32 0#32)) (ix1 e) = 0#1 := by
    apply eq_zero_of_ne_one
    intro h1
    have h2 : IntOp.cmpi .slt (idx (ix1 e)) (0#32) = 1#1 := h1
    have := (StableHlo.Predicate.slt_iff_toNat (a := idx (ix1 e)) (b := 0#32) (by omega) (by decide)).1 h2
    simp at this
  rw [hc, select_zero]

theorem refGather11_apply_of_lt (x : FVec F S29040x11 .f32) (j : Fin 11) (h : (idx (ix1 e)).toNat < 29040) :
    refGather11 x idx (ix2 e j) = x (ix2 (⟨(idx (ix1 e)).toNat, h⟩ : Fin 29040) j) := by
  have hw := refWrapped_apply_of_lt idx e h
  unfold refGather11
  show Host.gather (Cert.Lib.RowGather.rowDims 29040 464640 11
      gather_S29040x11_S464640x1_S464640x11_1_0_n_n_0_1_111_wf) x (refWrapped idx) (ix2 e j) = _
  have hlt : ((refWrapped idx) (Cert.Lib.RowGather.rowIdx e)).toNat < 29040 := by
    show ((refWrapped idx) (ix2 e (0 : Fin 1))).toNat < 29040
    rw [hw]; exact h
  rw [Cert.Lib.RowGather.row_gather_apply_of_lt _ e j x (by decide) hlt]
  congr 1
  funext a
  refine Fin.ext ?_
  match a with
  | ⟨0, _⟩ => show ((refWrapped idx) (ix2 e (0 : Fin 1))).toNat = (idx (ix1 e)).toNat; rw [hw]
  | ⟨1, _⟩ => rfl

theorem refGather128_apply_of_lt (x : FVec F S29040x128 .f32) (j : Fin 128) (h : (idx (ix1 e)).toNat < 29040) :
    refGather128 x idx (ix2 e j) = x (ix2 (⟨(idx (ix1 e)).toNat, h⟩ : Fin 29040) j) := by
  have hw := refWrapped_apply_of_lt idx e h
  unfold refGather128
  show Host.gather (Cert.Lib.RowGather.rowDims 29040 464640 128
      gather_S29040x128_S464640x1_S464640x128_1_0_n_n_0_1_1128_wf) x (refWrapped idx) (ix2 e j) = _
  have hlt : ((refWrapped idx) (Cert.Lib.RowGather.rowIdx e)).toNat < 29040 := by
    show ((refWrapped idx) (ix2 e (0 : Fin 1))).toNat < 29040
    rw [hw]; exact h
  rw [Cert.Lib.RowGather.row_gather_apply_of_lt _ e j x (by decide) hlt]
  congr 1
  funext a
  refine Fin.ext ?_
  match a with
  | ⟨0, _⟩ => show ((refWrapped idx) (ix2 e (0 : Fin 1))).toNat = (idx (ix1 e)).toNat; rw [hw]
  | ⟨1, _⟩ => rfl

end Cert.ReferenceIdeal.RefGather

end
-- ==== Proof.RefGatherRun.lean ====
import proofs.«418158_j78065325572140_2_alg».proof.Proof.RefGather
import proofs.«418158_j78065325572140_2_alg».proof.Proof.RefRun
import Idealize.ShloMosaic.Lib.StableHlo.Run

noncomputable section

namespace Cert.ReferenceIdeal.RefGather

open Cert.ReferenceIdeal Cert.ReferenceIdeal.Gen
open Idealize.ShloMosaic Idealize.ShloMosaic.TcCoe Idealize.SL.Sem Idealize.ShloMosaic.StableHlo Cert.ReferenceIdeal.RunP

variable {F : FTy → Type} [FloatOps F] (W : Valuation τ sig (Elt F))

set_option maxHeartbeats 1000000 in
set_option maxRecDepth 65536 in

theorem after_gather_uc :
    StableHlo.after chunk1 W (Proc.devRef .tc main_v10)
      = refGather11 (F := F) (W (Proc.devRef .tc main_arg1)) (W (Proc.devRef .tc main_v3)) := by
  unfold refGather11 refWrapped
  after_results_simp <;> (try simp only [TRef.ofBuf, TRef.toBuf, cast_eq]) <;> rfl

set_option maxHeartbeats 1000000 in
set_option maxRecDepth 65536 in

theorem after_gather_vc :
    StableHlo.after chunk2 W (Proc.devRef .tc main_v17)
      = refGather11 (F := F) (W (Proc.devRef .tc main_arg2)) (W (Proc.devRef .tc main_v3)) := by
  unfold refGather11 refWrapped
  after_results_simp <;> (try simp only [TRef.ofBuf, TRef.toBuf, cast_eq]) <;> rfl

set_option maxHeartbeats 1000000 in
set_option maxRecDepth 65536 in

theorem after_gather_ur :
    StableHlo.after chunk3 W (Proc.devRef .tc main_v24)
      = refGather11 (F := F) (W (Proc.devRef .tc main_arg1)) (W (Proc.devRef .tc main_v1)) := by
  unfold refGather11 refWrapped
  after_results_simp <;> (try simp only [TRef.ofBuf, TRef.toBuf, cast_eq]) <;> rfl

set_option maxHeartbeats 1000000 in
set_option maxRecDepth 65536 in

theorem after_gather_vr :
    StableHlo.after chunk4 W (Proc.devRef .tc main_v31)
      = refGather11 (F := F) (W (Proc.devRef .tc main_arg2)) (W (Proc.devRef .tc main_v1)) := by
  unfold refGather11 refWrapped
  after_results_simp <;> (try simp only [TRef.ofBuf, TRef.toBuf, cast_eq]) <;> rfl

set_option maxHeartbeats 1000000 in
set_option maxRecDepth 65536 in

theorem after_gather_hr :
    StableHlo.after chunk7 W (Proc.devRef .tc main_v52)
      = refGather128 (F := F) (W (Proc.devRef .tc main_arg0)) (W (Proc.devRef .tc main_v1)) := by
  unfold refGather128 refWrapped
  after_results_simp <;> (try simp only [TRef.ofBuf, TRef.toBuf, cast_eq]) <;> rfl

set_option maxHeartbeats 1000000 in
set_option maxRecDepth 65536 in

theorem after_gather_hc :
    StableHlo.after chunk8 W (Proc.devRef .tc main_v59)
      = refGather128 (F := F) (W (Proc.devRef .tc main_arg0)) (W (Proc.devRef .tc main_v3)) := by
  unfold refGather128 refWrapped
  after_results_simp <;> (try simp only [TRef.ofBuf, TRef.toBuf, cast_eq]) <;> rfl

end Cert.ReferenceIdeal.RefGather

end
-- ==== Proof.RChain.lean ====
import proofs.«418158_j78065325572140_2_alg».proof.Proof.Kept
import proofs.«418158_j78065325572140_2_alg».proof.Proof.RefEdgeRun
import proofs.«418158_j78065325572140_2_alg».proof.Proof.RefNodeRun
import proofs.«418158_j78065325572140_2_alg».proof.Proof.RefWindRun
import proofs.«418158_j78065325572140_2_alg».proof.Proof.RefTailRun
import proofs.«418158_j78065325572140_2_alg».proof.Proof.RefGatherRun
import Idealize.ShloMosaic.Lib.Pipeline.Frame

set_option maxRecDepth 16384

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

def refRowVec (ei : IVec S2x464640 32) : IVec S464640 32 :=
  shapeCast S464640 (extractStridedSlice S1x464640 ![0, 0] ei slices_S2x464640_S1x464640_0_0) shapeCasts_S1x464640_S464640
def refColVec (ei : IVec S2x464640 32) : IVec S464640 32 :=
  shapeCast S464640 (extractStridedSlice S1x464640 ![1, 0] ei slices_S2x464640_S1x464640_1_0) shapeCasts_S1x464640_S464640

section ReadBack
variable {F : FTy → Type} [FloatOps F] (W : Valuation τ sig (Elt F))

set_option maxHeartbeats 1000000 in
set_option maxRecDepth 65536 in
theorem after_row : StableHlo.after chunk0 W (Proc.devRef .tc main_v1) = refRowVec (W (Proc.devRef .tc main_arg15)) := by
  unfold refRowVec
  after_results_simp <;> (try simp only [TRef.ofBuf, TRef.toBuf, cast_eq]) <;> rfl
set_option maxHeartbeats 1000000 in
set_option maxRecDepth 65536 in
theorem after_col : StableHlo.after chunk0 W (Proc.devRef .tc main_v3) = refColVec (W (Proc.devRef .tc main_arg15)) := by
  unfold refColVec
  after_results_simp <;> (try simp only [TRef.ofBuf, TRef.toBuf, cast_eq]) <;> rfl

end ReadBack

variable (L : Valuation τ sig (Elt Ideal))

abbrev R0 : Valuation τ sig (Elt Ideal) := StableHlo.after chunk0 (L)
abbrev R1 : Valuation τ sig (Elt Ideal) := StableHlo.after chunk1 (R0 L)
abbrev R2 : Valuation τ sig (Elt Ideal) := StableHlo.after chunk2 (R1 L)
abbrev R3 : Valuation τ sig (Elt Ideal) := StableHlo.after chunk3 (R2 L)
abbrev R4 : Valuation τ sig (Elt Ideal) := StableHlo.after chunk4 (R3 L)
abbrev R5 : Valuation τ sig (Elt Ideal) := StableHlo.after chunk5 (R4 L)
abbrev R6 : Valuation τ sig (Elt Ideal) := StableHlo.after chunk6 (R5 L)
abbrev R7 : Valuation τ sig (Elt Ideal) := StableHlo.after chunk7 (R6 L)
abbrev R8 : Valuation τ sig (Elt Ideal) := StableHlo.after chunk8 (R7 L)
abbrev R9 : Valuation τ sig (Elt Ideal) := StableHlo.after chunk9 (R8 L)
abbrev R10 : Valuation τ sig (Elt Ideal) := StableHlo.after chunk10 (R9 L)
abbrev R11 : Valuation τ sig (Elt Ideal) := StableHlo.after chunk11 (R10 L)
abbrev R12 : Valuation τ sig (Elt Ideal) := StableHlo.after chunk12 (R11 L)
abbrev R13 : Valuation τ sig (Elt Ideal) := StableHlo.after chunk13 (R12 L)
abbrev R14 : Valuation τ sig (Elt Ideal) := StableHlo.after chunk14 (R13 L)
abbrev R15 : Valuation τ sig (Elt Ideal) := StableHlo.after chunk15 (R14 L)
abbrev R16 : Valuation τ sig (Elt Ideal) := StableHlo.after chunk16 (R15 L)

theorem after_ops : StableHlo.after (ops (F := Ideal)) L = R16 L := by
  simp only [ops, List.flatten_cons, List.flatten_nil, List.append_nil, StableHlo.after_append]

theorem arg1_at0 : R0 L (Proc.devRef .tc main_arg1) = L (Proc.devRef .tc main_arg1) := by kept
theorem arg2_at1 : R1 L (Proc.devRef .tc main_arg2) = L (Proc.devRef .tc main_arg2) := by kept
theorem arg1_at2 : R2 L (Proc.devRef .tc main_arg1) = L (Proc.devRef .tc main_arg1) := by kept
theorem arg2_at3 : R3 L (Proc.devRef .tc main_arg2) = L (Proc.devRef .tc main_arg2) := by kept
theorem arg0_at6 : R6 L (Proc.devRef .tc main_arg0) = L (Proc.devRef .tc main_arg0) := by kept
theorem arg0_at7 : R7 L (Proc.devRef .tc main_arg0) = L (Proc.devRef .tc main_arg0) := by kept
theorem arg3_at8 : R8 L (Proc.devRef .tc main_arg3) = L (Proc.devRef .tc main_arg3) := by kept
theorem arg4_at9 : R9 L (Proc.devRef .tc main_arg4) = L (Proc.devRef .tc main_arg4) := by kept
theorem arg5_at9 : R9 L (Proc.devRef .tc main_arg5) = L (Proc.devRef .tc main_arg5) := by kept
theorem arg6_at9 : R9 L (Proc.devRef .tc main_arg6) = L (Proc.devRef .tc main_arg6) := by kept
theorem arg7_at9 : R9 L (Proc.devRef .tc main_arg7) = L (Proc.devRef .tc main_arg7) := by kept
theorem arg0_at11 : R11 L (Proc.devRef .tc main_arg0) = L (Proc.devRef .tc main_arg0) := by kept
theorem arg0_at12 : R12 L (Proc.devRef .tc main_arg0) = L (Proc.devRef .tc main_arg0) := by kept
theorem arg8_at12 : R12 L (Proc.devRef .tc main_arg8) = L (Proc.devRef .tc main_arg8) := by kept
theorem arg9_at12 : R12 L (Proc.devRef .tc main_arg9) = L (Proc.devRef .tc main_arg9) := by kept
theorem arg10_at12 : R12 L (Proc.devRef .tc main_arg10) = L (Proc.devRef .tc main_arg10) := by kept
theorem arg11_at12 : R12 L (Proc.devRef .tc main_arg11) = L (Proc.devRef .tc main_arg11) := by kept
theorem arg12_at13 : R13 L (Proc.devRef .tc main_arg12) = L (Proc.devRef .tc main_arg12) := by kept
theorem arg13_at13 : R13 L (Proc.devRef .tc main_arg13) = L (Proc.devRef .tc main_arg13) := by kept
theorem arg14_at13 : R13 L (Proc.devRef .tc main_arg14) = L (Proc.devRef .tc main_arg14) := by kept

abbrev rowR : IVec S464640 32 := refRowVec (L (Proc.devRef .tc main_arg15))
abbrev colR : IVec S464640 32 := refColVec (L (Proc.devRef .tc main_arg15))

theorem row_at0 : R0 L (Proc.devRef .tc main_v1) = rowR L := after_row L
theorem col_at0 : R0 L (Proc.devRef .tc main_v3) = colR L := after_col L
theorem row_at2 : R2 L (Proc.devRef .tc main_v1) = rowR L := by kept; exact row_at0 L
theorem row_at3 : R3 L (Proc.devRef .tc main_v1) = rowR L := by kept; exact row_at0 L
theorem row_at6 : R6 L (Proc.devRef .tc main_v1) = rowR L := by kept; exact row_at0 L
theorem row_at10 : R10 L (Proc.devRef .tc main_v1) = rowR L := by kept; exact row_at0 L
theorem row_at15 : R15 L (Proc.devRef .tc main_v1) = rowR L := by kept; exact row_at0 L
theorem col_at1 : R1 L (Proc.devRef .tc main_v3) = colR L := by kept; exact col_at0 L
theorem col_at7 : R7 L (Proc.devRef .tc main_v3) = colR L := by kept; exact col_at0 L

abbrev gUC := R1 L (Proc.devRef .tc main_v10)
abbrev gVC := R2 L (Proc.devRef .tc main_v17)
abbrev gUR := R3 L (Proc.devRef .tc main_v24)
abbrev gVR := R4 L (Proc.devRef .tc main_v31)
abbrev gHR := R7 L (Proc.devRef .tc main_v52)
abbrev gHC := R8 L (Proc.devRef .tc main_v59)

theorem uc_at4 : R4 L (Proc.devRef .tc main_v10) = gUC L := by kept
theorem vc_at4 : R4 L (Proc.devRef .tc main_v17) = gVC L := by kept
theorem ur_at4 : R4 L (Proc.devRef .tc main_v24) = gUR L := by kept

theorem colSpeed_at5 : R5 L (Proc.devRef .tc main_v35) = RefEdge.refColSpeed (F := Ideal) (gUC L) (gVC L) := by
  refine (RefEdge.after_v35 (F := Ideal) (R4 L)).trans ?_
  rw [uc_at4 L, vc_at4 L]
theorem rowSpeed_at5 : R5 L (Proc.devRef .tc main_v39) = RefEdge.refRowSpeed (F := Ideal) (gUR L) (gVR L) := by
  refine (RefEdge.after_v39 (F := Ideal) (R4 L)).trans ?_
  rw [ur_at4 L]
theorem relDir_at5 : R5 L (Proc.devRef .tc main_v44) = RefEdge.refRelDir (F := Ideal) (gUR L) (gVR L) (gUC L) (gVC L) := by
  refine (RefEdge.after_v44 (F := Ideal) (R4 L)).trans ?_
  rw [ur_at4 L, uc_at4 L, vc_at4 L]

theorem small_at6 : R6 L (Proc.devRef .tc main_v45) = RefEdge.refSmall33 (F := Ideal) (gUR L) (gVR L) (gUC L) (gVC L) := by
  refine (RefEdge.after_v45 (F := Ideal) (R5 L)).trans ?_
  rw [relDir_at5 L, colSpeed_at5 L, rowSpeed_at5 L]
  rfl
theorem small_at8 : R8 L (Proc.devRef .tc main_v45) = RefEdge.refSmall33 (F := Ideal) (gUR L) (gVR L) (gUC L) (gVC L) := by kept; exact small_at6 L
theorem hr_at8 : R8 L (Proc.devRef .tc main_v52) = gHR L := by kept

abbrev FEATg : FVec Ideal S464640x128 .f32 :=
  RefEdge.refFeat (F := Ideal) (gHR L) (gHC L) (RefEdge.refSmall33 (F := Ideal) (gUR L) (gVR L) (gUC L) (gVC L)) (L (Proc.devRef .tc main_arg3)) (L (Proc.devRef .tc main_arg4)) (L (Proc.devRef .tc main_arg5)) (L (Proc.devRef .tc main_arg6)) (L (Proc.devRef .tc main_arg7))

theorem cat290_at9 : R9 L (Proc.devRef .tc main_v60) = RefEdge.refCat290 (F := Ideal) (gHR L) (gHC L) (RefEdge.refSmall33 (F := Ideal) (gUR L) (gVR L) (gUC L) (gVC L)) (L (Proc.devRef .tc main_arg3)) := by
  refine (RefEdge.after_v60 (F := Ideal) (R8 L)).trans ?_
  rw [hr_at8 L, small_at8 L, arg3_at8 L]
theorem feat_at10 : R10 L (Proc.devRef .tc main_v70) = FEATg L := by
  refine (RefEdge.after_v70 (F := Ideal) (R9 L)).trans ?_
  rw [cat290_at9 L, arg4_at9 L, arg5_at9 L, arg6_at9 L, arg7_at9 L]
  rfl
theorem feat_at13 : R13 L (Proc.devRef .tc main_v70) = FEATg L := by kept; exact feat_at10 L

theorem agg_at11 : R11 L (Proc.devRef .tc main_v73) = RefNode.refAgg (F := Ideal) (rowR L) (FEATg L) := by
  refine (RefNode.after_v73 (F := Ideal) (R10 L)).trans ?_
  rw [row_at10 L, feat_at10 L]
theorem lat_at11 : R11 L (Proc.devRef .tc main_v80) = RefNode.refLatAgg (F := Ideal) (RefNode.refAgg (F := Ideal) (rowR L) (FEATg L)) := by
  refine (RefNode.after_v80 (F := Ideal) (R10 L)).trans ?_
  rw [row_at10 L, feat_at10 L]
theorem cat384_at12 : R12 L (Proc.devRef .tc main_v81) = RefNode.refCat (F := Ideal) (L (Proc.devRef .tc main_arg0)) (RefNode.refAgg (F := Ideal) (rowR L) (FEATg L)) (RefNode.refLatAgg (F := Ideal) (RefNode.refAgg (F := Ideal) (rowR L) (FEATg L))) := by
  refine (RefNode.after_v81 (F := Ideal) (R11 L)).trans ?_
  rw [arg0_at11 L, agg_at11 L, lat_at11 L]
theorem out_at13 : R13 L (Proc.devRef .tc main_v91)
    = RefNode.refOut (F := Ideal) (L (Proc.devRef .tc main_arg0)) (RefNode.refAgg (F := Ideal) (rowR L) (FEATg L)) (RefNode.refLatAgg (F := Ideal) (RefNode.refAgg (F := Ideal) (rowR L) (FEATg L))) (L (Proc.devRef .tc main_arg8)) (L (Proc.devRef .tc main_arg9)) (L (Proc.devRef .tc main_arg10)) (L (Proc.devRef .tc main_arg11)) := by
  refine (RefNode.after_v91 (F := Ideal) (R12 L)).trans ?_
  rw [arg0_at12 L, cat384_at12 L, arg8_at12 L, arg9_at12 L, arg10_at12 L, arg11_at12 L]
  rfl
theorem out_at16 : R16 L (Proc.devRef .tc main_v91)
    = RefNode.refOut (F := Ideal) (L (Proc.devRef .tc main_arg0)) (RefNode.refAgg (F := Ideal) (rowR L) (FEATg L)) (RefNode.refLatAgg (F := Ideal) (RefNode.refAgg (F := Ideal) (rowR L) (FEATg L))) (L (Proc.devRef .tc main_arg8)) (L (Proc.devRef .tc main_arg9)) (L (Proc.devRef .tc main_arg10)) (L (Proc.devRef .tc main_arg11)) :=
  by kept; exact out_at13 L

theorem uc_at13 : R13 L (Proc.devRef .tc main_v10) = gUC L := by kept
theorem vc_at13 : R13 L (Proc.devRef .tc main_v17) = gVC L := by kept

abbrev WINDg : FVec Ideal S464640x2x11 .f32 :=
  RefWind.refWind (F := Ideal) (FEATg L) (gUC L) (gVC L) (L (Proc.devRef .tc main_arg12)) (L (Proc.devRef .tc main_arg13)) (L (Proc.devRef .tc main_arg14))

theorem wind_at15 : R15 L (Proc.devRef .tc main_v107) = WINDg L := by
  refine (RefWind.after_refWind (F := Ideal) (R13 L)).trans ?_
  rw [feat_at13 L, uc_at13 L, vc_at13 L, arg12_at13 L, arg13_at13 L, arg14_at13 L]
theorem meanU_at16 : R16 L (Proc.devRef .tc main_v122) = RefTail.refMeanU (F := Ideal) (rowR L) (WINDg L) := by
  refine (RefTail.after_v122 (F := Ideal) (R15 L)).trans ?_
  rw [row_at15 L, wind_at15 L]
theorem meanV_at16 : R16 L (Proc.devRef .tc main_v130) = RefTail.refMeanV (F := Ideal) (rowR L) (WINDg L) := by
  refine (RefTail.after_v130 (F := Ideal) (R15 L)).trans ?_
  rw [row_at15 L, wind_at15 L]

theorem arg_ref_0 : R16 L (Proc.devRef .tc main_arg0) = L (Proc.devRef .tc main_arg0) := by kept
theorem arg_ref_1 : R16 L (Proc.devRef .tc main_arg1) = L (Proc.devRef .tc main_arg1) := by kept
theorem arg_ref_2 : R16 L (Proc.devRef .tc main_arg2) = L (Proc.devRef .tc main_arg2) := by kept
theorem arg_ref_3 : R16 L (Proc.devRef .tc main_arg3) = L (Proc.devRef .tc main_arg3) := by kept
theorem arg_ref_4 : R16 L (Proc.devRef .tc main_arg4) = L (Proc.devRef .tc main_arg4) := by kept
theorem arg_ref_5 : R16 L (Proc.devRef .tc main_arg5) = L (Proc.devRef .tc main_arg5) := by kept
theorem arg_ref_6 : R16 L (Proc.devRef .tc main_arg6) = L (Proc.devRef .tc main_arg6) := by kept
theorem arg_ref_7 : R16 L (Proc.devRef .tc main_arg7) = L (Proc.devRef .tc main_arg7) := by kept
theorem arg_ref_8 : R16 L (Proc.devRef .tc main_arg8) = L (Proc.devRef .tc main_arg8) := by kept
theorem arg_ref_9 : R16 L (Proc.devRef .tc main_arg9) = L (Proc.devRef .tc main_arg9) := by kept
theorem arg_ref_10 : R16 L (Proc.devRef .tc main_arg10) = L (Proc.devRef .tc main_arg10) := by kept
theorem arg_ref_11 : R16 L (Proc.devRef .tc main_arg11) = L (Proc.devRef .tc main_arg11) := by kept
theorem arg_ref_12 : R16 L (Proc.devRef .tc main_arg12) = L (Proc.devRef .tc main_arg12) := by kept
theorem arg_ref_13 : R16 L (Proc.devRef .tc main_arg13) = L (Proc.devRef .tc main_arg13) := by kept
theorem arg_ref_14 : R16 L (Proc.devRef .tc main_arg14) = L (Proc.devRef .tc main_arg14) := by kept
theorem arg_ref_15 : R16 L (Proc.devRef .tc main_arg15) = L (Proc.devRef .tc main_arg15) := by kept

/-- No operation of the list writes a launch array. -/
theorem arg_ref {b : Ref sig .tc} (hb : b ∈ [main_arg0, main_arg1, main_arg2, main_arg3, main_arg4, main_arg5, main_arg6, main_arg7, main_arg8, main_arg9, main_arg10, main_arg11, main_arg12, main_arg13, main_arg14, main_arg15]) :
    StableHlo.after (ops (F := Ideal)) L (Proc.devRef .tc b) = L (Proc.devRef .tc b) := by
  refine (congrFun (after_ops L) _).trans ?_
  simp only [List.mem_cons, List.not_mem_nil, or_false] at hb
  rcases hb with rfl | rfl | rfl | rfl | rfl | rfl | rfl | rfl | rfl | rfl | rfl | rfl | rfl | rfl | rfl | rfl
  exacts [arg_ref_0 L, arg_ref_1 L, arg_ref_2 L, arg_ref_3 L, arg_ref_4 L, arg_ref_5 L, arg_ref_6 L, arg_ref_7 L, arg_ref_8 L, arg_ref_9 L, arg_ref_10 L, arg_ref_11 L, arg_ref_12 L, arg_ref_13 L, arg_ref_14 L, arg_ref_15 L]

theorem uc_eq : gUC L = RefGather.refGather11 (F := Ideal) (L (Proc.devRef .tc main_arg1)) (colR L) := by
  refine (RefGather.after_gather_uc (F := Ideal) (R0 L)).trans ?_
  rw [arg1_at0 L, col_at0 L]
theorem vc_eq : gVC L = RefGather.refGather11 (F := Ideal) (L (Proc.devRef .tc main_arg2)) (colR L) := by
  refine (RefGather.after_gather_vc (F := Ideal) (R1 L)).trans ?_
  rw [arg2_at1 L, col_at1 L]
theorem ur_eq : gUR L = RefGather.refGather11 (F := Ideal) (L (Proc.devRef .tc main_arg1)) (rowR L) := by
  refine (RefGather.after_gather_ur (F := Ideal) (R2 L)).trans ?_
  rw [arg1_at2 L, row_at2 L]
theorem vr_eq : gVR L = RefGather.refGather11 (F := Ideal) (L (Proc.devRef .tc main_arg2)) (rowR L) := by
  refine (RefGather.after_gather_vr (F := Ideal) (R3 L)).trans ?_
  rw [arg2_at3 L, row_at3 L]
theorem hr_eq : gHR L = RefGather.refGather128 (F := Ideal) (L (Proc.devRef .tc main_arg0)) (rowR L) := by
  refine (RefGather.after_gather_hr (F := Ideal) (R6 L)).trans ?_
  rw [arg0_at6 L, row_at6 L]
theorem hc_eq : gHC L = RefGather.refGather128 (F := Ideal) (L (Proc.devRef .tc main_arg0)) (colR L) := by
  refine (RefGather.after_gather_hc (F := Ideal) (R7 L)).trans ?_
  rw [arg0_at7 L, col_at7 L]

abbrev FEATr : FVec Ideal S464640x128 .f32 :=
  RefEdge.refFeat (F := Ideal) (RefGather.refGather128 (F := Ideal) (L (Proc.devRef .tc main_arg0)) (rowR L)) (RefGather.refGather128 (F := Ideal) (L (Proc.devRef .tc main_arg0)) (colR L))
    (RefEdge.refSmall33 (F := Ideal) (RefGather.refGather11 (F := Ideal) (L (Proc.devRef .tc main_arg1)) (rowR L)) (RefGather.refGather11 (F := Ideal) (L (Proc.devRef .tc main_arg2)) (rowR L)) (RefGather.refGather11 (F := Ideal) (L (Proc.devRef .tc main_arg1)) (colR L)) (RefGather.refGather11 (F := Ideal) (L (Proc.devRef .tc main_arg2)) (colR L)))
    (L (Proc.devRef .tc main_arg3)) (L (Proc.devRef .tc main_arg4)) (L (Proc.devRef .tc main_arg5)) (L (Proc.devRef .tc main_arg6)) (L (Proc.devRef .tc main_arg7))

theorem featg_eq : FEATg L = FEATr L := by
  show RefEdge.refFeat (F := Ideal) (gHR L) (gHC L) (RefEdge.refSmall33 (F := Ideal) (gUR L) (gVR L) (gUC L) (gVC L)) _ _ _ _ _ = _
  rw [hr_eq L, hc_eq L, ur_eq L, vr_eq L, uc_eq L, vc_eq L]

/-- The reference's node update, from the launch arrays. -/
theorem out_ref : StableHlo.after (ops (F := Ideal)) L (Proc.devRef .tc main_v91)
    = RefNode.refOut (F := Ideal) (L (Proc.devRef .tc main_arg0)) (RefNode.refAgg (F := Ideal) (rowR L) (FEATr L)) (RefNode.refLatAgg (F := Ideal) (RefNode.refAgg (F := Ideal) (rowR L) (FEATr L))) (L (Proc.devRef .tc main_arg8)) (L (Proc.devRef .tc main_arg9)) (L (Proc.devRef .tc main_arg10)) (L (Proc.devRef .tc main_arg11)) := by
  rw [← featg_eq L]
  exact (congrFun (after_ops L) _).trans (out_at16 L)

/-- The reference's first mean wind, clipped, from the launch arrays. -/
theorem u_ref : StableHlo.after (ops (F := Ideal)) L (Proc.devRef .tc main_v122) = RefTail.refMeanU (F := Ideal) (rowR L) (RefWind.refWind (F := Ideal) (FEATr L) (RefGather.refGather11 (F := Ideal) (L (Proc.devRef .tc main_arg1)) (colR L)) (RefGather.refGather11 (F := Ideal) (L (Proc.devRef .tc main_arg2)) (colR L)) (L (Proc.devRef .tc main_arg12)) (L (Proc.devRef .tc main_arg13)) (L (Proc.devRef .tc main_arg14))) := by
  rw [← featg_eq L, ← uc_eq L, ← vc_eq L]
  exact (congrFun (after_ops L) _).trans (meanU_at16 L)

/-- The reference's second mean wind, clipped, from the launch arrays. -/
theorem v_ref : StableHlo.after (ops (F := Ideal)) L (Proc.devRef .tc main_v130) = RefTail.refMeanV (F := Ideal) (rowR L) (RefWind.refWind (F := Ideal) (FEATr L) (RefGather.refGather11 (F := Ideal) (L (Proc.devRef .tc main_arg1)) (colR L)) (RefGather.refGather11 (F := Ideal) (L (Proc.devRef .tc main_arg2)) (colR L)) (L (Proc.devRef .tc main_arg12)) (L (Proc.devRef .tc main_arg13)) (L (Proc.devRef .tc main_arg14))) := by
  rw [← featg_eq L, ← uc_eq L, ← vc_eq L]
  exact (congrFun (after_ops L) _).trans (meanV_at16 L)

end Cert.ReferenceIdeal.RChain

end
-- ==== Proof.PreRange.lean ====
import proofs.«418158_j78065325572140_2_alg».proof.Defs
import proofs.«418158_j78065325572140_2_alg».proof.Proof.Gen.Pre_finite_inputs
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Idealize.SL.Sem
open Cert.Pre_finite_inputs

instance : Subsingleton S_.Idx := ⟨fun a b => funext fun d => d.elim0⟩

theorem toNat_lt_of_range (w : BitVec 32) (h0 : IntOp.cmpi .sge w 0#32 = 1#1) (h1 : IntOp.cmpi .slt w 29040#32 = 1#1) :
    w.toNat < 29040 := by
  have hge := IntOp.cmpi_sge.1 h0
  rw [show (0#32 : BitVec 32).toInt = 0 from by decide] at hge
  have hn : 2 * w.toNat < 2 ^ 32 := BitVec.toInt_pos_iff.1 hge
  have hlt := (StableHlo.Predicate.slt_iff_toNat (a := w) (b := 29040#32) (by omega) (by decide)).1 h1
  rw [show (29040#32 : BitVec 32).toNat = 29040 from by decide] at hlt
  exact hlt

variable {F : FTy → Type} [FloatOps F] [Facts]

theorem idx_lt_of_part4 (a14 : FVec F S128x22 .f32) (idx : IVec S2x464640 32) (v63 v67 : IVec S_ 1)
    (h : fn_part4 (F := F) a14 idx v63 v67 ix0 = 1#1) (i : S2x464640.Idx) : (idx i).toNat < 29040 := by
  unfold fn_part4 at h
  have h79 := (IntOp.andi_eq_one.1 h).2
  have h78 := Host.reduce_andi_all _ _ _ _ ix0 h79 i
  obtain ⟨hge, hlt⟩ := IntOp.andi_eq_one.1 h78
  exact toNat_lt_of_range (idx i) hge hlt

theorem idx_lt_of_part3 (a11 : FVec F S128 .f32) (a12 : FVec F S128x128 .f32) (a13 : FVec F S128 .f32)
    (a14 : FVec F S128x22 .f32) (idx : IVec S2x464640 32) (v48 : IVec S_ 1) (v49 v50 : FVec F S128x128 .f32)
    (h : fn_part3 (F := F) a11 a12 a13 a14 idx v48 v49 v50 ix0 = 1#1) (i : S2x464640.Idx) : (idx i).toNat < 29040 := by
  unfold fn_part3 at h
  exact idx_lt_of_part4 a14 idx _ _ h i

theorem idx_lt_of_part2 (a7 : FVec F S128 .f32) (a8 : FVec F S384x128 .f32) (a9 : FVec F S128 .f32)
    (a10 : FVec F S128x128 .f32) (a11 : FVec F S128 .f32) (a12 : FVec F S128x128 .f32) (a13 : FVec F S128 .f32)
    (a14 : FVec F S128x22 .f32) (idx : IVec S2x464640 32) (v33 : IVec S_ 1)
    (h : fn_part2 (F := F) a7 a8 a9 a10 a11 a12 a13 a14 idx v33 ix0 = 1#1) (i : S2x464640.Idx) : (idx i).toNat < 29040 := by
  unfold fn_part2 at h
  exact idx_lt_of_part3 a11 a12 a13 a14 idx _ _ _ h i

theorem idx_lt_of_part1 (a4 : FVec F S290x128 .f32) (a5 : FVec F S128 .f32) (a6 : FVec F S128x128 .f32)
    (a7 : FVec F S128 .f32) (a8 : FVec F S384x128 .f32) (a9 : FVec F S128 .f32) (a10 : FVec F S128x128 .f32)
    (a11 : FVec F S128 .f32) (a12 : FVec F S128x128 .f32) (a13 : FVec F S128 .f32) (a14 : FVec F S128x22 .f32)
    (idx : IVec S2x464640 32) (v13 : IVec S_ 1) (v16 : IVec S464640x1 1)
    (h : fn_part1 (F := F) a4 a5 a6 a7 a8 a9 a10 a11 a12 a13 a14 idx v13 v16 ix0 = 1#1) (i : S2x464640.Idx) :
    (idx i).toNat < 29040 := by
  unfold fn_part1 at h
  exact idx_lt_of_part2 a7 a8 a9 a10 a11 a12 a13 a14 idx _ h i

theorem idx_lt_of_fn (a0 : FVec F S29040x128 .f32) (a1 a2 : FVec F S29040x11 .f32) (a3 : FVec F S464640x1 .f32)
    (a4 : FVec F S290x128 .f32) (a5 : FVec F S128 .f32) (a6 : FVec F S128x128 .f32) (a7 : FVec F S128 .f32)
    (a8 : FVec F S384x128 .f32) (a9 : FVec F S128 .f32) (a10 : FVec F S128x128 .f32) (a11 : FVec F S128 .f32)
    (a12 : FVec F S128x128 .f32) (a13 : FVec F S128 .f32) (a14 : FVec F S128x22 .f32) (idx : IVec S2x464640 32)
    (h : fn (F := F) a0 a1 a2 a3 a4 a5 a6 a7 a8 a9 a10 a11 a12 a13 a14 idx = (fun _ => 1#1)) :
    ∀ i : S2x464640.Idx, (idx i).toNat < 29040 := by
  intro i
  have e := congrFun h ix0
  unfold fn at e
  exact idx_lt_of_part1 a4 a5 a6 a7 a8 a9 a10 a11 a12 a13 a14 idx _ _ e i

theorem edge_index_lt
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S2x464640.Idx) :
    ((m ((c.tc : Thread Cert.KernelIdeal.nD Cert.KernelIdeal.τ).loc Cert.KernelIdeal.main_arg15)) i).toNat < 29040 :=
  idx_lt_of_fn (F := Ideal) _ _ _ _ _ _ _ _ _ _ _ _ _ _ _ _ (h c) i

end Cert.PreRange

end
-- ==== Proof.LibAndAll.lean ====
import Idealize.ShloMosaic.Lib.ReduceAll

namespace Cert.Lib.AndAll

open Idealize.ShloMosaic

/-- An `and` fold over bits that are all one, started at one, is one. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hall => by
    refine foldl_andi_of_all f l _ ?_ (fun n hn => hall n (List.mem_cons_of_mem _ hn))
    exact IntOp.andi_eq_one.2 ⟨h, hall a (List.mem_cons_self ..)⟩

variable {s t u : Shape} {axes : List (Fin s.rank)}

/-- An `and`-reduction is one where its initial value and every entry it folds are one. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl]
  refine foldl_andi_of_all x _ _ hinit (fun i hi => hx i ?_)
  have := (List.mem_filter.1 hi).2
  simpa using this

end Cert.Lib.AndAll
-- ==== Proof.TakeInRange.lean ====
import proofs.«418158_j78065325572140_2_alg».proof.Proof.TakeTerm
import proofs.«418158_j78065325572140_2_alg».proof.Proof.LibRowGather
import proofs.«418158_j78065325572140_2_alg».proof.Proof.LibAndAll
import Idealize.ShloMosaic.Lib.StableHlo.Predicate
import Idealize.ShloMosaic.Lib.Pipeline.Value
import Idealize.ShloMosaic.Lib.ValueIdx

noncomputable section

namespace Cert.KernelIdeal.TakeInRange

open Cert.KernelIdeal Cert.KernelIdeal.Gen Cert.KernelIdeal.TakeTerm Idealize.ShloMosaic Idealize.ShloMosaic.ValueIdx
open Cert.KernelIdeal.Facts

variable {F : FTy → Type} [FloatOps F]

theorem bit_eq_zero_of_ne_one (c : BitVec 1) (h : c ≠ 1#1) : c = 0#1 := by
  revert c; decide

theorem sel_one {α : Type} (a b : α) : Scalar.select 1#1 a b = a := if_pos rfl
theorem sel_zero {α : Type} (a b : α) : Scalar.select 0#1 a b = b := if_neg (by decide)

variable (idx : IVec S464640 32) (e : Fin 464640)

theorem wrapped_apply_of_lt (h : (idx (ix1 e)).toNat < 29040) :
    wrapped idx (ix2 e (0 : Fin 1)) = idx (ix1 e) := by
  unfold wrapped
  rw [broadcastInDim_apply ![0] bcast_S464640_S464640x1_0 _ (ix2 e (0 : Fin 1)) (ix1 e)
    (fun a => by match a with | ⟨0, _⟩ => rfl)]
  rw [select_apply]
  have hc : cmpi .slt idx (broadcastInDim S464640 ![] bcast_S_S464640 (constantI S_ 32 0#32)) (ix1 e) = 0#1 := by
    apply bit_eq_zero_of_ne_one
    intro h1
    have h2 : IntOp.cmpi .slt (idx (ix1 e)) (0#32) = 1#1 := h1
    have := (StableHlo.Predicate.slt_iff_toNat (a := idx (ix1 e)) (b := 0#32) (by omega) (by decide)).1 h2
    simp at this
  rw [hc, sel_zero]

theorem inBounds_apply_of_lt (r : IVec S464640x1 32) (h : (r (ix2 e (0 : Fin 1))).toNat < 29040) :
    inBounds r (ix1 e) = 1#1 := by
  unfold inBounds
  refine Cert.Lib.AndAll.reduce_andi_of_all _ _ reducesTo_S464640x1_S464640_d1 h_S_ (ix1 e) rfl (fun i hi => ?_)

  have hi0 : i = ix2 e (0 : Fin 1) := by
    have h0 : (i 0).val = e.val := congrArg (fun j : S464640.Idx => (j 0).val) hi
    have h1 : (i 1).val < 1 := (i 1).isLt
    funext a
    refine Fin.ext ?_
    match a with
    | ⟨0, _⟩ => exact h0
    | ⟨1, _⟩ => show (i 1).val = 0; omega
  subst hi0
  show IntOp.andi (IntOp.cmpi .sge (r (ix2 e 0)) _) (IntOp.cmpi .sle (r (ix2 e 0)) _) = 1#1
  refine IntOp.andi_eq_one.2 ⟨?_, ?_⟩
  · have : (broadcastInDim S464640x1 ![] bcast_S_S464640x1 (constantI S_ 32 0#32) : IVec S464640x1 32) (ix2 e 0) = 0#32 := rfl
    rw [this]
    exact (StableHlo.Predicate.sge_iff_toNat (a := r (ix2 e 0)) (b := 0#32) (by omega) (by decide)).2 (by simp)
  · have : (broadcastInDim S464640x1 ![0, 1] bcast_S1x1_S464640x1_0_1
        (broadcastInDim S1x1 ![1] bcast_S1_S1x1_1 (constantI S1 32 29039#32)) : IVec S464640x1 32) (ix2 e 0) = 29039#32 := rfl
    rw [this]
    exact (StableHlo.Predicate.sle_iff_toNat (a := r (ix2 e 0)) (b := 29039#32) (by omega) (by decide)).2
      (by have : (29039#32 : BitVec 32).toNat = 29039 := by decide
          omega)

theorem take128_apply_of_lt (x : FVec F S29040x128 .f32) (j : Fin 128) (h : (idx (ix1 e)).toNat < 29040) :
    take128 x idx (ix2 e j) = x (ix2 (⟨(idx (ix1 e)).toNat, h⟩ : Fin 29040) j) := by
  have hw := wrapped_apply_of_lt idx e h
  unfold take128
  rw [select_apply]
  rw [broadcastInDim_apply ![0] bcast_S464640_S464640x128_0 _ (ix2 e j) (ix1 e)
    (fun a => by match a with | ⟨0, _⟩ => rfl)]
  rw [inBounds_apply_of_lt e (wrapped idx) (by rw [hw]; exact h), sel_one]
  show Host.gather (Cert.Lib.RowGather.rowDims 29040 464640 128
      gather_S29040x128_S464640x1_S464640x128_1_0_n_n_0_1_1128_wf) x (wrapped idx) (ix2 e j) = _
  have hlt : ((wrapped idx) (Cert.Lib.RowGather.rowIdx e)).toNat < 29040 := by
    show ((wrapped idx) (ix2 e (0 : Fin 1))).toNat < 29040
    rw [hw]; exact h
  rw [Cert.Lib.RowGather.row_gather_apply_of_lt _ e j x (by decide) hlt]
  congr 1
  funext a
  refine Fin.ext ?_
  match a with
  | ⟨0, _⟩ => show ((wrapped idx) (ix2 e (0 : Fin 1))).toNat = (idx (ix1 e)).toNat; rw [hw]
  | ⟨1, _⟩ => rfl

theorem take11_apply_of_lt (x : FVec F S29040x11 .f32) (j : Fin 11) (h : (idx (ix1 e)).toNat < 29040) :
    take11 x idx (ix2 e j) = x (ix2 (⟨(idx (ix1 e)).toNat, h⟩ : Fin 29040) j) := by
  have hw := wrapped_apply_of_lt idx e h
  unfold take11
  rw [select_apply]
  rw [broadcastInDim_apply ![0] bcast_S464640_S464640x11_0 _ (ix2 e j) (ix1 e)
    (fun a => by match a with | ⟨0, _⟩ => rfl)]
  rw [inBounds_apply_of_lt e (wrapped idx) (by rw [hw]; exact h), sel_one]
  show Host.gather (Cert.Lib.RowGather.rowDims 29040 464640 11
      gather_S29040x11_S464640x1_S464640x11_1_0_n_n_0_1_111_wf) x (wrapped idx) (ix2 e j) = _
  have hlt : ((wrapped idx) (Cert.Lib.RowGather.rowIdx e)).toNat < 29040 := by
    show ((wrapped idx) (ix2 e (0 : Fin 1))).toNat < 29040
    rw [hw]; exact h
  rw [Cert.Lib.RowGather.row_gather_apply_of_lt _ e j x (by decide) hlt]
  congr 1
  funext a
  refine Fin.ext ?_
  match a with
  | ⟨0, _⟩ => show ((wrapped idx) (ix2 e (0 : Fin 1))).toNat = (idx (ix1 e)).toNat; rw [hw]
  | ⟨1, _⟩ => rfl

end Cert.KernelIdeal.TakeInRange

end
-- ==== Proof.BridgeIn.lean ====
import proofs.«418158_j78065325572140_2_alg».proof.Proof.PreRange
import proofs.«418158_j78065325572140_2_alg».proof.Proof.KChainPre
import proofs.«418158_j78065325572140_2_alg».proof.Proof.TakeInRange
import proofs.«418158_j78065325572140_2_alg».proof.Proof.RefGather
import Idealize.ShloMosaic.Lib.Pipeline.Value
import Idealize.ShloMosaic.Lib.ValueIdx

noncomputable section

namespace Cert.BridgeIn

open Idealize.ShloMosaic Idealize.ShloMosaic.ValueIdx Idealize.ShloMosaic.TcCoe Idealize.SL.Sem
open Cert.KernelIdeal Cert.KernelIdeal.Gen
open Cert.KernelIdeal.Facts

theorem rowVec_apply (ei : IVec S2x464640 32) (e : Fin 464640) :
    HostPre.rowVec ei (ix1 e) = ei (ix2 (0 : Fin 2) e) := by
  unfold HostPre.rowVec
  rw [shapeCast_apply _ shapeCasts_S1x464640_S464640 (ix1 e) (ix2 (0 : Fin 1) e)
    (by rewrite [Shape.rowMajor_val_two, Shape.rowMajor_val_one]; show 0 * 464640 + e.val = e.val; omega)]
  exact extractStridedSlice_apply ![0, 0] ei slices_S2x464640_S1x464640_0_0 (ix2 (0 : Fin 1) e) (ix2 (0 : Fin 2) e)
    (fun a => match a with
      | ⟨0, _⟩ => by show (0 : Nat) = 0 + 0; omega
      | ⟨1, _⟩ => by show e.val = 0 + e.val; omega)

theorem colVec_apply (ei : IVec S2x464640 32) (e : Fin 464640) :
    HostPre.colVec ei (ix1 e) = ei (ix2 (1 : Fin 2) e) := by
  unfold HostPre.colVec
  rw [shapeCast_apply _ shapeCasts_S1x464640_S464640 (ix1 e) (ix2 (0 : Fin 1) e)
    (by rewrite [Shape.rowMajor_val_two, Shape.rowMajor_val_one]; show 0 * 464640 + e.val = e.val; omega)]
  exact extractStridedSlice_apply ![1, 0] ei slices_S2x464640_S1x464640_1_0 (ix2 (0 : Fin 1) e) (ix2 (1 : Fin 2) e)
    (fun a => match a with
      | ⟨0, _⟩ => by show (1 : Nat) = 1 + 0; omega
      | ⟨1, _⟩ => by show e.val = 0 + e.val; omega)

variable [Cert.Pre_finite_inputs.Facts]
variable (m : (ℓ : Loc nD τ sig) → Buf (Elt Ideal) ℓ)

/-- Under the precondition every source index names a node. -/
theorem row_lt (hpre : Cert.Pre_KernelIdeal m) (c : Dev nD) (e : Fin 464640) : ((KChainPre.row m c) (ix1 e)).toNat < 29040 := by
  show (HostPre.rowVec (m ((c : Thread nD τ).loc main_arg15)) (ix1 e)).toNat < 29040
  rw [rowVec_apply]
  exact Cert.PreRange.edge_index_lt m hpre c (ix2 (0 : Fin 2) e)

/-- And every target index. -/
theorem col_lt (hpre : Cert.Pre_KernelIdeal m) (c : Dev nD) (e : Fin 464640) : ((KChainPre.col m c) (ix1 e)).toNat < 29040 := by
  show (HostPre.colVec (m ((c : Thread nD τ).loc main_arg15)) (ix1 e)).toNat < 29040
  rw [colVec_apply]
  exact Cert.PreRange.edge_index_lt m hpre c (ix2 (1 : Fin 2) e)

omit [Cert.Pre_finite_inputs.Facts] in

theorem gather128_eq_take (x : FVec Ideal S29040x128 .f32) (idx : IVec S464640 32)
    (h : ∀ e : Fin 464640, (idx (ix1 e)).toNat < 29040) :
    Cert.ReferenceIdeal.RefGather.refGather128 (F := Ideal) x idx = TakeTerm.take128 x idx := by
  funext i
  obtain ⟨e, j, rfl⟩ : ∃ (e : Fin 464640) (j : Fin 128), i = ix2 e j := ⟨i 0, i 1, eq_ix2 i⟩
  rw [Cert.ReferenceIdeal.RefGather.refGather128_apply_of_lt idx e x j (h e),
    TakeInRange.take128_apply_of_lt idx e x j (h e)]

omit [Cert.Pre_finite_inputs.Facts] in

theorem gather11_eq_take (x : FVec Ideal S29040x11 .f32) (idx : IVec S464640 32)
    (h : ∀ e : Fin 464640, (idx (ix1 e)).toNat < 29040) :
    Cert.ReferenceIdeal.RefGather.refGather11 (F := Ideal) x idx = TakeTerm.take11 x idx := by
  funext i
  obtain ⟨e, j, rfl⟩ : ∃ (e : Fin 464640) (j : Fin 11), i = ix2 e j := ⟨i 0, i 1, eq_ix2 i⟩
  rw [Cert.ReferenceIdeal.RefGather.refGather11_apply_of_lt idx e x j (h e),
    TakeInRange.take11_apply_of_lt idx e x j (h e)]

end Cert.BridgeIn

end
-- ==== Proof.Views.lean ====
import proofs.«418158_j78065325572140_2_alg».proof.Proof.HostPre
import proofs.«418158_j78065325572140_2_alg».proof.Proof.HostMid
import Idealize.ShloMosaic.Lib.Pipeline.Value
import Idealize.ShloMosaic.Lib.ValueIdx

noncomputable section

namespace Cert.KernelIdeal.Views

open Cert.KernelIdeal Cert.KernelIdeal.Gen Idealize.ShloMosaic Idealize.ShloMosaic.ValueIdx
open Cert.KernelIdeal.Facts

variable {F : FTy → Type} [FloatOps F]

theorem eBlock0_apply (w : FVec F S290x128 .f32) (k : Fin 128) (j : Fin 128) :
    HostPre.eBlock0 w (ix2 k j) = w (ix2 (⟨k.val, by omega⟩ : Fin 290) j) := by
  unfold HostPre.eBlock0
  exact extractStridedSlice_apply ![0, 0] w slices_S290x128_S128x128_0_0 (ix2 k j) (ix2 (⟨k.val, by omega⟩ : Fin 290) j)
    (fun a => match a with
      | ⟨0, _⟩ => by show k.val = 0 + k.val; omega
      | ⟨1, _⟩ => by show j.val = 0 + j.val; omega)
theorem eBlock1_apply (w : FVec F S290x128 .f32) (k : Fin 128) (j : Fin 128) :
    HostPre.eBlock1 w (ix2 k j) = w (ix2 (⟨128 + k.val, by omega⟩ : Fin 290) j) := by
  unfold HostPre.eBlock1
  exact extractStridedSlice_apply ![128, 0] w slices_S290x128_S128x128_128_0 (ix2 k j) (ix2 (⟨128 + k.val, by omega⟩ : Fin 290) j)
    (fun a => match a with
      | ⟨0, _⟩ => by show 128 + k.val = 128 + k.val; omega
      | ⟨1, _⟩ => by show j.val = 0 + j.val; omega)
theorem eBlock2_apply (w : FVec F S290x128 .f32) (k : Fin 34) (j : Fin 128) :
    HostPre.eBlock2 w (ix2 k j) = w (ix2 (⟨256 + k.val, by omega⟩ : Fin 290) j) := by
  unfold HostPre.eBlock2
  exact extractStridedSlice_apply ![256, 0] w slices_S290x128_S34x128_256_0 (ix2 k j) (ix2 (⟨256 + k.val, by omega⟩ : Fin 290) j)
    (fun a => match a with
      | ⟨0, _⟩ => by show 256 + k.val = 256 + k.val; omega
      | ⟨1, _⟩ => by show j.val = 0 + j.val; omega)

theorem wBlock0_apply (w : FVec F S384x128 .f32) (k : Fin 128) (j : Fin 128) :
    HostMid.wBlock0 w (ix2 k j) = w (ix2 (⟨k.val, by omega⟩ : Fin 384) j) := by
  unfold HostMid.wBlock0
  exact extractStridedSlice_apply ![0, 0] w slices_S384x128_S128x128_0_0 (ix2 k j) (ix2 (⟨k.val, by omega⟩ : Fin 384) j)
    (fun a => match a with
      | ⟨0, _⟩ => by show k.val = 0 + k.val; omega
      | ⟨1, _⟩ => by show j.val = 0 + j.val; omega)
theorem wBlock1_apply (w : FVec F S384x128 .f32) (k : Fin 128) (j : Fin 128) :
    HostMid.wBlock1 w (ix2 k j) = w (ix2 (⟨128 + k.val, by omega⟩ : Fin 384) j) := by
  unfold HostMid.wBlock1
  exact extractStridedSlice_apply ![128, 0] w slices_S384x128_S128x128_128_0 (ix2 k j) (ix2 (⟨128 + k.val, by omega⟩ : Fin 384) j)
    (fun a => match a with
      | ⟨0, _⟩ => by show 128 + k.val = 128 + k.val; omega
      | ⟨1, _⟩ => by show j.val = 0 + j.val; omega)
theorem wBlock2_apply (w : FVec F S384x128 .f32) (k : Fin 128) (j : Fin 128) :
    HostMid.wBlock2 w (ix2 k j) = w (ix2 (⟨256 + k.val, by omega⟩ : Fin 384) j) := by
  unfold HostMid.wBlock2
  exact extractStridedSlice_apply ![256, 0] w slices_S384x128_S128x128_256_0 (ix2 k j) (ix2 (⟨256 + k.val, by omega⟩ : Fin 384) j)
    (fun a => match a with
      | ⟨0, _⟩ => by show 256 + k.val = 256 + k.val; omega
      | ⟨1, _⟩ => by show j.val = 0 + j.val; omega)

theorem biasRow_apply (b : FVec F S128 .f32) (j : Fin 128) : HostPre.biasRow b (ix2 (0 : Fin 1) j) = b (ix1 j) := by
  unfold HostPre.biasRow
  exact shapeCast_apply b shapeCasts_S128_S1x128 (ix2 (0 : Fin 1) j) (ix1 j)
    (by rewrite [Shape.rowMajor_val_two, Shape.rowMajor_val_one]; show j.val = 0 * 128 + j.val; omega)

theorem biasRow_mid_apply (b : FVec F S128 .f32) (j : Fin 128) : HostMid.biasRow b (ix2 (0 : Fin 1) j) = b (ix1 j) := by
  unfold HostMid.biasRow
  exact shapeCast_apply b shapeCasts_S128_S1x128 (ix2 (0 : Fin 1) j) (ix1 j)
    (by rewrite [Shape.rowMajor_val_two, Shape.rowMajor_val_one]; show j.val = 0 * 128 + j.val; omega)

end Cert.KernelIdeal.Views

end
-- ==== Proof.BridgeOut.lean ====
import proofs.«418158_j78065325572140_2_alg».proof.Proof.BridgeIn
import proofs.«418158_j78065325572140_2_alg».proof.Proof.Views
import proofs.«418158_j78065325572140_2_alg».proof.Proof.RefEdge
import proofs.«418158_j78065325572140_2_alg».proof.Proof.RefNode
import proofs.«418158_j78065325572140_2_alg».proof.Proof.RefWind
import proofs.«418158_j78065325572140_2_alg».proof.Proof.KChain

noncomputable section

namespace Cert.BridgeOut

open Idealize.ShloMosaic Idealize.ShloMosaic.ValueIdx
open Cert.KernelIdeal
open Cert.ReferenceIdeal.RefGather Cert.ReferenceIdeal.RefEdge Cert.ReferenceIdeal.RefNode Cert.ReferenceIdeal.RefWind

variable (A0 : FVec Ideal S29040x128 .f32) (A1 A2 : FVec Ideal S29040x11 .f32) (A3 : FVec Ideal S464640x1 .f32)
  (A4 : FVec Ideal S290x128 .f32) (A5 : FVec Ideal S128 .f32) (A6 : FVec Ideal S128x128 .f32) (A7 : FVec Ideal S128 .f32)
  (A8 : FVec Ideal S384x128 .f32) (A9 : FVec Ideal S128 .f32) (A10 : FVec Ideal S128x128 .f32) (A11 : FVec Ideal S128 .f32)
  (A12 : FVec Ideal S128x128 .f32) (A13 : FVec Ideal S128 .f32) (A14 : FVec Ideal S128x22 .f32)
  (row col : IVec S464640 32)

abbrev FEAT : FVec Ideal S464640x128 .f32 :=
  Cert.Spec.Edge.feat (n := 464640) (TakeTerm.take128 A0 row) (TakeTerm.take128 A0 col) (TakeTerm.take11 A1 row) (TakeTerm.take11 A2 row)
    (TakeTerm.take11 A1 col) (TakeTerm.take11 A2 col) A3 (HostPre.eBlock0 A4) (HostPre.eBlock1 A4) (HostPre.eBlock2 A4)
    (HostPre.biasRow A5) A6 (HostPre.biasRow A7)

abbrev WIND : FVec Ideal S464640x22 .f32 :=
  Cert.Spec.Edge.wind (n := 464640) (TakeTerm.take128 A0 row) (TakeTerm.take128 A0 col) (TakeTerm.take11 A1 row) (TakeTerm.take11 A2 row)
    (TakeTerm.take11 A1 col) (TakeTerm.take11 A2 col) A3 (HostPre.eBlock0 A4) (HostPre.eBlock1 A4) (HostPre.eBlock2 A4)
    (HostPre.biasRow A5) A6 (HostPre.biasRow A7) A12 (HostPre.biasRow A13) A14

theorem feat_bridge (hR : ∀ e : Fin 464640, (row (ix1 e)).toNat < 29040) (hC : ∀ e : Fin 464640, (col (ix1 e)).toNat < 29040) :
    refFeat (refGather128 (F := Ideal) A0 row) (refGather128 (F := Ideal) A0 col)
      (refSmall33 (refGather11 (F := Ideal) A1 row) (refGather11 (F := Ideal) A2 row) (refGather11 (F := Ideal) A1 col) (refGather11 (F := Ideal) A2 col))
      A3 A4 A5 A6 A7
    = FEAT A0 A1 A2 A3 A4 A5 A6 A7 row col := by
  rw [Cert.BridgeIn.gather128_eq_take A0 row hR, Cert.BridgeIn.gather128_eq_take A0 col hC,
    Cert.BridgeIn.gather11_eq_take A1 row hR, Cert.BridgeIn.gather11_eq_take A2 row hR,
    Cert.BridgeIn.gather11_eq_take A1 col hC, Cert.BridgeIn.gather11_eq_take A2 col hC]
  exact refFeat_eq_spec _ _ _ _ _ _ A3 A4 A5 A7 A6 (HostPre.eBlock0 A4) (HostPre.eBlock1 A4) (HostPre.eBlock2 A4)
    (HostPre.biasRow A5) (HostPre.biasRow A7)
    (Views.eBlock0_apply A4) (Views.eBlock1_apply A4) (Views.eBlock2_apply A4) (Views.biasRow_apply A5) (Views.biasRow_apply A7)

theorem agg_bridge (X : FVec Ideal S464640x128 .f32) : refAgg (F := Ideal) row X = HostMid.aggOf row X := rfl

theorem out_bridge (AGG : FVec Ideal S29040x128 .f32) :
    refOut (F := Ideal) A0 AGG (refLatAgg AGG) A8 A9 A10 A11
    = Cert.Spec.Node.out A0 AGG (HostMid.wBlock0 A8) (HostMid.wBlock1 A8) (HostMid.wBlock2 A8)
        (HostMid.biasRow A9) A10 (HostMid.biasRow A11) :=
  refOut_eq_spec A0 AGG A8 A9 A11 A10 (HostMid.wBlock0 A8) (HostMid.wBlock1 A8) (HostMid.wBlock2 A8)
    (HostMid.biasRow A9) (HostMid.biasRow A11)
    (Views.wBlock0_apply A8) (Views.wBlock1_apply A8) (Views.wBlock2_apply A8) (Views.biasRow_mid_apply A9) (Views.biasRow_mid_apply A11)

theorem wind_bridge (hC : ∀ e : Fin 464640, (col (ix1 e)).toNat < 29040) (e : Fin 464640) (c : Fin 2) (l : Fin 11) :
    refWind (F := Ideal) (FEAT A0 A1 A2 A3 A4 A5 A6 A7 row col) (refGather11 (F := Ideal) A1 col) (refGather11 (F := Ideal) A2 col) A12 A13 A14 (ix3 e c l)
    = WIND A0 A1 A2 A3 A4 A5 A6 A7 A12 A13 A14 row col (ix2 e (⟨11 * c.val + l.val, by omega⟩ : Fin 22)) := by
  rw [Cert.BridgeIn.gather11_eq_take A1 col hC, Cert.BridgeIn.gather11_eq_take A2 col hC]
  exact refWind_eq_spec _ _ _ _ _ _ A3 (HostPre.eBlock0 A4) (HostPre.eBlock1 A4) (HostPre.eBlock2 A4)
    (HostPre.biasRow A5) A6 (HostPre.biasRow A7) A12 A13 A14 (HostPre.biasRow A13) (Views.biasRow_apply A13) e c l

end Cert.BridgeOut

end
-- ==== Proof.LibRowScatter.lean ====
import Idealize.ShloMosaic.PureOps.Ideal
import Idealize.ShloMosaic.PureOps.Contract
import Idealize.ShloMosaic.Lib.ValueIdx

noncomputable section

namespace Cert.Lib.RowScatter

open Idealize.ShloMosaic Idealize.ShloMosaic.ValueIdx

/-- Dimension numbers of a scatter of whole rows: row `e` of the updates goes to the operand's row at index `e`. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev rowIdx {E : Nat} (e : Fin E) : (⟨2, ![E, 1]⟩ : Shape).Idx := ix2 e (0 : Fin 1)

/-- Update row `e` goes to row `i`. -/
def lands {E w : Nat} (N : Nat) (idx : IVec ⟨2, ![E, 1]⟩ w) (e : Fin E) (i : Fin N) : Prop :=
  (idx (rowIdx e)).toInt = (i.val : ℤ)

instance {E w : Nat} (N : Nat) (idx : IVec ⟨2, ![E, 1]⟩ w) (e : Fin E) (i : Fin N) : Decidable (lands N idx e i) := by
  unfold lands; infer_instance

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

theorem start_row : (rowDims N E C wf).start (ix2 e q) idx (0 : Fin 2) = (idx (rowIdx e)).toInt := by
  unfold ScatterDims.start
  rw [dif_pos (show (0 : Fin 2) ∈ (rowDims N E C wf).scatterDimsToOperandDims from List.mem_singleton.mpr rfl)]
  have hsi : (rowDims N E C wf).siIdx (ix2 e q) ⟨List.idxOf (0 : Fin 2) (rowDims N E C wf).scatterDimsToOperandDims,
      List.idxOf_lt_length_iff.2 (List.mem_singleton.mpr rfl)⟩ = rowIdx e := by
    funext b; refine Fin.ext ?_
    match b with
    | ⟨0, _⟩ => rfl
    | ⟨1, _⟩ => rfl
  rw [hsi]

theorem start_col : (rowDims N E C wf).start (ix2 e q) idx (1 : Fin 2) = 0 := by
  unfold ScatterDims.start
  rw [dif_neg (show ¬ (1 : Fin 2) ∈ ([0] : List (Fin 2)) from by decide)]

theorem window_row : (rowDims N E C wf).window (ix2 e q) (0 : Fin 2) = 0 := by
  have h : ¬ (0 : Fin 2) ∈ (rowDims N E C wf).sKept := by
    show ¬ (0 : Fin 2) ∈ (List.finRange 2).filter (fun a => a ∉ ([0] : List (Fin 2)))
    decide
  unfold ScatterDims.window
  rw [dif_neg h]

theorem window_col : (rowDims N E C wf).window (ix2 e q) (1 : Fin 2) = q.val := by
  have h : (1 : Fin 2) ∈ (rowDims N E C wf).sKept := by
    show (1 : Fin 2) ∈ (List.finRange 2).filter (fun a => a ∉ ([0] : List (Fin 2)))
    decide
  unfold ScatterDims.window
  rw [dif_pos h]
  rfl

theorem resultIdx_row (i : Fin N) (q' : Fin C) :
    (rowDims N E C wf).resultIdx? (ix2 e q) idx = some (ix2 i q') ↔ lands N idx e i ∧ q = q' := by
  have s0 := start_row wf idx e q
  have s1 := start_col wf idx e q
  have w0 := window_row wf e q
  have w1 := window_col wf e q
  have hi : i.val < N := i.isLt
  have hq : q.val < C := q.isLt
  unfold ScatterDims.resultIdx? lands
  constructor
  · intro h
    split at h
    · next hin =>
      have hf := Option.some.inj h
      have h0 := hin (0 : Fin 2)
      have e0 : ((rowDims N E C wf).start (ix2 e q) idx (0 : Fin 2) + ((rowDims N E C wf).window (ix2 e q) (0 : Fin 2) : ℤ)).toNat = i.val :=
        congrArg Fin.val (congrFun hf (0 : Fin 2))
      have e1 : ((rowDims N E C wf).start (ix2 e q) idx (1 : Fin 2) + ((rowDims N E C wf).window (ix2 e q) (1 : Fin 2) : ℤ)).toNat = q'.val :=
        congrArg Fin.val (congrFun hf (1 : Fin 2))
      rw [s0, w0] at h0 e0
      rw [s1, w1] at e1
      refine ⟨by omega, Fin.ext (by omega)⟩
    · exact absurd h (by simp)
  · rintro ⟨hl, rfl⟩
    have hin : ∀ a : Fin 2, 0 ≤ (rowDims N E C wf).start (ix2 e q) idx a + ((rowDims N E C wf).window (ix2 e q) a : ℤ)
        ∧ (rowDims N E C wf).start (ix2 e q) idx a + ((rowDims N E C wf).window (ix2 e q) a : ℤ) < ((⟨2, ![N, C]⟩ : Shape).size a : ℤ) := by
      intro a
      match a with
      | ⟨0, _⟩ =>
        show 0 ≤ (rowDims N E C wf).start (ix2 e q) idx (0 : Fin 2) + ((rowDims N E C wf).window (ix2 e q) (0 : Fin 2) : ℤ)
          ∧ (rowDims N E C wf).start (ix2 e q) idx (0 : Fin 2) + ((rowDims N E C wf).window (ix2 e q) (0 : Fin 2) : ℤ) < (N : ℤ)
        rw [s0, w0, hl]; omega
      | ⟨1, _⟩ =>
        show 0 ≤ (rowDims N E C wf).start (ix2 e q) idx (1 : Fin 2) + ((rowDims N E C wf).window (ix2 e q) (1 : Fin 2) : ℤ)
          ∧ (rowDims N E C wf).start (ix2 e q) idx (1 : Fin 2) + ((rowDims N E C wf).window (ix2 e q) (1 : Fin 2) : ℤ) < (C : ℤ)
        rw [s1, w1]; omega
    rw [dif_pos hin]
    refine congrArg some (funext fun a => Fin.ext ?_)
    match a with
    | ⟨0, _⟩ =>
      show ((rowDims N E C wf).start (ix2 e q) idx (0 : Fin 2) + ((rowDims N E C wf).window (ix2 e q) (0 : Fin 2) : ℤ)).toNat = i.val
      rw [s0, w0, hl]; omega
    | ⟨1, _⟩ =>
      show ((rowDims N E C wf).start (ix2 e q) idx (1 : Fin 2) + ((rowDims N E C wf).window (ix2 e q) (1 : Fin 2) : ℤ)).toNat = q.val
      rw [s1, w1]; omega

/-- A row scatter-add at an entry: what was there plus the entries, in its column, of the update rows that go to its row. -/
theorem row_scatterAdd_apply (x : FVec Ideal ⟨2, ![N, C]⟩ .f32) (upd : FVec Ideal ⟨2, ![E, C]⟩ .f32) (i : Fin N) :
    Host.scatterAdd (F := Ideal) (rowDims N E C wf) x idx upd (ix2 i q)
      = x (ix2 i q) + ∑ e : Fin E, if lands N idx e i then upd (ix2 e q) else 0 := by
  show x (ix2 i q) + ∑ j ∈ Finset.univ.filter (fun j => (rowDims N E C wf).resultIdx? j idx = some (ix2 i q)), upd j = _
  congr 1
  rw [Finset.sum_filter, sum_idx2]
  refine Finset.sum_congr rfl fun e _ => ?_
  by_cases hl : lands N idx e i
  · rw [if_pos hl]
    rw [Finset.sum_eq_single q]
    · rw [if_pos ((resultIdx_row wf idx e q i q).mpr ⟨hl, rfl⟩)]
    · intro q'' _ hne
      rw [if_neg (fun h => hne ((resultIdx_row wf idx e q'' i q).mp h).2)]
    · intro h; exact absurd (Finset.mem_univ q) h
  · rw [if_neg hl]
    refine Finset.sum_eq_zero fun q'' _ => ?_
    rw [if_neg (fun h => hl ((resultIdx_row wf idx e q'' i q).mp h).1)]
end

/-- A row scatter-add acts column by column: on a range of columns it is the scatter-add of that range. -/
theorem scatter_cols {N E C C' w : Nat} (off : Nat) (hoff : off + C' ≤ C)
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (idx : IVec ⟨2, ![E, 1]⟩ w)
    (x : FVec Ideal ⟨2, ![N, C]⟩ .f32) (x' : FVec Ideal ⟨2, ![N, C']⟩ .f32)
    (upd : FVec Ideal ⟨2, ![E, C]⟩ .f32) (upd' : FVec Ideal ⟨2, ![E, C']⟩ .f32)
    (hx : ∀ (i : Fin N) (l : Fin C'), x' (ix2 i l) = x (ix2 i (⟨off + l.val, by omega⟩ : Fin C)))
    (hu : ∀ (e : Fin E) (l : Fin C'), upd' (ix2 e l) = upd (ix2 e (⟨off + l.val, by omega⟩ : Fin C)))
    (i : Fin N) (l : Fin C') :
    Host.scatterAdd (F := Ideal) (rowDims N E C' wf') x' idx upd' (ix2 i l)
      = Host.scatterAdd (F := Ideal) (rowDims N E C wf) x idx upd (ix2 i (⟨off + l.val, by omega⟩ : Fin C)) := by
  rw [row_scatterAdd_apply wf' idx l x' upd' i, row_scatterAdd_apply wf idx ⟨off + l.val, by omega⟩ x upd i, hx i l]
  congr 1
  refine Finset.sum_congr rfl fun e _ => ?_
  rw [hu e l]

end Cert.Lib.RowScatter

end
-- ==== Proof.TailBridge.lean ====
import proofs.«418158_j78065325572140_2_alg».proof.Proof.HostMid
import proofs.«418158_j78065325572140_2_alg».proof.Proof.RefTail
import proofs.«418158_j78065325572140_2_alg».proof.Proof.LibRowScatter
import Idealize.ShloMosaic.Lib.ValueIdx
import Idealize.ShloMosaic.Lib.Pipeline.Value
import Idealize.ShloMosaic.Lib.ValueLayout

set_option maxRecDepth 16384

noncomputable section

namespace Cert.TailBridge

open Idealize.ShloMosaic Idealize.ShloMosaic.ValueIdx
open Cert.Lib.RowScatter
open Cert.KernelIdeal.HostMid Cert.ReferenceIdeal.RefTail

theorem clip_eq (x : FVec Ideal ⟨2, ![29040, 11]⟩ .f32) : refClip11 (F := Ideal) x = clip11 (F := Ideal) x := rfl

theorem cnt_eq (idx : IVec ⟨1, ![464640]⟩ 32) : refCntCol (F := Ideal) idx = cntCol (F := Ideal) idx := rfl

theorem comp0_apply (wind3 : FVec Ideal ⟨3, ![464640, 2, 11]⟩ .f32) (e : Fin 464640) (l : Fin 11) :
    refComp0 (F := Ideal) wind3 (ix2 e l) = wind3 (ix3 e (0 : Fin 2) l) := by
  unfold refComp0
  rw [shapeCast_apply _ _ (ix2 e l) (ix3 e (0 : Fin 1) l) (by
    rw [Shape.rowMajor_val_three, Shape.rowMajor_val_two]
    show (e.val * 1 + 0) * 11 + l.val = e.val * 11 + l.val
    omega)]
  exact slice3_axis1_apply 0 wind3 _ e (0 : Fin 1) l (0 : Fin 2) rfl

theorem comp1_apply (wind3 : FVec Ideal ⟨3, ![464640, 2, 11]⟩ .f32) (e : Fin 464640) (l : Fin 11) :
    refComp1 (F := Ideal) wind3 (ix2 e l) = wind3 (ix3 e (1 : Fin 2) l) := by
  unfold refComp1
  rw [shapeCast_apply _ _ (ix2 e l) (ix3 e (0 : Fin 1) l) (by
    rw [Shape.rowMajor_val_three, Shape.rowMajor_val_two]
    show (e.val * 1 + 0) * 11 + l.val = e.val * 11 + l.val
    omega)]
  exact slice3_axis1_apply 1 wind3 _ e (0 : Fin 1) l (1 : Fin 2) rfl

theorem dims11 : Cert.ReferenceIdeal.scatter_S29040x11_S464640x1_S464640x11_1_0_0_1
    = rowDims 29040 464640 11 Cert.ReferenceIdeal.scatter_S29040x11_S464640x1_S464640x11_1_0_0_1.wf := rfl
theorem dims22 : Cert.KernelIdeal.scatter_S29040x22_S464640x1_S464640x22_1_0_0_1
    = rowDims 29040 464640 22 Cert.KernelIdeal.scatter_S29040x22_S464640x1_S464640x22_1_0_0_1.wf := rfl

section
variable (idx : IVec ⟨1, ![464640]⟩ 32) (WIND : FVec Ideal ⟨2, ![464640, 22]⟩ .f32) (wind3 : FVec Ideal ⟨3, ![464640, 2, 11]⟩ .f32)

theorem zeros_cols (off : Nat) (hoff : off + 11 ≤ 22) (i : Fin 29040) (l : Fin 11) :
    (broadcastInDim ⟨2, ![29040, 11]⟩ ![] Cert.ReferenceIdeal.Facts₀.bcast_S_S29040x11
        (constant (F := Ideal) ⟨0, ![]⟩ .f32 0x00000000#32) : FVec Ideal ⟨2, ![29040, 11]⟩ .f32) (ix2 i l)
      = (broadcastInDim ⟨2, ![29040, 22]⟩ ![] Cert.KernelIdeal.Facts₀.bcast_S_S29040x22
        (constant (F := Ideal) ⟨0, ![]⟩ .f32 0x00000000#32) : FVec Ideal ⟨2, ![29040, 22]⟩ .f32)
          (ix2 i (⟨off + l.val, by omega⟩ : Fin 22)) := rfl

theorem sum_lo
    (hw : ∀ (e : Fin 464640) (c : Fin 2) (l : Fin 11), wind3 (ix3 e c l) = WIND (ix2 e (⟨11 * c.val + l.val, by omega⟩ : Fin 22)))
    (i : Fin 29040) (l : Fin 11) :
    refSum11 (F := Ideal) idx (refComp0 wind3) (ix2 i l)
      = windSum (F := Ideal) idx WIND (ix2 i (⟨0 + l.val, by omega⟩ : Fin 22)) := by
  unfold refSum11 windSum
  rw [dims11, dims22]
  exact scatter_cols 0 (by omega) _ _ (rowCol idx)
    (broadcastInDim ⟨2, ![29040, 22]⟩ ![] Cert.KernelIdeal.Facts₀.bcast_S_S29040x22 (constant (F := Ideal) ⟨0, ![]⟩ .f32 0x00000000#32))
    (broadcastInDim ⟨2, ![29040, 11]⟩ ![] Cert.ReferenceIdeal.Facts₀.bcast_S_S29040x11 (constant (F := Ideal) ⟨0, ![]⟩ .f32 0x00000000#32))
    WIND (refComp0 wind3) (zeros_cols 0 (by omega)) (fun e l => by
      rw [comp0_apply, hw e 0 l]
      exact congrArg (fun k : Fin 22 => WIND (ix2 e k)) (Fin.ext (by show 11 * 0 + l.val = 0 + l.val; omega))) i l

theorem sum_hi
    (hw : ∀ (e : Fin 464640) (c : Fin 2) (l : Fin 11), wind3 (ix3 e c l) = WIND (ix2 e (⟨11 * c.val + l.val, by omega⟩ : Fin 22)))
    (i : Fin 29040) (l : Fin 11) :
    refSum11 (F := Ideal) idx (refComp1 wind3) (ix2 i l)
      = windSum (F := Ideal) idx WIND (ix2 i (⟨11 + l.val, by omega⟩ : Fin 22)) := by
  unfold refSum11 windSum
  rw [dims11, dims22]
  exact scatter_cols 11 (by omega) _ _ (rowCol idx)
    (broadcastInDim ⟨2, ![29040, 22]⟩ ![] Cert.KernelIdeal.Facts₀.bcast_S_S29040x22 (constant (F := Ideal) ⟨0, ![]⟩ .f32 0x00000000#32))
    (broadcastInDim ⟨2, ![29040, 11]⟩ ![] Cert.ReferenceIdeal.Facts₀.bcast_S_S29040x11 (constant (F := Ideal) ⟨0, ![]⟩ .f32 0x00000000#32))
    WIND (refComp1 wind3) (zeros_cols 11 (by omega)) (fun e l => by
      rw [comp1_apply, hw e 1 l]
      exact congrArg (fun k : Fin 22 => WIND (ix2 e k)) (Fin.ext (by show 11 * 1 + l.val = 11 + l.val; omega))) i l

theorem hostDivf_apply {s : Shape} (x y : FVec Ideal s .f32) (i : s.Idx) :
    Host.divf x y i = FloatOps.hostDivf (F := Ideal) (x i) (y i) := rfl

theorem meanU_bridge
    (hw : ∀ (e : Fin 464640) (c : Fin 2) (l : Fin 11), wind3 (ix3 e c l) = WIND (ix2 e (⟨11 * c.val + l.val, by omega⟩ : Fin 22))) :
    refMeanU (F := Ideal) idx wind3 = clip11 (F := Ideal) (meanWindLo idx WIND) := by
  unfold refMeanU meanWindLo
  rw [clip_eq, cnt_eq]
  refine congrArg (clip11 (F := Ideal)) (funext fun y => ?_)
  obtain ⟨i, l, rfl⟩ : ∃ (i : Fin 29040) (l : Fin 11), y = ix2 i l := ⟨y 0, y 1, eq_ix2 y⟩
  unfold refMeanOf meanLoOf
  rw [hostDivf_apply, hostDivf_apply]
  refine congrArg₂ (FloatOps.hostDivf (F := Ideal)) ?_ rfl
  rw [sum_lo idx WIND wind3 hw i l]
  exact (slice2_axis1_apply 0 _ _ i l _ rfl).symm

theorem meanV_bridge
    (hw : ∀ (e : Fin 464640) (c : Fin 2) (l : Fin 11), wind3 (ix3 e c l) = WIND (ix2 e (⟨11 * c.val + l.val, by omega⟩ : Fin 22))) :
    refMeanV (F := Ideal) idx wind3 = clip11 (F := Ideal) (meanWindHi idx WIND) := by
  unfold refMeanV meanWindHi
  rw [clip_eq, cnt_eq]
  refine congrArg (clip11 (F := Ideal)) (funext fun y => ?_)
  obtain ⟨i, l, rfl⟩ : ∃ (i : Fin 29040) (l : Fin 11), y = ix2 i l := ⟨y 0, y 1, eq_ix2 y⟩
  unfold refMeanOf meanHiOf
  rw [hostDivf_apply, hostDivf_apply]
  refine congrArg₂ (FloatOps.hostDivf (F := Ideal)) ?_ rfl
  rw [sum_hi idx WIND wind3 hw i l]
  exact (slice2_axis1_apply 11 _ _ i l _ rfl).symm
end

end Cert.TailBridge

end
-- ==== Proof.AlgRef.lean ====
import proofs.«418158_j78065325572140_2_alg».proof.Proof.RChain
import proofs.«418158_j78065325572140_2_alg».proof.Proof.BridgeOut
import proofs.«418158_j78065325572140_2_alg».proof.Proof.TailBridge
import proofs.«418158_j78065325572140_2_alg».proof.Proof.AlgKernel

set_option maxRecDepth 16384

noncomputable section

namespace Cert.AlgRef

open Idealize.ShloMosaic Idealize.ShloMosaic.ValueIdx Idealize.ShloMosaic.TcCoe Idealize.SL.Sem
open Cert.ReferenceIdeal.RefGather Cert.ReferenceIdeal.RefEdge Cert.ReferenceIdeal.RefNode Cert.ReferenceIdeal.RefWind Cert.ReferenceIdeal.RefTail

section Pure
open Cert.KernelIdeal

variable (A0 : FVec Ideal S29040x128 .f32) (A1 A2 : FVec Ideal S29040x11 .f32) (A3 : FVec Ideal S464640x1 .f32)
  (A4 : FVec Ideal S290x128 .f32) (A5 : FVec Ideal S128 .f32) (A6 : FVec Ideal S128x128 .f32) (A7 : FVec Ideal S128 .f32)
  (A8 : FVec Ideal S384x128 .f32) (A9 : FVec Ideal S128 .f32) (A10 : FVec Ideal S128x128 .f32) (A11 : FVec Ideal S128 .f32)
  (A12 : FVec Ideal S128x128 .f32) (A13 : FVec Ideal S128 .f32) (A14 : FVec Ideal S128x22 .f32)
  (row col : IVec S464640 32)

abbrev featR : FVec Ideal S464640x128 .f32 :=
  refFeat (F := Ideal) (refGather128 A0 row) (refGather128 A0 col)
    (refSmall33 (refGather11 A1 row) (refGather11 A2 row) (refGather11 A1 col) (refGather11 A2 col)) A3 A4 A5 A6 A7

theorem featR_eq (hR : ∀ e : Fin 464640, (row (ix1 e)).toNat < 29040) (hC : ∀ e : Fin 464640, (col (ix1 e)).toNat < 29040) : featR A0 A1 A2 A3 A4 A5 A6 A7 row col = Cert.BridgeOut.FEAT A0 A1 A2 A3 A4 A5 A6 A7 row col :=
  Cert.BridgeOut.feat_bridge A0 A1 A2 A3 A4 A5 A6 A7 row col hR hC

theorem out_pure (hR : ∀ e : Fin 464640, (row (ix1 e)).toNat < 29040) (hC : ∀ e : Fin 464640, (col (ix1 e)).toNat < 29040) :
    refOut (F := Ideal) A0 (refAgg row (featR A0 A1 A2 A3 A4 A5 A6 A7 row col))
      (refLatAgg (refAgg row (featR A0 A1 A2 A3 A4 A5 A6 A7 row col))) A8 A9 A10 A11
    = Cert.Spec.Node.out A0 (HostMid.aggOf row (Cert.BridgeOut.FEAT A0 A1 A2 A3 A4 A5 A6 A7 row col))
        (HostMid.wBlock0 A8) (HostMid.wBlock1 A8) (HostMid.wBlock2 A8) (HostMid.biasRow A9) A10 (HostMid.biasRow A11) := by
  rw [featR_eq A0 A1 A2 A3 A4 A5 A6 A7 row col hR hC, Cert.BridgeOut.agg_bridge row]
  exact Cert.BridgeOut.out_bridge A0 A8 A9 A10 A11 _

theorem wind_pure (hR : ∀ e : Fin 464640, (row (ix1 e)).toNat < 29040) (hC : ∀ e : Fin 464640, (col (ix1 e)).toNat < 29040) (e : Fin 464640) (c : Fin 2) (l : Fin 11) :
    refWind (F := Ideal) (featR A0 A1 A2 A3 A4 A5 A6 A7 row col) (refGather11 A1 col) (refGather11 A2 col) A12 A13 A14 (ix3 e c l)
    = Cert.BridgeOut.WIND A0 A1 A2 A3 A4 A5 A6 A7 A12 A13 A14 row col (ix2 e (⟨11 * c.val + l.val, by omega⟩ : Fin 22)) := by
  rw [featR_eq A0 A1 A2 A3 A4 A5 A6 A7 row col hR hC]
  exact Cert.BridgeOut.wind_bridge A0 A1 A2 A3 A4 A5 A6 A7 A12 A13 A14 row col hC e c l

theorem u_pure (hR : ∀ e : Fin 464640, (row (ix1 e)).toNat < 29040) (hC : ∀ e : Fin 464640, (col (ix1 e)).toNat < 29040) :
    refMeanU (F := Ideal) row (refWind (featR A0 A1 A2 A3 A4 A5 A6 A7 row col) (refGather11 A1 col) (refGather11 A2 col) A12 A13 A14)
    = HostMid.clip11 (HostMid.meanWindLo row (Cert.BridgeOut.WIND A0 A1 A2 A3 A4 A5 A6 A7 A12 A13 A14 row col)) :=
  Cert.TailBridge.meanU_bridge row _ _ (wind_pure A0 A1 A2 A3 A4 A5 A6 A7 A12 A13 A14 row col hR hC)

theorem v_pure (hR : ∀ e : Fin 464640, (row (ix1 e)).toNat < 29040) (hC : ∀ e : Fin 464640, (col (ix1 e)).toNat < 29040) :
    refMeanV (F := Ideal) row (refWind (featR A0 A1 A2 A3 A4 A5 A6 A7 row col) (refGather11 A1 col) (refGather11 A2 col) A12 A13 A14)
    = HostMid.clip11 (HostMid.meanWindHi row (Cert.BridgeOut.WIND A0 A1 A2 A3 A4 A5 A6 A7 A12 A13 A14 row col)) :=
  Cert.TailBridge.meanV_bridge row _ _ (wind_pure A0 A1 A2 A3 A4 A5 A6 A7 A12 A13 A14 row col hR hC)

theorem rowVec_eq (ei : IVec S2x464640 32) : Cert.ReferenceIdeal.RChain.refRowVec ei = HostPre.rowVec ei := rfl
theorem colVec_eq (ei : IVec S2x464640 32) : Cert.ReferenceIdeal.RChain.refColVec ei = HostPre.colVec ei := rfl

end Pure

section Run

open Cert.ReferenceIdeal.RChain

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

abbrev Agree : Prop :=
  ∀ c : Dev Cert.KernelIdeal.nD,
      StableHlo.launchContents m' c (Proc.devRef .tc Cert.ReferenceIdeal.main_arg0) = m ((c.tc : Thread Cert.KernelIdeal.nD Cert.KernelIdeal.τ).loc Cert.KernelIdeal.main_arg0)
      ∧ StableHlo.launchContents m' c (Proc.devRef .tc Cert.ReferenceIdeal.main_arg1) = m ((c.tc : Thread Cert.KernelIdeal.nD Cert.KernelIdeal.τ).loc Cert.KernelIdeal.main_arg1)
      ∧ StableHlo.launchContents m' c (Proc.devRef .tc Cert.ReferenceIdeal.main_arg2) = m ((c.tc : Thread Cert.KernelIdeal.nD Cert.KernelIdeal.τ).loc Cert.KernelIdeal.main_arg2)
      ∧ StableHlo.launchContents m' c (Proc.devRef .tc Cert.ReferenceIdeal.main_arg3) = m ((c.tc : Thread Cert.KernelIdeal.nD Cert.KernelIdeal.τ).loc Cert.KernelIdeal.main_arg3)
      ∧ StableHlo.launchContents m' c (Proc.devRef .tc Cert.ReferenceIdeal.main_arg4) = m ((c.tc : Thread Cert.KernelIdeal.nD Cert.KernelIdeal.τ).loc Cert.KernelIdeal.main_arg4)
      ∧ StableHlo.launchContents m' c (Proc.devRef .tc Cert.ReferenceIdeal.main_arg5) = m ((c.tc : Thread Cert.KernelIdeal.nD Cert.KernelIdeal.τ).loc Cert.KernelIdeal.main_arg5)
      ∧ StableHlo.launchContents m' c (Proc.devRef .tc Cert.ReferenceIdeal.main_arg6) = m ((c.tc : Thread Cert.KernelIdeal.nD Cert.KernelIdeal.τ).loc Cert.KernelIdeal.main_arg6)
      ∧ StableHlo.launchContents m' c (Proc.devRef .tc Cert.ReferenceIdeal.main_arg7) = m ((c.tc : Thread Cert.KernelIdeal.nD Cert.KernelIdeal.τ).loc Cert.KernelIdeal.main_arg7)
      ∧ StableHlo.launchContents m' c (Proc.devRef .tc Cert.ReferenceIdeal.main_arg8) = m ((c.tc : Thread Cert.KernelIdeal.nD Cert.KernelIdeal.τ).loc Cert.KernelIdeal.main_arg8)
      ∧ StableHlo.launchContents m' c (Proc.devRef .tc Cert.ReferenceIdeal.main_arg9) = m ((c.tc : Thread Cert.KernelIdeal.nD Cert.KernelIdeal.τ).loc Cert.KernelIdeal.main_arg9)
      ∧ StableHlo.launchContents m' c (Proc.devRef .tc Cert.ReferenceIdeal.main_arg10) = m ((c.tc : Thread Cert.KernelIdeal.nD Cert.KernelIdeal.τ).loc Cert.KernelIdeal.main_arg10)
      ∧ StableHlo.launchContents m' c (Proc.devRef .tc Cert.ReferenceIdeal.main_arg11) = m ((c.tc : Thread Cert.KernelIdeal.nD Cert.KernelIdeal.τ).loc Cert.KernelIdeal.main_arg11)
      ∧ StableHlo.launchContents m' c (Proc.devRef .tc Cert.ReferenceIdeal.main_arg12) = m ((c.tc : Thread Cert.KernelIdeal.nD Cert.KernelIdeal.τ).loc Cert.KernelIdeal.main_arg12)
      ∧ StableHlo.launchContents m' c (Proc.devRef .tc Cert.ReferenceIdeal.main_arg13) = m ((c.tc : Thread Cert.KernelIdeal.nD Cert.KernelIdeal.τ).loc Cert.KernelIdeal.main_arg13)
      ∧ StableHlo.launchContents m' c (Proc.devRef .tc Cert.ReferenceIdeal.main_arg14) = m ((c.tc : Thread Cert.KernelIdeal.nD Cert.KernelIdeal.τ).loc Cert.KernelIdeal.main_arg14)
      ∧ StableHlo.launchContents m' c (Proc.devRef .tc Cert.ReferenceIdeal.main_arg15) = m ((c.tc : Thread Cert.KernelIdeal.nD Cert.KernelIdeal.τ).loc Cert.KernelIdeal.main_arg15)

/-- On agreeing launch arrays whose edge index names nodes only, the reference's node update is the kernel's. -/
theorem out_final (hpre : Cert.Pre_KernelIdeal m) (hagree : Agree m m') (c : Dev Cert.KernelIdeal.nD) :
    StableHlo.after (Cert.ReferenceIdeal.RunP.ops (F := Ideal)) (StableHlo.launchContents m' c) (Proc.devRef .tc Cert.ReferenceIdeal.main_v91)
      = Cert.KernelIdeal.AlgKernel.OUTk m c := by
  obtain ⟨e0, e1, e2, e3, e4, e5, e6, e7, e8, e9, e10, e11, e12, e13, e14, e15⟩ := hagree c
  rw [out_ref]
  dsimp only [FEATr, rowR, colR]
  simp only [e0, e1, e2, e3, e4, e5, e6, e7, e8, e9, e10, e11, e12, e13, e14, e15, rowVec_eq, colVec_eq]
  exact out_pure _ _ _ _ _ _ _ _ _ _ _ _ _ _
    (Cert.BridgeIn.row_lt m hpre c) (Cert.BridgeIn.col_lt m hpre c)

/-- So is its first mean wind. -/
theorem u_final (hpre : Cert.Pre_KernelIdeal m) (hagree : Agree m m') (c : Dev Cert.KernelIdeal.nD) :
    StableHlo.after (Cert.ReferenceIdeal.RunP.ops (F := Ideal)) (StableHlo.launchContents m' c) (Proc.devRef .tc Cert.ReferenceIdeal.main_v122)
      = Cert.KernelIdeal.AlgKernel.Uk m c := by
  obtain ⟨e0, e1, e2, e3, e4, e5, e6, e7, e8, e9, e10, e11, e12, e13, e14, e15⟩ := hagree c
  rw [u_ref]
  dsimp only [FEATr, rowR, colR]
  simp only [e0, e1, e2, e3, e4, e5, e6, e7, e8, e9, e10, e11, e12, e13, e14, e15, rowVec_eq, colVec_eq]
  exact u_pure _ _ _ _ _ _ _ _ _ _ _ _ _
    (Cert.BridgeIn.row_lt m hpre c) (Cert.BridgeIn.col_lt m hpre c)

/-- And its second. -/
theorem v_final (hpre : Cert.Pre_KernelIdeal m) (hagree : Agree m m') (c : Dev Cert.KernelIdeal.nD) :
    StableHlo.after (Cert.ReferenceIdeal.RunP.ops (F := Ideal)) (StableHlo.launchContents m' c) (Proc.devRef .tc Cert.ReferenceIdeal.main_v130)
      = Cert.KernelIdeal.AlgKernel.Vk m c := by
  obtain ⟨e0, e1, e2, e3, e4, e5, e6, e7, e8, e9, e10, e11, e12, e13, e14, e15⟩ := hagree c
  rw [v_ref]
  dsimp only [FEATr, rowR, colR]
  simp only [e0, e1, e2, e3, e4, e5, e6, e7, e8, e9, e10, e11, e12, e13, e14, e15, rowVec_eq, colVec_eq]
  exact v_pure _ _ _ _ _ _ _ _ _ _ _ _ _
    (Cert.BridgeIn.row_lt m hpre c) (Cert.BridgeIn.col_lt m hpre c)

end Run

end Cert.AlgRef

end
-- ==== Proof.lean ====
/-
  A message-passing layer on a latitude–longitude grid, as a kernel in two calls against its plain reference: equal on
  the extended reals whenever every entry of the edge index names a node.
-/
import proofs.«418158_j78065325572140_2_alg».proof.Defs
import proofs.«418158_j78065325572140_2_alg».proof.Proof.Gen.Kernel
import proofs.«418158_j78065325572140_2_alg».proof.Proof.Gen.Kernel.Skeleton
import proofs.«418158_j78065325572140_2_alg».proof.Proof.Gen.Kernel.Launch
import proofs.«418158_j78065325572140_2_alg».proof.Proof.Gen.Kernel.Points
import proofs.«418158_j78065325572140_2_alg».proof.Proof.Gen.Kernel.Frame
import proofs.«418158_j78065325572140_2_alg».proof.Proof.Gen.KernelIdeal
import proofs.«418158_j78065325572140_2_alg».proof.Proof.Gen.KernelIdeal.Skeleton
import proofs.«418158_j78065325572140_2_alg».proof.Proof.Gen.KernelIdeal.Launch
import proofs.«418158_j78065325572140_2_alg».proof.Proof.Gen.KernelIdeal.Points
import proofs.«418158_j78065325572140_2_alg».proof.Proof.Gen.KernelIdeal.Frame
import proofs.«418158_j78065325572140_2_alg».proof.Proof.Gen.ReferenceIdeal
import proofs.«418158_j78065325572140_2_alg».proof.Proof.Gen.Pre_finite_inputs
import proofs.«418158_j78065325572140_2_alg».proof.Proof.AlgKernel
import proofs.«418158_j78065325572140_2_alg».proof.Proof.AlgRef
import Idealize.ShloMosaic.Adequacy
import Idealize.ShloMosaic.Init

set_option maxRecDepth 16384

noncomputable section

namespace Cert.Proof

open Idealize.ShloMosaic Idealize.ShloMosaic.TcCoe Idealize.SL.Sem

theorem frame_p [Cert.Kernel.Facts] [Cert.Pre_finite_inputs.Facts] : Cert.frame_Kernel :=
  fun m ρ _ => Cert.Kernel.Gen.frame m ρ

theorem frame_pi [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ =>
    (θ_run (Cert.ReferenceIdeal.defs (F := Ideal)) _ _).mono (fun _ h c => by
      and_intros <;> exact (h c _).trans (Cert.ReferenceIdeal.RChain.arg_ref _ (by decide)))
      (Cert.ReferenceIdeal.RunP.run_raw (F := Ideal) m ρ)

theorem algebraic [Cert.KernelIdeal.Facts] [Cert.ReferenceIdeal.Facts] [Cert.Pre_finite_inputs.Facts] :
    Cert.algebraic_KernelIdeal_ReferenceIdeal := by
  intro m g m' g' hpre hagree
  refine ⟨Cert.KernelIdeal.AlgKernel.OUTk m, Cert.KernelIdeal.AlgKernel.Uk m, Cert.KernelIdeal.AlgKernel.Vk m,
    Cert.KernelIdeal.AlgKernel.kernel_run m g, ?_⟩
  exact (θ_run (Cert.ReferenceIdeal.defs (F := Ideal)) _ _).mono (fun _ h c =>
      ⟨(h c Cert.ReferenceIdeal.main_v91).trans (Cert.AlgRef.out_final m m' hpre hagree c),
      (h c Cert.ReferenceIdeal.main_v122).trans (Cert.AlgRef.u_final m m' hpre hagree c),
      (h c Cert.ReferenceIdeal.main_v130).trans (Cert.AlgRef.v_final m m' hpre hagree c), by
      and_intros <;> exact (h c _).trans (Cert.ReferenceIdeal.RChain.arg_ref _ (by decide))⟩)
      (Cert.ReferenceIdeal.RunP.run_raw (F := Ideal) m' g')

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
